-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S128x128 .f32) (main_arg5 : FVec F S128 .f32) (main_arg6 : FVec F S128x1 .f32) (main_arg7 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x1 .f32 := Host.absf main_arg6
  let main_cst_10 : FVec F S_ .f32 := constant S_ .f32 0x7F800000#32
  let main_v30 : FVec F S128x1 .f32 := broadcastInDim S128x1 ![] bcast_S_S128x1 main_cst_10
  let main_v31 : IVec S128x1 1 := cmpf .olt main_v29 main_v30
  let main_c_11 : IVec S_ 1 := constantI S_ 1 1#1
  let main_v32 : IVec S_ 1 := (fun x v => Host.reduce IntOp.andi x v reducesTo_S128x1_S_d0_1 h_S_) main_v31 main_c_11
  let main_v33 : IVec S_ 1 := andi main_v28 main_v32
  fn_part2 (F := F) main_arg7 main_v33

def fn {F : FTy → Type} [FloatOps F] (main_arg0 : FVec F S10000x10000 .f32) (main_arg1 : FVec F S10000x128 .f32) (main_arg2 : FVec F S128x128 .f32) (main_arg3 : FVec F S128 .f32) (main_arg4 : FVec F S128x128 .f32) (main_arg5 : FVec F S128 .f32) (main_arg6 : FVec F S128x1 .f32) (main_arg7 : FVec F S1 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x128 : Shape := ⟨2, ![1, 128]⟩
abbrev S1x1 : Shape := ⟨2, ![1, 1]⟩
abbrev S10240x128 : Shape := ⟨2, ![10240, 128]⟩
abbrev S240x128 : Shape := ⟨2, ![240, 128]⟩
abbrev S10240x1 : Shape := ⟨2, ![10240, 1]⟩
abbrev S1280x1280 : Shape := ⟨2, ![1280, 1280]⟩
abbrev S1280x1 : Shape := ⟨2, ![1280, 1]⟩
abbrev S1280x128 : Shape := ⟨2, ![1280, 128]⟩
abbrev S10000x1 : Shape := ⟨2, ![10000, 1]⟩

abbrev nBuf : Space → Nat
  | .hbm => 18
  | .vmem => 28
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S1x128, .f32⟩
  | .hbm, ⟨9, _⟩ => ⟨S1x1, .f32⟩
  | .hbm, ⟨10, _⟩ => ⟨S10240x128, .bf16⟩
  | .hbm, ⟨11, _⟩ => ⟨S128x1, .f32⟩
  | .hbm, ⟨12, _⟩ => ⟨S1x1, .f32⟩
  | .hbm, ⟨13, _⟩ => ⟨S1x128, .f32⟩
  | .hbm, ⟨14, _⟩ => ⟨S10240x1, .f32⟩
  | .hbm, ⟨15, _⟩ => ⟨S10240x1, .f32⟩
  | .hbm, ⟨16, _⟩ => ⟨S10240x1, .f32⟩
  | .hbm, ⟨17, _⟩ => ⟨S10000x1, .f32⟩
  | .local _ .vmem, ⟨0, _⟩ => ⟨S10000x128, .f32⟩
  | .local _ .vmem, ⟨1, _⟩ => ⟨S128x128, .f32⟩
  | .local _ .vmem, ⟨2, _⟩ => ⟨S128x128, .f32⟩
  | .local _ .vmem, ⟨3, _⟩ => ⟨S1x128, .f32⟩
  | .local _ .vmem, ⟨4, _⟩ => ⟨S128x1, .f32⟩
  | .local _ .vmem, ⟨5, _⟩ => ⟨S1x1, .f32⟩
  | .local _ .vmem, ⟨6, _⟩ => ⟨S10240x128, .bf16⟩
  | .local _ .vmem, ⟨7, _⟩ => ⟨S128x1, .f32⟩
  | .local _ .vmem, ⟨8, _⟩ => ⟨S1x1, .f32⟩
  | .local _ .vmem, ⟨9, _⟩ => ⟨S1280x1280, .f32⟩
  | .local _ .vmem, ⟨10, _⟩ => ⟨S1280x1280, .f32⟩
  | .local _ .vmem, ⟨11, _⟩ => ⟨S10240x128, .bf16⟩
  | .local _ .vmem, ⟨12, _⟩ => ⟨S1x128, .f32⟩
  | .local _ .vmem, ⟨13, _⟩ => ⟨S128x1, .f32⟩
  | .local _ .vmem, ⟨14, _⟩ => ⟨S1x1, .f32⟩
  | .local _ .vmem, ⟨15, _⟩ => ⟨S10240x1, .f32⟩
  | .local _ .vmem, ⟨16, _⟩ => ⟨S1280x1, .f32⟩
  | .local _ .vmem, ⟨17, _⟩ => ⟨S1280x1, .f32⟩
  | .local _ .vmem, ⟨18, _⟩ => ⟨S1280x128, .f32⟩
  | .local _ .vmem, ⟨19, _⟩ => ⟨S1280x1280, .f32⟩
  | .local _ .vmem, ⟨20, _⟩ => ⟨S1280x1280, .f32⟩
  | .local _ .vmem, ⟨21, _⟩ => ⟨S1280x1280, .f32⟩
  | .local _ .vmem, ⟨22, _⟩ => ⟨S1280x1, .f32⟩
  | .local _ .vmem, ⟨23, _⟩ => ⟨S1280x1, .f32⟩
  | .local _ .vmem, ⟨24, _⟩ => ⟨S1280x1, .f32⟩
  | .local _ .vmem, ⟨25, _⟩ => ⟨S1280x1, .f32⟩
  | .local _ .vmem, ⟨26, _⟩ => ⟨S1280x1, .f32⟩
  | .local _ .vmem, ⟨27, _⟩ => ⟨S1280x1, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc1_scratch0 : Ref sig .tc := ⟨.vmem, 18, rfl⟩
abbrev cc1_scratch1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S10240x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v3 : BitVec 1 := Scalar.cmpi .slt arg1 c7_i32
  let v4 : BitVec 32 := Scalar.extui v3
  let c0_i32_1 : BitVec 32 := 0#32
  let v5 : BitVec 1 := Scalar.cmpi .ne v4 c0_i32_1
  v5

def k1_off1 (i : grid1.Coords) : Fin 2 → Nat :=
  let arg1 : BitVec 32 := BitVec.ofNat 32 (i 1).val
  let c1280_i32 : BitVec 32 := 1280#32
  let v28 : BitVec 32 := Scalar.muli arg1 c1280_i32
  let v29 : Index := Scalar.indexCast v28
  let c0_14 : Index := 0#32
  ![v29.toNat, 0]
def k1_cond3 (i : grid1.Coords) : BitVec 1 :=
  let arg1 : BitVec 32 := BitVec.ofNat 32 (i 1).val
  let c7_i32_2 : BitVec 32 := 7#32
  let v6 : BitVec 1 := Scalar.cmpi .eq arg1 c7_i32_2
  let v7 : BitVec 32 := Scalar.extui v6
  let c0_i32_3 : BitVec 32 := 0#32
  let v8 : BitVec 1 := Scalar.cmpi .ne v7 c0_i32_3
  v8

def k1_off2 (i : grid1.Coords) : Fin 2 → Nat :=
  let arg1 : BitVec 32 := BitVec.ofNat 32 (i 1).val
  let c1280_i32 : BitVec 32 := 1280#32
  let v33 : BitVec 32 := Scalar.muli arg1 c1280_i32
  let v34 : Index := Scalar.indexCast v33
  let c0_14 : Index := 0#32
  ![v34.toNat, 0]
def k1_cond6 (i : grid1.Coords) : BitVec 1 :=
  let arg1 : BitVec 32 := BitVec.ofNat 32 (i 1).val
  let arg0 : BitVec 32 := BitVec.ofNat 32 (i 0).val
  let v19 : BitVec 1 := Scalar.cmpi .slt arg1 arg0
  let v20 : BitVec 32 := Scalar.extui v19
  let c0_i32_8 : BitVec 32 := 0#32
  let v21 : BitVec 1 := Scalar.cmpi .ne v20 c0_i32_8
  v21

def k1_off3 (i : grid1.Coords) : Fin 2 → Nat :=
  let arg1 : BitVec 32 := BitVec.ofNat 32 (i 1).val
  let c1280_i32 : BitVec 32 := 1280#32
  let v28 : BitVec 32 := Scalar.muli arg1 c1280_i32
  let v29 : Index := Scalar.indexCast v28
  let c0_14 : Index := 0#32
  ![v29.toNat, 0]
def k1_cond7 (i : grid1.Coords) : BitVec 1 :=
  let arg1 : BitVec 32 := BitVec.ofNat 32 (i 1).val
  let c7_i32_9 : BitVec 32 := 7#32
  let v22 : BitVec 1 := Scalar.cmpi .eq arg1 c7_i32_9
  let v23 : BitVec 32 := Scalar.extui v22
  let c0_i32_10 : BitVec 32 := 0#32
  let v24 : BitVec 1 := Scalar.cmpi .ne v23 c0_i32_10
  v24

def k1_off4 (i : grid1.Coords) : Fin 2 → Nat :=
  let arg0 : BitVec 32 := BitVec.ofNat 32 (i 0).val
  let c1280_i32_16 : BitVec 32 := 1280#32
  let v38 : BitVec 32 := Scalar.muli arg0 c1280_i32_16
  let v39 : Index := Scalar.indexCast v38
  let c0_17 : Index := 0#32
  ![v39.toNat, 0]
def k1_cond1 (i : grid1.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1280x1280 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S10240x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S128x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S10240x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1280x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev grid2 : Pipeline.Grid := ⟨2, ![8, 8], ![false, false]⟩

def k2_cond1 (i : grid2.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k2_cond2 (i : grid2.Coords) : BitVec 1 :=
  let arg1 : BitVec 32 := BitVec.ofNat 32 (i 1).val
  let arg0 : BitVec 32 := BitVec.ofNat 32 (i 0).val
  let v3 : BitVec 1 := Scalar.cmpi .sgt arg1 arg0
  let c7_i32 : BitVec 32 := 7#32
  let v4 : BitVec 1 := Scalar.cmpi .slt arg1 c7_i32
  let v5 : BitVec 1 := Scalar.andi v3 v4
  let v6 : BitVec 32 := Scalar.extui v5
  let c0_i32_1 : BitVec 32 := 0#32
  let v7 : BitVec 1 := Scalar.cmpi .ne v6 c0_i32_1
  v7

def k2_cond3 (i : grid2.Coords) : BitVec 1 :=
  let arg1 : BitVec 32 := BitVec.ofNat 32 (i 1).val
  let arg0 : BitVec 32 := BitVec.ofNat 32 (i 0).val
  let v8 : BitVec 1 := Scalar.cmpi .sgt arg1 arg0
  let c7_i32_2 : BitVec 32 := 7#32
  let v9 : BitVec 1 := Scalar.cmpi .eq arg1 c7_i32_2
  let v10 : BitVec 1 := Scalar.andi v8 v9
  let v11 : BitVec 32 := Scalar.extui v10
  let c0_i32_3 : BitVec 32 := 0#32
  let v12 : BitVec 1 := Scalar.cmpi .ne v11 c0_i32_3
  v12

def cc2_transform_0 (i : grid2.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let v1 : BitVec 32 := Scalar.maxsi arg1 v0
  let c7_i32 : BitVec 32 := 7#32
  let v2 : BitVec 32 := Scalar.minsi v1 c7_i32
  let c0_i32 : BitVec 32 := 0#32
  ![arg0.toNat, v2.toNat]

def cc2_transform_1 (i : grid2.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let v1 : BitVec 32 := Scalar.maxsi arg1 v0
  let c7_i32 : BitVec 32 := 7#32
  let v2 : BitVec 32 := Scalar.minsi v1 c7_i32
  let c0_i32 : BitVec 32 := 0#32
  let c0_i32_0 : BitVec 32 := 0#32
  ![v2.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1280x1280 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1280x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1280x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1280x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

class Facts₀ : Prop where
  shapeCasts_S128_S1x128 : S128.ShapeCasts S1x128
  shapeCasts_S1_S1x1 : S1.ShapeCasts S1x1
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  inb_S10240x128_S10000x128_0_0 : ∀ a, (![0, 0] : Fin 2 → Nat) a + S10000x128.size a ≤ S10240x128.size a
  packedbf16_S10240x128_S10000x128_0_0 : (Rect.unit (s := S10240x128) ![0, 0] S10000x128.size inb_S10240x128_S10000x128_0_0).PackedRows (EltTy.packing .bf16)
  inb_S10240x128_S240x128_10000_0 : ∀ a, (![10000, 0] : Fin 2 → Nat) a + S240x128.size a ≤ S10240x128.size a
  h_S240x128 : 0 < S240x128.numel
  packedbf16_S10240x128_S240x128_10000_0 : (Rect.unit (s := S10240x128) ![10000, 0] S240x128.size inb_S10240x128_S240x128_10000_0).PackedRows (EltTy.packing .bf16)
  inb_S128x1_S128x1_0_0 : ∀ a, (![0, 0] : Fin 2 → Nat) a + S128x1.size a ≤ S128x1.size a
  h_S128x1 : 0 < S128x1.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x128_S1280x128 : S1x128.Broadcasts S1280x128
  inb_S1280x128_S1280x128_0_0 : ∀ a, (![0, 0] : Fin 2 → Nat) a + S1280x128.size a ≤ S1280x128.size a
  h_S1280x128 : 0 < S1280x128.numel
  shapeCasts_S1280x128_S1280x128 : S1280x128.ShapeCasts S1280x128
  broadcasts_S1x1_S1280x1 : S1x1.Broadcasts S1280x1
  inb_S1280x1_S1280x1_0_0 : ∀ a, (![0, 0] : Fin 2 → Nat) a + S1280x1.size a ≤ S1280x1.size a
  h_S1280x1 : 0 < S1280x1.numel
  inb_S1280x1280_S1280x1280_0_0 : ∀ a, (![0, 0] : Fin 2 → Nat) a + S1280x1280.size a ≤ S1280x1280.size a
  h_S1280x1280 : 0 < S1280x1280.numel
  iota_S1280x1280_d1_w32 : S1280x1280.Iotas .tc 32 [1]
  shapeCasts_S1280x1280_S1280x1280 : S1280x1280.ShapeCasts S1280x1280
  shapeCasts_S1280x1_S1280x1 : S1280x1.ShapeCasts S1280x1
  shapeCasts_S128x1_S128x1 : S128x1.ShapeCasts S128x1
  iota_S1280x1_d0_w32 : S1280x1.Iotas .tc 32 [0]
  slices_S10240x1_S10000x1_0_0 : S10240x1.Slices ![0, 0] S10000x1
  dot_S10000x128_S128x128_S10000x128_1_0_0_1_n_n_wf : DotDims.WF S10000x128 S128x128 S10000x128 [1] [0] [0] [1] [] []
  dot_S128x128_S128x1_S128x1_1_0_0_1_n_n_wf : DotDims.WF S128x128 S128x1 S128x1 [1] [0] [0] [1] [] []
  dot_S1x128_S128x1_S1x1_1_0_0_1_n_n_wf : DotDims.WF S1x128 S128x1 S1x1 [1] [0] [0] [1] [] []
  dot_S1280x1280_S1280x128_S1280x128_1_0_0_1_n_n_wf : DotDims.WF S1280x1280 S1280x128 S1280x128 [1] [0] [0] [1] [] []
  dot_S1280x1280_S1280x1_S1280x1_1_0_0_1_n_n_wf : DotDims.WF S1280x1280 S1280x1 S1280x1 [1] [0] [0] [1] [] []
  dot_S1280x128_S128x1_S1280x1_1_0_0_1_n_n_wf : DotDims.WF S1280x128 S128x1 S1280x1 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole
  hstage0_7 : ∀ j, (stage0_7 j).IsWhole
  hstage0_8 : ∀ j, (stage0_8 j).IsWhole
  hrank1 : 0 < grid1.rank
  k1_off1_inb : ∀ i : grid1.Coords, ∀ (k1_h2 : k1_cond2 i = 1#1), ∀ a, (k1_off1 i) a + S1280x128.size a ≤ S10240x128.size a
  k1_off2_inb : ∀ i : grid1.Coords, ∀ (k1_h3 : k1_cond3 i = 1#1), ∀ a, (k1_off2 i) a + S1280x128.size a ≤ S10240x128.size a
  k1_off3_inb : ∀ i : grid1.Coords, ∀ (k1_h6 : k1_cond6 i = 1#1), ∀ a, (k1_off3 i) a + S1280x1.size a ≤ S10240x1.size a
  k1_off4_inb : ∀ i : grid1.Coords, ∀ (k1_h7 : k1_cond7 i = 1#1), ∀ a, (k1_off4 i) a + S1280x1.size a ≤ S10240x1.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S1280x1280.size a < S10000x10000.size a
  hwx1_0 : ∀ i : grid1.Coords, EltTy.bits .f32 = 32 ∨ (Rect.unit (s := S10000x10000) (fun a => cc1_transform_0 i a * S1280x1280.size a) (fun a => (Pipeline.Clip.of (cc1_transform_0 i a) (S1280x1280.size a) (S10000x10000.size a)).extent (S1280x1280.size a)) fun a => Pipeline.Clip.inb (Pipeline.Clip.ok_of (hstart1_0 i a))).WholeWords (EltTy.packing .f32)
  hwxs1_0 : ∀ i : grid1.Coords, EltTy.bits .f32 = 32 ∨ (Rect.unit (s := S1280x1280) (fun _ => 0) (fun a => (Pipeline.Clip.of (cc1_transform_0 i a) (S1280x1280.size a) (S10000x10000.size a)).extent (S1280x1280.size a)) fun a => (Nat.zero_add _).trans_le (Pipeline.Clip.extent_le (Pipeline.Clip.ok_of (hstart1_0 i a)))).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10240x128.size a ≤ S10240x128.size a
  hwx1_1 : ∀ i : grid1.Coords, EltTy.bits .bf16 = 32 ∨ (Rect.block (s := S10240x128) S10240x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x1.size a ≤ S128x1.size a
  hwx1_3 : ∀ i : grid1.Coords, EltTy.bits .f32 = 32 ∨ (Rect.block (s := S128x1) S128x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S10240x1.size a ≤ S10240x1.size a
  hwx1_5 : ∀ i : grid1.Coords, EltTy.bits .f32 = 32 ∨ (Rect.block (s := S10240x1) S10240x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1280x1.size a ≤ S10240x1.size a
  hwx1_6 : ∀ i : grid1.Coords, EltTy.bits .f32 = 32 ∨ (Rect.block (s := S10240x1) S1280x1.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hstart2_0 : ∀ (i : grid2.Coords) a, cc2_transform_0 i a * S1280x1280.size a < S10000x10000.size a
  hwx2_0 : ∀ i : grid2.Coords, EltTy.bits .f32 = 32 ∨ (Rect.unit (s := S10000x10000) (fun a => cc2_transform_0 i a * S1280x1280.size a) (fun a => (Pipeline.Clip.of (cc2_transform_0 i a) (S1280x1280.size a) (S10000x10000.size a)).extent (S1280x1280.size a)) fun a => Pipeline.Clip.inb (Pipeline.Clip.ok_of (hstart2_0 i a))).WholeWords (EltTy.packing .f32)
  hwxs2_0 : ∀ i : grid2.Coords, EltTy.bits .f32 = 32 ∨ (Rect.unit (s := S1280x1280) (fun _ => 0) (fun a => (Pipeline.Clip.of (cc2_transform_0 i a) (S1280x1280.size a) (S10000x10000.size a)).extent (S1280x1280.size a)) fun a => (Nat.zero_add _).trans_le (Pipeline.Clip.extent_le (Pipeline.Clip.ok_of (hstart2_0 i a)))).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1280x1.size a ≤ S10240x1.size a
  hwx2_1 : ∀ i : grid2.Coords, EltTy.bits .f32 = 32 ∨ (Rect.block (s := S10240x1) S1280x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1280x1.size a ≤ S10240x1.size a
  hwx2_2 : ∀ i : grid2.Coords, EltTy.bits .f32 = 32 ∨ (Rect.block (s := S10240x1) S1280x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1280x1.size a ≤ S10240x1.size a
  hwx2_3 : ∀ i : grid2.Coords, EltTy.bits .f32 = 32 ∨ (Rect.block (s := S10240x1) S1280x1.size (cc2_transform_3 i) (hinb2_3 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S128x128_S128x1_S128x1_1_0_0_1_n_n : DotDims S128x128 S128x1 S128x1 where
  lhsContracting := [1]
  rhsContracting := [0]
  lhsNonContracting := [0]
  rhsNonContracting := [1]
  lhsBatch := []
  rhsBatch := []
  wf := dot_S128x128_S128x1_S128x1_1_0_0_1_n_n_wf
def dot_S1x128_S128x1_S1x1_1_0_0_1_n_n : DotDims S1x128 S128x1 S1x1 where
  lhsContracting := [1]
  rhsContracting := [0]
  lhsNonContracting := [0]
  rhsNonContracting := [1]
  lhsBatch := []
  rhsBatch := []
  wf := dot_S1x128_S128x1_S1x1_1_0_0_1_n_n_wf
def dot_S1280x1280_S1280x128_S1280x128_1_0_0_1_n_n : DotDims S1280x1280 S1280x128 S1280x128 where
  lhsContracting := [1]
  rhsContracting := [0]
  lhsNonContracting := [0]
  rhsNonContracting := [1]
  lhsBatch := []
  rhsBatch := []
  wf := dot_S1280x1280_S1280x128_S1280x128_1_0_0_1_n_n_wf
def dot_S1280x1280_S1280x1_S1280x1_1_0_0_1_n_n : DotDims S1280x1280 S1280x1 S1280x1 where
  lhsContracting := [1]
  rhsContracting := [0]
  lhsNonContracting := [0]
  rhsNonContracting := [1]
  lhsBatch := []
  rhsBatch := []
  wf := dot_S1280x1280_S1280x1_S1280x1_1_0_0_1_n_n_wf
def dot_S1280x128_S128x1_S1280x1_1_0_0_1_n_n : DotDims S1280x128 S128x1 S1280x1 where
  lhsContracting := [1]
  rhsContracting := [0]
  lhsNonContracting := [0]
  rhsNonContracting := [1]
  lhsBatch := []
  rhsBatch := []
  wf := dot_S1280x128_S128x1_S1280x1_1_0_0_1_n_n_wf

abbrev win0_0 : Pipeline.Window sig grid0 :=
  Pipeline.Window.whole (Memref.whole main_arg1) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_arg4) false false (stage0_2 0) (sem0_2 0) (Memref.isWhole_whole _) (hstage0_2 0)

abbrev win0_3 : Pipeline.Window sig grid0 :=
  Pipeline.Window.whole (Memref.whole main_v0) false false (stage0_3 0) (sem0_3 0) (Memref.isWhole_whole _) (hstage0_3 0)

abbrev win0_4 : Pipeline.Window sig grid0 :=
  Pipeline.Window.whole (Memref.whole main_arg6) false false (stage0_4 0) (sem0_4 0) (Memref.isWhole_whole _) (hstage0_4 0)

abbrev win0_5 : Pipeline.Window sig grid0 :=
  Pipeline.Window.whole (Memref.whole main_v1) false false (stage0_5 0) (sem0_5 0) (Memref.isWhole_whole _) (hstage0_5 0)

abbrev win0_6 : Pipeline.Window sig grid0 :=
  Pipeline.Window.whole (Memref.whole main_v2_0) true false (stage0_6 0) (sem0_6 0) (Memref.isWhole_whole _) (hstage0_6 0)

abbrev win0_7 : Pipeline.Window sig grid0 :=
  Pipeline.Window.whole (Memref.whole main_v2_1) true false (stage0_7 0) (sem0_7 0) (Memref.isWhole_whole _) (hstage0_7 0)

abbrev win0_8 : Pipeline.Window sig grid0 :=
  Pipeline.Window.whole (Memref.whole main_v2_2) true false (stage0_8 0) (sem0_8 0) (Memref.isWhole_whole _) (hstage0_8 0)

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpecClip (Memref.whole main_arg0) S1280x1280.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpec (Memref.whole main_v2_0) S10240x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2_1) S128x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2_2) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v4_0) S10240x1.size cc1_transform_5 reads1_5 true true 1 stage1_5 sem1_5
    hrank1 hreads1_5 hinb1_5 nbuf1_5 (Memref.isWhole_whole _) hwx1_5 hstage1_5

abbrev win1_6 : Pipeline.Window sig grid1 :=
  Pipeline.Window.ofSpec (Memref.whole main_v4_1) S1280x1.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun i => !(k1_cond7 i == 1#1) | 6 => fun i => !(k1_cond1 i == 1#1) && !(k1_cond6 i == 1#1) && !(k1_cond7 i == 1#1) | ⟨_ + 7, h⟩ => absurd h (Nat.not_lt.2 (Nat.le_add_left _ _))

abbrev win2_0 : Pipeline.Window sig grid2 :=
  Pipeline.Window.ofSpecClip (Memref.whole main_arg0) S1280x1280.size cc2_transform_0 reads2_0 false false 2 stage2_0 sem2_0
    hrank2 hreads2_0 hstart2_0 nbuf2_0 (Memref.isWhole_whole _) hwx2_0 hwxs2_0 hstage2_0

abbrev win2_1 : Pipeline.Window sig grid2 :=
  Pipeline.Window.ofSpec (Memref.whole main_v4_0) S1280x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v4_1) S1280x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v5) S1280x1.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond1 i == 1#1) && !(k2_cond2 i == 1#1) && !(k2_cond3 i == 1#1) | ⟨_ + 4, h⟩ => absurd h (Nat.not_lt.2 (Nat.le_add_left _ _))

class Facts : Prop extends Facts₀ where

variable [Facts]
-- ==== ReferenceIdeal.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x128 : Shape := ⟨2, ![1, 128]⟩
abbrev S_ : Shape := ⟨0, ![]⟩
abbrev S10000x1 : Shape := ⟨2, ![10000, 1]⟩
abbrev S1x1 : Shape := ⟨2, ![1, 1]⟩

abbrev nBuf : Space → Nat
  | .hbm => 25
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S10000x128, .f32⟩
  | .hbm, ⟨9, _⟩ => ⟨S10000x128, .f32⟩
  | .hbm, ⟨10, _⟩ => ⟨S1x128, .f32⟩
  | .hbm, ⟨11, _⟩ => ⟨S10000x128, .f32⟩
  | .hbm, ⟨12, _⟩ => ⟨S10000x128, .f32⟩
  | .hbm, ⟨13, _⟩ => ⟨S_, .f32⟩
  | .hbm, ⟨14, _⟩ => ⟨S10000x128, .f32⟩
  | .hbm, ⟨15, _⟩ => ⟨S10000x128, .f32⟩
  | .hbm, ⟨16, _⟩ => ⟨S10000x128, .f32⟩
  | .hbm, ⟨17, _⟩ => ⟨S10000x128, .f32⟩
  | .hbm, ⟨18, _⟩ => ⟨S1x128, .f32⟩
  | .hbm, ⟨19, _⟩ => ⟨S10000x128, .f32⟩
  | .hbm, ⟨20, _⟩ => ⟨S10000x128, .f32⟩
  | .hbm, ⟨21, _⟩ => ⟨S10000x1, .f32⟩
  | .hbm, ⟨22, _⟩ => ⟨S1x1, .f32⟩
  | .hbm, ⟨23, _⟩ => ⟨S10000x1, .f32⟩
  | .hbm, ⟨24, _⟩ => ⟨S10000x1, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S1_S1x1_1 : S1.BroadcastsInDim S1x1 (![1] : Fin 1 → Fin S1x1.rank)
  bcast_S1x1_S10000x1_0_1 : S1x1.BroadcastsInDim S10000x1 (![0, 1] : Fin 2 → Fin S10000x1.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x1_S10000x1_1_0_0_1_n_n_wf : DotDims.WF S10000x128 S128x1 S10000x1 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x1_S10000x1_1_0_0_1_n_n : DotDims S10000x128 S128x1 S10000x1 where
  lhsContracting := [1]
  rhsContracting := [0]
  lhsNonContracting := [0]
  rhsNonContracting := [1]
  lhsBatch := []
  rhsBatch := []
  wf := dot_S10000x128_S128x1_S10000x1_1_0_0_1_n_n_wf

class Facts : Prop extends Facts₀ where

variable [Facts]
-- ==== Proof.RegionFragment.lean ====
import proofs.«161930_g22909355557424_cont_8to1_1761_12_alg».proof.Proof.Gen.KernelIdeal.Regions
import Idealize.ShloMosaic.Lib.Pipeline.Kit

noncomputable section

namespace Cert.KernelIdeal.Frag

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat HostSeg)

variable {F : FTy → Type} [FloatOps F]

abbrev UU : Type := UR sig nD τ × UR sig nD τ

local notation "𝕄" => MT nD τ sig Unit (Elt F) ℕ UU ℕ

abbrev embLaunch : Emb (UR sig nD τ) (MT nD τ sig Unit (Elt F) ℕ UU ℕ) := embL
abbrev embRegion : Emb (UR sig nD τ) (MT nD τ sig Unit (Elt F) ℕ UU ℕ) := embR

abbrev 𝒱₀ : Variants := Variants.none
abbrev L : GSem nD τ sig → Finset Unit := fun _ => ∅
abbrev lv : GSem nD τ sig → Unit → ℕ := fun _ _ => 0

def cellGhost (p : Fin 3) (c : Dev nD) : sProp 𝕄 :=
  iprop(Pipeline.cellsGhost (Pipeline.pin (pcfgs (F := F)) adm) (embRegion (F := F)) p c
    ∗ Pipeline.toksInit (Pipeline.pin (pcfgs (F := F)) adm) (embRegion (F := F)) p c)

-- A region's call as an item of the host program, for a record over any proof data.
def regionFragment (rdats : (p : Fin 3) → (c : Dev nD) → RDat τ (Elt F) Unit ℕ UU ℕ (Pipeline.pin (pcfgs (F := F)) adm p) c)
    {p : Fin 3} (R : Pipeline.RDat.RegionSeg (pcfgs (F := F)) adm rdats () defs₀ 𝒱₀ L lv p) :
    HostSeg (Ix := Unit) (Name := ℕ) (U := UU) (Lvl := ℕ) (pcfgs (F := F)) defs₀ 𝒱₀ L lv where
  prog := Prog.lift (.customCall (Pipeline.entry p) ())
  pre c := iprop(R.pre c ∗ cellGhost (F := F) p c)
  post c := R.post c
  run c β k K := by
    unfold cellGhost
    iintro ⟨Hk, Hbd, ⟨Hpre, Hg, Ht⟩, #Hla⟩
    iapply Pipeline.RDat.RegionSeg.wp (pcfgs (F := F)) adm rdats () cellOf_inj (embRegion (F := F)) defs₀ 𝒱₀ L lv R c none
      (fun u h => nomatch h) k K
    iframe
    iexact Hla

def launchElt : UU :=
  (initOf (Pipeline.cells (Pipeline.pin (pcfgs (F := F)) adm) cellOf_inj) (Pipeline.launchToks (Pipeline.pin (pcfgs (F := F)) adm) cellOf_inj),
   initOf (Pipeline.cells (Pipeline.pin (pcfgs (F := F)) adm) cellOf_inj) (Pipeline.launchToks (Pipeline.pin (pcfgs (F := F)) adm) cellOf_inj))

theorem launch_ghost :
    (ownU (launchElt (F := F)) : sProp 𝕄)
      ⊢ |={Set.univ}=> iprop(BI.own (embLaunch (F := F) (initOf (Pipeline.cells (Pipeline.pin (pcfgs (F := F)) adm) cellOf_inj)
            (Pipeline.launchToks (Pipeline.pin (pcfgs (F := F)) adm) cellOf_inj)))
          ∗ bigSep Finset.univ fun c : Dev nD => bigSep Finset.univ fun p : Fin 3 => cellGhost (F := F) p c) := by
  unfold launchElt
  iintro H
  ihave H' := (ownU_pair _ _) $$ H
  icases H' with ⟨HL, HR⟩
  imod (Pipeline.fund_ghost (Pipeline.pin (pcfgs (F := F)) adm) (embRegion (F := F)) cellOf_inj) $$ HR with ⟨Hg, Ht⟩
  imodintro
  unfold cellGhost
  simp only [bigSep_sep']
  iframe

end Cert.KernelIdeal.Frag

end
-- ==== Proof.Between.lean ====
import proofs.«161930_g22909355557424_cont_8to1_1761_12_alg».proof.Proof.RegionFragment

noncomputable section

namespace Cert.KernelIdeal.Between

open Cert.KernelIdeal Cert.KernelIdeal.Gen Cert.KernelIdeal.Frag
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev rest (c : Dev nD) : sProp 𝕄 :=
  iprop((∃ r, prngReg c r) ∗ ∃ W, owes (c : Thread nD τ) (0 : CellTallies nD τ sig Unit) W)

abbrev at_ (V : Valuation τ sig (Elt F)) (c : Dev nD) : sProp 𝕄 :=
  iprop(StableHlo.held (c : Thread nD τ) (Pipeline.ucRefs τ sig) V ∗ rest (F := F) c)

-- What is claimed, on each core, of the contents each region leaves in the buffers it may change.
structure Leaves (m : (ℓ : Loc nD τ sig) → Buf (Elt F) ℓ) where
  after0 : Outs (F := F) → Dev nD → Prop
  after1 : Outs (F := F) → Dev nD → Prop
  after2 : Outs (F := F) → Dev nD → Prop

def Leaves.nothing (m : (ℓ : Loc nD τ sig) → Buf (Elt F) ℓ) : Leaves (F := F) m := ⟨fun _ _ => True, fun _ _ => True, fun _ _ => True⟩

variable (m : (ℓ : Loc nD τ sig) → Buf (Elt F) ℓ) (P : Leaves (F := F) m)

-- The states between the items: a region's results are held at SOME contents of which the claim holds.
abbrev T1 (c : Dev nD) : sProp 𝕄 := at_ (F := F) (V1 m c) c
abbrev T2 (c : Dev nD) : sProp 𝕄 := iprop(∃ o : Outs (F := F), ⌜P.after0 o c⌝ ∗ at_ (F := F) (V2 m o c) c)
abbrev T3 (o : Outs (F := F)) (c : Dev nD) : sProp 𝕄 := at_ (F := F) (V3 m o c) c
abbrev T4 (o : Outs (F := F)) (c : Dev nD) : sProp 𝕄 :=
  iprop(∃ o' : Outs (F := F), ⌜o' 2 = o 2 ∧ P.after1 o' c⌝ ∗ at_ (F := F) (V4 m o' c) c)
abbrev T4at (o : Outs (F := F)) (c : Dev nD) : sProp 𝕄 := at_ (F := F) (V4 m o c) c
abbrev T5 (o : Outs (F := F)) (c : Dev nD) : sProp 𝕄 :=
  iprop(∃ o' : Outs (F := F), ⌜o' 2 = o 2 ∧ o' 4 = o 4 ∧ P.after2 o' c⌝ ∗ at_ (F := F) (V5 m o' c) c)

end Cert.KernelIdeal.Between

end
-- ==== Proof.Segments.lean ====
import proofs.«161930_g22909355557424_cont_8to1_1761_12_alg».proof.Proof.Between

noncomputable section

namespace Cert.KernelIdeal.Segments

open Cert.KernelIdeal Cert.KernelIdeal.Gen Cert.KernelIdeal.Frag
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (HostSeg)

variable {F : FTy → Type} [FloatOps F]

local notation "𝕄" => MT nD τ sig Unit (Elt F) ℕ UU ℕ

abbrev Frag : Type _ := HostSeg (Ix := Unit) (Name := ℕ) (U := UU) (Lvl := ℕ) (pcfgs (F := F)) defs₀ 𝒱₀ L lv

-- An item with a resource carried along unchanged.
def carry (H : Frag (F := F)) (Rr : Dev nD → sProp 𝕄) : Frag (F := F) where
  prog := H.prog
  pre c := iprop(H.pre c ∗ Rr c)
  post c := iprop(H.post c ∗ Rr c)
  run c β k K := by
    iintro ⟨Hk, Hbd, ⟨Hpre, HR⟩, #Hla⟩
    iapply H.run c k K
    isplitl [Hk HR]
    · iintro ⟨Hbd, Hpost⟩
      iapply Hk
      iframe
    · iframe
      iexact Hla

-- One program, an item of it for every `a`: entered at some `a`'s entry state it reaches that `a`'s exit state.
def some_ {α : Type} (prog : Prog (TpuEff nD τ sig (Elt F) (Pipeline.Sig Λ₀ (Fin 3) fun p => (pcfgs (F := F) p).Adm) .tc) PUnit)
    (H : α → Frag (F := F)) (hp : ∀ a, (H a).prog = prog) : Frag (F := F) where
  prog := prog
  pre c := iprop(∃ a, (H a).pre c)
  post c := iprop(∃ a, (H a).post c)
  run c β k K := by
    iintro ⟨Hk, Hbd, ⟨%a, Hpre⟩, #Hla⟩
    rw [← hp a]
    iapply (H a).run c k K
    isplitl [Hk]
    · iintro ⟨Hbd, Hpost⟩
      iapply Hk
      isplitl [Hbd]; · iexact Hbd
      iexists a; iexact Hpost
    · iframe
      iexact Hla

end Cert.KernelIdeal.Segments

end
-- ==== Proof.Whole.lean ====
import proofs.«161930_g22909355557424_cont_8to1_1761_12_alg».proof.Proof.Segments

noncomputable section

namespace Cert.KernelIdeal.Whole

open Cert.KernelIdeal Cert.KernelIdeal.Gen Cert.KernelIdeal.Frag Cert.KernelIdeal.Between Cert.KernelIdeal.Segments
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat HostSeg)

variable {F : FTy → Type} [FloatOps F]

local notation "𝕄" => MT nD τ sig Unit (Elt F) ℕ UU ℕ

variable (m : (ℓ : Loc nD τ sig) → Buf (Elt F) ℓ) (P : Leaves (F := F) m)

def known4 (o : Outs (F := F)) (c : Dev nD) : Prop := ∃ o₀ : Outs (F := F), P.after0 o₀ c ∧ o 2 = o₀ 2 ∧ P.after1 o c
def known5 (o : Outs (F := F)) (c : Dev nD) : Prop := ∃ o₁ : Outs (F := F), known4 m P o₁ c ∧ o 2 = o₁ 2 ∧ o 4 = o₁ 4 ∧ P.after2 o c

-- Every argument array holds in the memory `s` what it holds in `m`.
abbrev argsKept (s : (ℓ : Loc nD τ sig) → Buf (Elt F) ℓ) (c : Dev nD) : Prop :=
  s ((c.tc : Thread nD τ).loc main_arg0) = m ((c.tc : Thread nD τ).loc main_arg0) ∧ s ((c.tc : Thread nD τ).loc main_arg1) = m ((c.tc : Thread nD τ).loc main_arg1)
  ∧ s ((c.tc : Thread nD τ).loc main_arg2) = m ((c.tc : Thread nD τ).loc main_arg2) ∧ s ((c.tc : Thread nD τ).loc main_arg3) = m ((c.tc : Thread nD τ).loc main_arg3)
  ∧ s ((c.tc : Thread nD τ).loc main_arg4) = m ((c.tc : Thread nD τ).loc main_arg4) ∧ s ((c.tc : Thread nD τ).loc main_arg5) = m ((c.tc : Thread nD τ).loc main_arg5)
  ∧ s ((c.tc : Thread nD τ).loc main_arg6) = m ((c.tc : Thread nD τ).loc main_arg6) ∧ s ((c.tc : Thread nD τ).loc main_arg7) = m ((c.tc : Thread nD τ).loc main_arg7)

abbrev g3 (c : Dev nD) : sProp 𝕄 := iprop(cellGhost (F := F) 0 c ∗ cellGhost (F := F) 1 c ∗ cellGhost (F := F) 2 c)
abbrev g2 (c : Dev nD) : sProp 𝕄 := iprop(cellGhost (F := F) 1 c ∗ cellGhost (F := F) 2 c)

theorem ghost_three (c : Dev nD) : (bigSep Finset.univ fun p : Fin 3 => cellGhost (F := F) p c) = g3 (F := F) c :=
  bigSep_univ_eq_bigSepL [(0 : Fin 3), (1 : Fin 3), (2 : Fin 3)] (by decide) (by decide) _

abbrev restAt : Fin 4 → Dev nD → sProp 𝕄 := fun _ c => rest (F := F) c

section Records

variable (rd0 : (p : Fin 3) → (c : Dev nD) → RDat τ (Elt F) Unit ℕ UU ℕ (Pipeline.pin (pcfgs (F := F)) adm p) c)
  (R0 : Pipeline.RDat.RegionSeg (pcfgs (F := F)) adm rd0 () defs₀ 𝒱₀ L lv 0)
  (rd1 : Outs (F := F) → (p : Fin 3) → (c : Dev nD) → RDat τ (Elt F) Unit ℕ UU ℕ (Pipeline.pin (pcfgs (F := F)) adm p) c)
  (R1 : (o : Outs (F := F)) → Pipeline.RDat.RegionSeg (pcfgs (F := F)) adm (rd1 o) () defs₀ 𝒱₀ L lv 1)
  (rd2 : Outs (F := F) → (p : Fin 3) → (c : Dev nD) → RDat τ (Elt F) Unit ℕ UU ℕ (Pipeline.pin (pcfgs (F := F)) adm p) c)
  (R2 : (o : Outs (F := F)) → Pipeline.RDat.RegionSeg (pcfgs (F := F)) adm (rd2 o) () defs₀ 𝒱₀ L lv 2)

def f0 : Frag (F := F) := carry (seg0 m 𝒱₀ L lv (restAt (F := F))) (g3 (F := F))
def f1 : Frag (F := F) := carry (regionFragment rd0 R0) (g2 (F := F))
def f2 : Frag (F := F) := some_ (StableHlo.seq hostOps1)
  (fun o : Outs (F := F) => carry (seg2 m o 𝒱₀ L lv (restAt (F := F))) fun c => iprop(⌜P.after0 o c⌝ ∗ g2 (F := F) c)) fun _ => rfl
def f3 : Frag (F := F) := some_ (Prog.lift (.customCall (Pipeline.entry 1) ()))
  (fun o : Outs (F := F) => carry (regionFragment (rd1 o) (R1 o)) fun c => iprop(⌜P.after0 o c⌝ ∗ cellGhost (F := F) 2 c)) fun _ => rfl
def f4 : Frag (F := F) := some_ (Prog.lift (.customCall (Pipeline.entry 2) ()))
  (fun o : Outs (F := F) => carry (regionFragment (rd2 o) (R2 o)) fun c => iprop(⌜known4 m P o c⌝)) fun _ => rfl
def f5 : Frag (F := F) := some_ (StableHlo.seq hostOps3)
  (fun o : Outs (F := F) => carry (seg5 m o 𝒱₀ L lv (restAt (F := F))) fun c => iprop(⌜known5 m P o c⌝)) fun _ => rfl

-- The host program is six items in a row; each region's exit state is opened before the next item's record is chosen.
theorem run (ρ : Dev nD → PrngReg)
    (hpre0 : ∀ c, R0.pre c = T1 (F := F) m c) (hpost0 : ∀ c, R0.post c = T2 (F := F) m P c)
    (hpre1 : ∀ o c, (R1 o).pre c = T3 (F := F) m o c) (hpost1 : ∀ o c, (R1 o).post c = T4 (F := F) m P o c)
    (hpre2 : ∀ o c, (R2 o).pre c = T4at (F := F) m o c) (hpost2 : ∀ o c, (R2 o).post c = T5 (F := F) m P o c) :
    θ_run defs (onTc (τ := τ) (main (F := F))) ⟨m, fun _ => 0, ρ⟩ (fun r => ∀ c : Dev nD,
      (∃ o : Outs (F := F), known5 m P o c ∧ r.2.mem ((c.tc : Thread nD τ).loc main_v6) = V6 m o c main_v6) ∧ argsKept m r.2.mem c) := by
  refine Pipeline.RDat.θ_run_regions_kit_dev (pcfgs (F := F)) adm rd0 () cellOf_inj (embLaunch (F := F)) defs₀ 𝒱₀ L lv m ρ main
    (fun _ => [.host (f0 m), .host (f1 rd0 R0), .host (f2 m P), .host (f3 m P rd1 R1), .host (f4 m P rd2 R2), .host (f5 m P)])
    (fun c Q => by
      rewrite [main_chain c, Pipeline.RDat.Seg.run_eq_chain]
      exact .rfl)
    (fun c => by simp only [Pipeline.RDat.Seg.pipes_host, Pipeline.RDat.Seg.pipes_nil]; exact List.nodup_nil)
    (fun _ => 0) (fun _ _ => rfl) (fun c => bigSep Finset.univ fun p : Fin 3 => cellGhost (F := F) p c) (launchElt (F := F)) launch_ghost
    (T₀ := fun c => iprop(at_ (F := F) (V0 m c) c ∗ g3 (F := F) c))
    (Tₙ := fun c => iprop(∃ o : Outs (F := F), ⌜known5 m P o c⌝ ∗ StableHlo.held (c : Thread nD τ) (Pipeline.ucRefs τ sig) (V6 m o c) ∗ ∃ r, prngReg c r))
    (hch := fun c => ⟨.rfl, ?_, ?_, ?_, ?_, ?_, ?_⟩)
    (hinit := ?_) (QY := _) (hfin := fun c s' => ?_) (hQ := fun _ h => h)
  · show iprop(T1 (F := F) m c ∗ g3 (F := F) c) ⊢ iprop((R0.pre c ∗ cellGhost (F := F) 0 c) ∗ g2 (F := F) c)
    rw [hpre0 c]
    iintro ⟨H, Hg0, Hg⟩
    iframe
  · show iprop(R0.post c ∗ g2 (F := F) c) ⊢ iprop(∃ o : Outs (F := F), at_ (F := F) (V2 m o c) c ∗ ⌜P.after0 o c⌝ ∗ g2 (F := F) c)
    rw [hpost0 c]
    iintro ⟨⟨%o, %ho, H⟩, Hg⟩
    iexists o
    iframe %ho
    iframe
  · show iprop(∃ o : Outs (F := F), T3 (F := F) m o c ∗ ⌜P.after0 o c⌝ ∗ g2 (F := F) c)
      ⊢ iprop(∃ o : Outs (F := F), ((R1 o).pre c ∗ cellGhost (F := F) 1 c) ∗ ⌜P.after0 o c⌝ ∗ cellGhost (F := F) 2 c)
    simp only [hpre1]
    iintro ⟨%o, H, %ho, Hg1, Hg2⟩
    iexists o
    iframe %ho
    iframe
  · show iprop(∃ o : Outs (F := F), (R1 o).post c ∗ ⌜P.after0 o c⌝ ∗ cellGhost (F := F) 2 c)
      ⊢ iprop(∃ o : Outs (F := F), ((R2 o).pre c ∗ cellGhost (F := F) 2 c) ∗ ⌜known4 m P o c⌝)
    simp only [hpost1, hpre2]
    iintro ⟨%o, ⟨%o', %ho', H⟩, %ho, Hg2⟩
    iexists o'
    have hk : known4 m P o' c := ⟨o, ho, ho'.1, ho'.2⟩
    iframe %hk
    iframe
  · show iprop(∃ o : Outs (F := F), (R2 o).post c ∗ ⌜known4 m P o c⌝) ⊢ iprop(∃ o : Outs (F := F), at_ (F := F) (V5 m o c) c ∗ ⌜known5 m P o c⌝)
    simp only [hpost2]
    iintro ⟨%o, ⟨%o', %ho', H⟩, %ho⟩
    iexists o'
    have hk : known5 m P o' c := ⟨o, ho, ho'.1, ho'.2.1, ho'.2.2⟩
    iframe %hk
    iframe
  · show iprop(∃ o : Outs (F := F), (StableHlo.held (c : Thread nD τ) (Pipeline.ucRefs τ sig) (V6 m o c) ∗ rest (F := F) c) ∗ ⌜known5 m P o c⌝)
      ⊢ iprop((∃ o : Outs (F := F), ⌜known5 m P o c⌝ ∗ StableHlo.held (c : Thread nD τ) (Pipeline.ucRefs τ sig) (V6 m o c) ∗ ∃ r, prngReg c r)
          ∗ ∃ W, owes (c.tc : Thread nD τ) (0 : CellTallies nD τ sig Unit) W)
    iintro ⟨%o, ⟨Hh, Hp, HO⟩, %ho⟩
    isplitr [HO]
    · iexists o
      iframe %ho
      iframe
    · iexact HO
  · have hcore : ∀ c : Dev nD,
        iprop(unscopedBufs c (fun b => m ((c.tc : Thread nD τ).loc b)) ∗ unscopedSems0 c
          ∗ owes (c.tc : Thread nD τ) (0 : CellTallies nD τ sig Unit) ∅ ∗ Pipeline.launchCred (fun _ : Dev nD => (0 : CellTallies nD τ sig Unit)) c ∗ prngReg c (ρ c)
          ∗ bigSep Finset.univ fun p : Fin 3 => cellGhost (F := F) p c)
        ⊢ (iprop(at_ (F := F) (V0 m c) c ∗ g3 (F := F) c) : sProp 𝕄) := fun c => by
      rw [ghost_three]
      show _ ⊢ iprop((StableHlo.held (c : Thread nD τ) (Pipeline.ucRefs τ sig) (V0 m c) ∗ rest (F := F) c) ∗ g3 (F := F) c)
      rw [← Pipeline.unscopedBufs_held (Ix := Unit) (Name := ℕ) (U := UU) (Lvl := ℕ) c (V0 m c)]
      iintro ⟨Hb, -, HO, -, Hp, Hg⟩
      isplitr [Hg]
      · isplitl [Hb]; · iexact Hb
        isplitl [Hp]; · iexists _; iexact Hp
        iexists _; iexact HO
      · iexact Hg
    have hall : (bigSep Finset.univ fun c : Dev nD => _) ⊢ (bigSep Finset.univ fun c : Dev nD => iprop(at_ (F := F) (V0 m c) c ∗ g3 (F := F) c) : sProp 𝕄) :=
      bigSep_mono fun c _ => hcore c
    iintro ⟨H, -⟩
    ihave H' := hall $$ H
    imodintro
    iexact H'
  · unfold StableHlo.held
    iintro ⟨⟨%o, %hk, Hh, Hp⟩, HSI⟩
    ihave Hr := (pointsTo_read_all (Pipeline.ucRefs τ sig) (fun b => ((c : Thread nD τ).1, b)) (V6 m o c) s') $$ [Hh HSI]
    · isplitl [Hh] <;> iassumption
    icases Hr with ⟨%h, HSI⟩
    imodintro
    isplitr
    · ipureintro
      have g := fun (b : Ref sig .tc) hb => h (Proc.devRef .tc b) (Finset.mem_filter.mpr ⟨StableHlo.devRef_mem_tcRefs b, hb⟩)
      exact ⟨⟨o, hk, g main_v6 (by decide)⟩, (g main_arg0 (by decide)).trans (V6_main_arg0 m o c), (g main_arg1 (by decide)).trans (V6_main_arg1 m o c),
        (g main_arg2 (by decide)).trans (V6_main_arg2 m o c), (g main_arg3 (by decide)).trans (V6_main_arg3 m o c), (g main_arg4 (by decide)).trans (V6_main_arg4 m o c),
        (g main_arg5 (by decide)).trans (V6_main_arg5 m o c), (g main_arg6 (by decide)).trans (V6_main_arg6 m o c), (g main_arg7 (by decide)).trans (V6_main_arg7 m o c)⟩
    · iexact HSI

end Records

end Cert.KernelIdeal.Whole

end
-- ==== Proof.Body0.lean ====
import proofs.«161930_g22909355557424_cont_8to1_1761_12_alg».proof.Proof.RegionFragment
import proofs.«161930_g22909355557424_cont_8to1_1761_12_alg».proof.Proof.Gen.KernelIdeal.Skeleton
import Idealize.ShloMosaic.Lib.Pipeline.FrameBody
import Idealize.ShloMosaic.Lib.Pipeline.Value
import Idealize.ShloMosaic.Lib.Tactic

noncomputable section

namespace Cert.KernelIdeal.Body0

open Cert.KernelIdeal Cert.KernelIdeal.Gen Cert.KernelIdeal.Frag
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev rTop : Rect S10240x128 := Rect.unit (s := S10240x128) ![0, 0] S10000x128.size inb_S10240x128_S10000x128_0_0

abbrev rPad : Rect S10240x128 := Rect.unit (s := S10240x128) ![10000, 0] S240x128.size inb_S10240x128_S240x128_10000_0

def ix {m n : ℕ} (r : Fin m) (k : Fin n) : (⟨2, ![m, n]⟩ : Shape).Idx := fun
  | 0 => r
  | 1 => k

@[simp] theorem ix_zero {m n : ℕ} (r : Fin m) (k : Fin n) : ix r k 0 = r := rfl
@[simp] theorem ix_one {m n : ℕ} (r : Fin m) (k : Fin n) : ix r k 1 = k := rfl

theorem off00 : (![0, 0] : Fin 2 → ℕ) = fun _ => 0 := funext fun a => by fin_cases a <;> rfl

theorem mem_rTop {y : S10240x128.Idx} : y ∈ rTop.set ↔ (y 0).val < 10000 := by
  have h1 : (y 1).val < 128 := (y 1).isLt
  rw [Rect.mem_set_unit, Fin.forall_fin_two]
  show (0 ≤ (y 0).val ∧ (y 0).val < 0 + 10000) ∧ (0 ≤ (y 1).val ∧ (y 1).val < 0 + 128) ↔ _
  omega

theorem mem_rPad {y : S10240x128.Idx} : y ∈ rPad.set ↔ 10000 ≤ (y 0).val := by
  have h0 : (y 0).val < 10240 := (y 0).isLt
  have h1 : (y 1).val < 128 := (y 1).isLt
  rw [Rect.mem_set_unit, Fin.forall_fin_two]
  show (10000 ≤ (y 0).val ∧ (y 0).val < 10000 + 240) ∧ (0 ≤ (y 1).val ∧ (y 1).val < 0 + 128) ↔ _
  omega

theorem rTop_emb (r : ℕ) (hr : r < 10000) (k : Fin 128) :
    rTop.emb (ix (m := 10000) ⟨r, hr⟩ k) = ix (m := 10240) ⟨r, by omega⟩ k := by
  funext a
  fin_cases a
  · exact Fin.ext (show 0 + 1 * r = r by omega)
  · exact Fin.ext (show 0 + 1 * k.val = k.val by omega)

theorem rPad_emb (r : ℕ) (h0 : 10000 ≤ r) (h1 : r < 10240) (k : Fin 128) :
    rPad.emb (ix (m := 240) ⟨r - 10000, by omega⟩ k) = ix (m := 10240) ⟨r, h1⟩ k := by
  funext a
  fin_cases a
  · exact Fin.ext (show 10000 + 1 * (r - 10000) = r by omega)
  · exact Fin.ext (show 0 + 1 * k.val = k.val by omega)

def s1Of (x : Vec F S10000x128 .f32) (w1 : Vec F S128x128 .f32) : Vec F S10240x128 .bf16 :=
  View.canon [⟨rPad, k0_pay2 (F := F)⟩, ⟨rTop, k0_pay1 x w1⟩]

theorem cover (p1 : Vec F S10000x128 .bf16) (p2 : Vec F S240x128 .bf16) (y : S10240x128.Idx) :
    ∃ pc ∈ ([⟨rPad, p2⟩, ⟨rTop, p1⟩] : List (View.Piece (Elt F) S10240x128 .bf16)), y ∈ pc.1.set := by
  by_cases h : (y 0).val < 10000
  · exact ⟨⟨rTop, p1⟩, List.mem_cons_of_mem _ List.mem_cons_self, mem_rTop.mpr h⟩
  · exact ⟨⟨rPad, p2⟩, List.mem_cons_self, mem_rPad.mpr (Nat.le_of_not_lt h)⟩

theorem s1Of_row_lt (x : Vec F S10000x128 .f32) (w1 : Vec F S128x128 .f32) (r : ℕ) (hr : r < 10000) (k : Fin 128) :
    s1Of x w1 (ix (m := 10240) ⟨r, by omega⟩ k) = k0_pay1 x w1 (ix (m := 10000) ⟨r, hr⟩ k) := by
  have hy : ix (m := 10240) ⟨r, by omega⟩ k ∉ rPad.set := by
    rw [mem_rPad, ix_zero]; show ¬ 10000 ≤ r; omega
  unfold s1Of
  refine (View.canon_cons_of_not_mem (⟨rPad, k0_pay2 (F := F)⟩ : View.Piece (Elt F) S10240x128 .bf16) [⟨rTop, k0_pay1 x w1⟩] hy).trans ?_
  have e := View.canon_cons_emb rTop (k0_pay1 x w1) ([] : List (View.Piece (Elt F) S10240x128 .bf16)) (ix (m := 10000) ⟨r, hr⟩ k)
  exact (congrArg (View.canon [(⟨rTop, k0_pay1 x w1⟩ : View.Piece (Elt F) S10240x128 .bf16)]) (rTop_emb r hr k).symm).trans e

theorem s1Of_row_ge (x : Vec F S10000x128 .f32) (w1 : Vec F S128x128 .f32) (r : ℕ) (h0 : 10000 ≤ r) (h1 : r < 10240) (k : Fin 128) :
    s1Of x w1 (ix (m := 10240) ⟨r, h1⟩ k) = k0_pay2 (F := F) (ix (m := 240) ⟨r - 10000, by omega⟩ k) := by
  unfold s1Of
  have e := View.canon_cons_emb rPad (k0_pay2 (F := F)) ([⟨rTop, k0_pay1 x w1⟩] : List (View.Piece (Elt F) S10240x128 .bf16))
    (ix (m := 240) ⟨r - 10000, by omega⟩ k)
  exact (congrArg (View.canon [(⟨rPad, k0_pay2 (F := F)⟩ : View.Piece (Elt F) S10240x128 .bf16), ⟨rTop, k0_pay1 x w1⟩]) (rPad_emb r h0 h1 k).symm).trans e

theorem read_whole_store {sg : RefSig} {κ : Kind} {sp : Space} {S : Shape} {e : EltTy} (v : View sg κ sp S e)
    (f : v.ty.Contents (Elt F)) {off : Fin S.rank → ℕ} (h : off = fun _ => 0) (inb : ∀ a, off a + S.size a ≤ S.size a)
    (w : S.Idx → Elt F e) :
    v.read (Elt F) (v.writes (Elt F) f [(⟨Rect.unit off S.size inb, w⟩ : View.Piece (Elt F) S e)]) = w :=
  (View.read_writes_eq_canon v f _ fun y => ⟨_, List.mem_singleton_self _, View.mem_set_unit_zero h inb y⟩).trans
    (View.canon_unit_zero h inb w)

-- A load through the rectangle at offset (0, 0) of the shape's own sizes reads the contents.
theorem readAt_whole {sg : RefSig} {κ : Kind} {sp : Space} {m n : ℕ} {e : EltTy} (v : View sg κ sp ⟨2, ![m, n]⟩ e)
    (f : v.ty.Contents (Elt F)) (inb) :
    View.readAt (Elt F) v (Rect.unit (s := ⟨2, ![m, n]⟩) ![0, 0] ![m, n] inb).toLoadRect f = v.read (Elt F) f :=
  View.ld_unit_zero off00 inb _

theorem run (c : Dev nD) (E : Set ℕ) (arg0 : Memref sig .tc .vmem S10000x128 .f32) (harg0 : arg0.IsWhole) (arg1 : Memref sig .tc .vmem S128x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x1 .f32) (harg4 : arg4.IsWhole) (arg5 : Memref sig .tc .vmem S1x1 .f32) (harg5 : arg5.IsWhole) (arg6 : Memref sig .tc .vmem S10240x128 .bf16) (harg6 : arg6.IsWhole) (arg7 : Memref sig .tc .vmem S128x1 .f32) (harg7 : arg7.IsWhole) (arg8 : Memref sig .tc .vmem S1x1 .f32) (harg8 : arg8.IsWhole)
    (x : Vec F S10000x128 .f32) (w1 : Vec F S128x128 .f32) (w2 : Vec F S128x128 .f32) (b2 : Vec F S1x128 .f32) (wl : Vec F S128x1 .f32) (bl : Vec F S1x1 .f32)
    (d6 : Vec F S10240x128 .bf16) (d7 : Vec F S128x1 .f32) (d8 : Vec F S1x1 .f32) (K : PUnit → sProp 𝕄) :
    iprop(owns (c : Thread nD τ) arg0 fullShare x ∗ owns (c : Thread nD τ) arg1 fullShare w1 ∗ owns (c : Thread nD τ) arg2 fullShare w2 ∗ owns (c : Thread nD τ) arg3 fullShare b2 ∗ owns (c : Thread nD τ) arg4 fullShare wl ∗ owns (c : Thread nD τ) arg5 fullShare bl
        ∗ owns (c : Thread nD τ) arg6 fullShare d6 ∗ owns (c : Thread nD τ) arg7 fullShare d7 ∗ owns (c : Thread nD τ) arg8 fullShare d8
        ∗ (iprop(owns (c : Thread nD τ) arg0 fullShare x ∗ owns (c : Thread nD τ) arg1 fullShare w1 ∗ owns (c : Thread nD τ) arg2 fullShare w2 ∗ owns (c : Thread nD τ) arg3 fullShare b2 ∗ owns (c : Thread nD τ) arg4 fullShare wl ∗ owns (c : Thread nD τ) arg5 fullShare bl
            ∗ owns (c : Thread nD τ) arg6 fullShare (s1Of x w1) ∗ owns (c : Thread nD τ) arg7 fullShare (k0_pay3 w2 wl) ∗ owns (c : Thread nD τ) arg8 fullShare (k0_pay4 b2 wl bl)) -∗ K ⟨⟩))
      ⊢ wp frame (wpE (defs₀ (F := F)) Variants.none (c : Thread nD τ) none) E (cc0_body arg0 harg0 arg1 harg1 arg2 harg2 arg3 harg3 arg4 harg4 arg5 harg5 arg6 harg6 arg7 harg7 arg8 harg8) K := by
  simp only [cc0_body_eq_skeleton]; unfold cc0_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, -, H6⟩, ⟨%f7, -, H7⟩, ⟨%f8, -, H8⟩, Hk⟩
  subst hf0 hf1 hf2 hf3 hf4 hf5
  sl_exec
  sl_step
  iapply Hk
  simp only [readAt_whole]
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro; exact View.read_writes_eq_canon _ _ _ (cover _ _)
  isplitl [H7]
  · iexists _; isplitr
    swap; · iexact H7
    ipureintro; exact read_whole_store _ _ off00 _ _
  iexists _; isplitr
  swap; · iexact H8
  ipureintro; exact read_whole_store _ _ off00 _ _

end Cert.KernelIdeal.Body0

end
-- ==== Proof.Region0.lean ====
import proofs.«161930_g22909355557424_cont_8to1_1761_12_alg».proof.Proof.Between
import proofs.«161930_g22909355557424_cont_8to1_1761_12_alg».proof.Proof.Body0
import proofs.«161930_g22909355557424_cont_8to1_1761_12_alg».proof.Proof.Gen.KernelIdeal.Points
import Idealize.ShloMosaic.Lib.Pipeline.RegionsLoop

noncomputable section

namespace Cert.KernelIdeal.Region0

open Cert.KernelIdeal Cert.KernelIdeal.Gen Cert.KernelIdeal.Frag
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ UU ℕ

section Whole
variable {Val : EltTy → Type}

theorem read_blk_whole {s : Shape} {e : EltTy} {cs : CoreSpace} {arr : Memref sig .tc .hbm s e} {isOut sync : Bool}
    {stage : Memref sig .tc (.core cs) ⟨s.rank, s.size⟩ e} {sem : DmaSem sig} {harr : arr.IsWhole} {hstage : stage.IsWhole}
    (t : Fin Pipeline.Grid.none.N) (f : arr.view.ty.Contents Val) :
    ((Pipeline.Window.whole arr isOut sync stage sem harr hstage).blk t).view.read Val f = arr.view.read Val f := by
  funext j
  rw [View.read_apply, View.read_apply]
  have h : ((Pipeline.Window.whole arr isOut sync stage sem harr hstage).blk t).view.emb j = arr.view.emb j :=
    congrArg arr.view.emb (funext fun a => Fin.ext (Pipeline.Window.rect_emb_val_of_index_zero _ t a rfl j))
  rw [h]

end Whole

variable (m : (ℓ : Loc nD τ sig) → Buf (Elt F) ℓ)

abbrev E1 (c : Dev nD) (b : Ref sig .tc) : Buf (Elt F) ((c : Thread nD τ).loc b) := V1 m c b

def outs0 : Outs (F := F) := fun _ r c =>
  Function.update (Function.update (Function.update (fun b : Ref sig .tc => E1 m c b)
    main_v2_0 (Body0.s1Of (E1 m c main_arg1) (E1 m c main_arg2)))
    main_v2_1 (k0_pay3 (E1 m c main_arg4) (E1 m c main_arg6)))
    main_v2_2 (k0_pay4 (E1 m c main_v0) (E1 m c main_arg6) (E1 m c main_v1)) r

theorem outs0_v2_0 (J : ℕ) (c : Dev nD) : outs0 m J main_v2_0 c = Body0.s1Of (E1 m c main_arg1) (E1 m c main_arg2) := by
  unfold outs0
  rw [Function.update_of_ne (by decide), Function.update_of_ne (by decide), Function.update_self]
theorem outs0_v2_1 (J : ℕ) (c : Dev nD) : outs0 m J main_v2_1 c = k0_pay3 (E1 m c main_arg4) (E1 m c main_arg6) := by
  unfold outs0
  rw [Function.update_of_ne (by decide), Function.update_self]
theorem outs0_v2_2 (J : ℕ) (c : Dev nD) : outs0 m J main_v2_2 c = k0_pay4 (E1 m c main_v0) (E1 m c main_arg6) (E1 m c main_v1) := by
  unfold outs0
  rw [Function.update_self]

section AtEntry

variable (V : (c : Dev nD) → (b : Ref sig .tc) → Buf (Elt F) ((c : Thread nD τ).loc b))

def dat0 (c : Dev nD) : Dat τ (Elt F) Unit ℕ UU ℕ cfg0 c where
  A w := V c (Pipeline.arrRef spec0 w)
  after w t := match w with
    | ⟨0, _⟩ => (V c main_arg1 : Vec F S10000x128 .f32)
    | ⟨1, _⟩ => (V c main_arg2 : Vec F S128x128 .f32)
    | ⟨2, _⟩ => (V c main_arg4 : Vec F S128x128 .f32)
    | ⟨3, _⟩ => (V c main_v0 : Vec F S1x128 .f32)
    | ⟨4, _⟩ => (V c main_arg6 : Vec F S128x1 .f32)
    | ⟨5, _⟩ => (V c main_v1 : Vec F S1x1 .f32)
    | ⟨6, _⟩ => Body0.s1Of (V c main_arg1) (V c main_arg2)
    | ⟨7, _⟩ => k0_pay3 (V c main_arg4) (V c main_arg6)
    | ⟨8, _⟩ => k0_pay4 (V c main_v0) (V c main_arg6) (V c main_v1)
  Φ _ := Pipeline.ΦA spec0 c
  q _ := fullShare
  owed _ := 0

theorem before_0 (c : Dev nD) (t : Fin cfg0.N) (d) : (dat0 V c).before 0 t d = (V c main_arg1 : Vec F S10000x128 .f32) :=
  ((dat0 V c).before_fetched 0 t (fetch0_0 t) d).trans (read_blk_whole t _ : (win0_0.blk t).view.read (Elt F) _ = _)
theorem before_1 (c : Dev nD) (t : Fin cfg0.N) (d) : (dat0 V c).before 1 t d = (V c main_arg2 : Vec F S128x128 .f32) :=
  ((dat0 V c).before_fetched 1 t (fetch0_1 t) d).trans (read_blk_whole t _ : (win0_1.blk t).view.read (Elt F) _ = _)
theorem before_2 (c : Dev nD) (t : Fin cfg0.N) (d) : (dat0 V c).before 2 t d = (V c main_arg4 : Vec F S128x128 .f32) :=
  ((dat0 V c).before_fetched 2 t (fetch0_2 t) d).trans (read_blk_whole t _ : (win0_2.blk t).view.read (Elt F) _ = _)
theorem before_3 (c : Dev nD) (t : Fin cfg0.N) (d) : (dat0 V c).before 3 t d = (V c main_v0 : Vec F S1x128 .f32) :=
  ((dat0 V c).before_fetched 3 t (fetch0_3 t) d).trans (read_blk_whole t _ : (win0_3.blk t).view.read (Elt F) _ = _)
theorem before_4 (c : Dev nD) (t : Fin cfg0.N) (d) : (dat0 V c).before 4 t d = (V c main_arg6 : Vec F S128x1 .f32) :=
  ((dat0 V c).before_fetched 4 t (fetch0_4 t) d).trans (read_blk_whole t _ : (win0_4.blk t).view.read (Elt F) _ = _)
theorem before_5 (c : Dev nD) (t : Fin cfg0.N) (d) : (dat0 V c).before 5 t d = (V c main_v1 : Vec F S1x1 .f32) :=
  ((dat0 V c).before_fetched 5 t (fetch0_5 t) d).trans (read_blk_whole t _ : (win0_5.blk t).view.read (Elt F) _ = _)

theorem body_obligation (c : Dev nD) : BodyObligation (dat0 (F := F) V c) (defs₀ (F := F)) Variants.none () Set.univ := fun t => by
  rw [bigSep_W0, bigSep_W0, show (dat0 V c).owesAt () t.succ = (dat0 V c).owesAt () t.castSucc from rfl]
  simp only [before_0, before_1, before_2, before_3, before_4, before_5]
  dsimp only [dat0]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (Body0.run c Set.univ _ (hstage0_0 0) _ (hstage0_1 0) _ (hstage0_2 0) _ (hstage0_3 0) _ (hstage0_4 0) _ (hstage0_5 0) _ (hstage0_6 0) _ (hstage0_7 0) _ (hstage0_8 0)
    (V c main_arg1) (V c main_arg2) (V c main_arg4) (V c main_v0) (V c main_arg6) (V c main_v1) _ _ _ _)
  iframe H0 H1 H2 H3 H4 H5 H6 H7 H8
  iintro ⟨H0, H1, H2, H3, H4, H5, H6, H7, H8⟩
  iframe

theorem final_6 (c : Dev nD) : (dat0 V c).arrAt 6 cfg0.N = Body0.s1Of (V c main_arg1) (V c main_arg2) :=
  (dat0 V c).arrAt_eq_of_cover 6 (Body0.s1Of (V c main_arg1) (V c main_arg2))
    (fun t _ => (read_blk_whole t _ : (win0_6.blk t).view.read (Elt F) _ = _).symm)
    fun i => ⟨t0_0, flush0_6 _, by
      show i ∈ ((View.whole main_v2_0).slice (win0_6.rect t0_0)).set
      rw [View.set_slice_whole, Rect.set_eq_univ_of_whole _ fun a => ⟨Nat.zero_mul _, rfl, rfl⟩]
      exact Finset.mem_univ i⟩
theorem final_7 (c : Dev nD) : (dat0 V c).arrAt 7 cfg0.N = k0_pay3 (V c main_arg4) (V c main_arg6) :=
  (dat0 V c).arrAt_eq_of_cover 7 (k0_pay3 (V c main_arg4) (V c main_arg6))
    (fun t _ => (read_blk_whole t _ : (win0_7.blk t).view.read (Elt F) _ = _).symm)
    fun i => ⟨t0_0, flush0_7 _, by
      show i ∈ ((View.whole main_v2_1).slice (win0_7.rect t0_0)).set
      rw [View.set_slice_whole, Rect.set_eq_univ_of_whole _ fun a => ⟨Nat.zero_mul _, rfl, rfl⟩]
      exact Finset.mem_univ i⟩
theorem final_8 (c : Dev nD) : (dat0 V c).arrAt 8 cfg0.N = k0_pay4 (V c main_v0) (V c main_arg6) (V c main_v1) :=
  (dat0 V c).arrAt_eq_of_cover 8 (k0_pay4 (V c main_v0) (V c main_arg6) (V c main_v1))
    (fun t _ => (read_blk_whole t _ : (win0_8.blk t).view.read (Elt F) _ = _).symm)
    fun i => ⟨t0_0, flush0_8 _, by
      show i ∈ ((View.whole main_v2_2).slice (win0_8.rect t0_0)).set
      rw [View.set_slice_whole, Rect.set_eq_univ_of_whole _ fun a => ⟨Nat.zero_mul _, rfl, rfl⟩]
      exact Finset.mem_univ i⟩

end AtEntry

abbrev E2 (c : Dev nD) (b : Ref sig .tc) : Buf (Elt F) ((c : Thread nD τ).loc b) := V2 m (outs0 m) c b

-- The three results are overwritten with the values `outs0` names; every other buffer keeps the value `outs0` gives it.
theorem E2_eq (c : Dev nD) (r : Ref sig .tc) : E2 m c r = outs0 m 2 r c := by
  unfold E2 V2
  by_cases h2 : r = main_v2_2
  · subst h2; rw [Function.update_self]
  rw [Function.update_of_ne (StableHlo.devRef_ne_of_ne h2)]
  by_cases h1 : r = main_v2_1
  · subst h1; rw [Function.update_self]
  rw [Function.update_of_ne (StableHlo.devRef_ne_of_ne h1)]
  by_cases h0 : r = main_v2_0
  · subst h0; rw [Function.update_self]
  rw [Function.update_of_ne (StableHlo.devRef_ne_of_ne h0)]
  unfold outs0
  rw [Function.update_of_ne h2, Function.update_of_ne h1, Function.update_of_ne h0]

theorem hF_in (c : Dev nD) (w : Fin cfg0.W) (hw : (cfg0.win w).isOut = false)
    (hr : Pipeline.arrRef spec0 w ∉ ([main_v2_0, main_v2_1, main_v2_2] : List (Ref sig .tc))) :
    (dat0 (E1 m) c).arrAt w cfg0.N = E2 m c (Pipeline.arrRef spec0 w) :=
  ((dat0 (E1 m) c).arrAt_in w hw _).trans (V2_of m (outs0 m) c _ hr).symm

theorem hF (c : Dev nD) : ∀ w : Fin cfg0.W, (dat0 (E1 m) c).arrAt w cfg0.N = E2 m c (Pipeline.arrRef spec0 w)
  | ⟨0, _⟩ => hF_in m c 0 rfl (by decide)
  | ⟨1, _⟩ => hF_in m c 1 rfl (by decide)
  | ⟨2, _⟩ => hF_in m c 2 rfl (by decide)
  | ⟨3, _⟩ => hF_in m c 3 rfl (by decide)
  | ⟨4, _⟩ => hF_in m c 4 rfl (by decide)
  | ⟨5, _⟩ => hF_in m c 5 rfl (by decide)
  | ⟨6, _⟩ => (final_6 (E1 m) c).trans ((E2_eq m c _).trans (outs0_v2_0 m 2 c)).symm
  | ⟨7, _⟩ => (final_7 (E1 m) c).trans ((E2_eq m c _).trans (outs0_v2_1 m 2 c)).symm
  | ⟨8, _⟩ => (final_8 (E1 m) c).trans ((E2_eq m c _).trans (outs0_v2_2 m 2 c)).symm

theorem hrest (c : Dev nD) : ∀ b, b ∉ Finset.univ.image (Pipeline.arrRef spec0) → E2 m c b = E1 m c b := fun b hb =>
  V2_of m (outs0 m) c b fun hm => by
    simp only [List.mem_cons, List.mem_nil_iff, or_false] at hm
    rcases hm with rfl | rfl | rfl <;> exact hb (by decide)

def pd : (p : Fin 3) → (c : Dev nD) → Dat τ (Elt F) Unit ℕ UU ℕ (Pipeline.pin (pcfgs (F := F)) adm p) c
  | ⟨0, _⟩ => fun c => dat0 (E1 m) c
  | ⟨1, _⟩ => fun c => { A := fun w => E1 m c (Pipeline.arrRef spec1 w), after := Dat.unnamed (cfg := cfg1), Φ := fun _ => BI.emp, q := fun _ => fullShare, owed := fun _ => 0 }
  | ⟨2, _⟩ => fun c => { A := fun w => E1 m c (Pipeline.arrRef spec2 w), after := Dat.unnamed (cfg := cfg2), Φ := fun _ => BI.emp, q := fun _ => fullShare, owed := fun _ => 0 }

def rd : (p : Fin 3) → (c : Dev nD) → RDat τ (Elt F) Unit ℕ UU ℕ (Pipeline.pin (pcfgs (F := F)) adm p) c :=
  Dat.toRs (pd m)

variable (P : Between.Leaves (F := F) m) (h0 : ∀ c, P.after0 (outs0 m) c)

set_option backward.isDefEq.respectTransparency.types false in
def R0x : Pipeline.RegionSeg (pcfgs (F := F)) adm (pd m) () defs₀ 𝒱₀ L lv 0 where
  win := launch0.win.to₀
  block_pos := launch0.block_pos
  stage_whole := launch0.stage_whole
  K := PEmpty
  osem k := k.elim
  ho := Pipeline.OwnSemFacts.none _
  hbody c := (body_obligation (E1 m) c).loose
  hwaits := Pipeline.hwaits_of_owed_zero _ _ _ _ L lv 0 fun _ _ => rfl
  pre c := Between.T1 m c
  post c := Between.T2 m P c
  X c := iprop(∃ r, prngReg c r)
  Y c := iprop(∃ r, prngReg c r)
  Z c := Pipeline.unscopedRest (Ix := Unit) (Name := ℕ) (U := UU) (Lvl := ℕ) spec0 c (E1 m c)
  hentry c := by
    rw [Pipeline.ownSems0_none]
    have hsplit := Pipeline.arrays_of_unscopedBufs (p := 0) (pcfgs (F := F)) adm (pd m) launch0.win launch0.arr_whole c
      ((pd m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    unfold Pipeline.Dat.owesAt Pipeline.owesWithin
    icases HO with ⟨%W, HO⟩; iexists W; isplitr; · ipureintro; exact fun _ _ => Or.inl trivial
    iexact HO
  hin c := by
    rw [show (pd m 0 c).Φ 0 = Pipeline.ΦA spec0 c from rfl]; unfold Pipeline.ΦA
    iintro ⟨Hp, -, Hr⟩
    iframe
  hout c := by
    rw [Pipeline.ownSems0_none, show (pd m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UU) (Lvl := ℕ)
      launch0.win launch0.arr_whole c (pd m) ((pd m 0 c).share_full fun _ => rfl)
      (E1 m c) (E2 m c) ((pd m 0 c).arrAt · cfg0.N) (hF m c) (hrest m c)
    rw [Pipeline.unscopedBufs_held] at hjoin
    iintro ⟨Ha, HO, HY, Hrest⟩
    imodintro
    iexists (outs0 m)
    isplitr; · ipureintro; exact h0 c
    isplitl [Ha Hrest]
    · iapply hjoin; iframe
    isplitl [HY]; · iexact HY
    unfold Pipeline.Dat.owesAt Pipeline.owesWithin
    icases HO with ⟨%W, -, HO⟩; iexists W; iexact HO

def R0 : Pipeline.RDat.RegionSeg (pcfgs (F := F)) adm (rd m) () defs₀ 𝒱₀ L lv 0 :=
  (R0x m P h0).toR (pcfgs (F := F)) adm (pd m) () defs₀ 𝒱₀ L lv

theorem pre_eq (c : Dev nD) : (R0 m P h0).pre c = Between.T1 m c := rfl
theorem post_eq (c : Dev nD) : (R0 m P h0).post c = Between.T2 m P c := rfl

end Cert.KernelIdeal.Region0

end
-- ==== Proof.Body1Base.lean ====
import proofs.«161930_g22909355557424_cont_8to1_1761_12_alg».proof.Proof.RegionFragment
import proofs.«161930_g22909355557424_cont_8to1_1761_12_alg».proof.Proof.Gen.KernelIdeal.Skeleton
import Idealize.ShloMosaic.Lib.Tactic
import Idealize.ShloMosaic.Lib.Pipeline.FrameBody
import Idealize.ShloMosaic.Lib.Pipeline.Value
import Idealize.ShloMosaic.Lib.ValueIdx

noncomputable section

namespace Cert.KernelIdeal.Body1

open Cert.KernelIdeal Cert.KernelIdeal.Gen Cert.KernelIdeal.Frag
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ UU ℕ
set_option Elab.async false

def cond4 (i : grid1.Coords) : BitVec 1 :=
  Scalar.cmpi .ne (Scalar.extui (Scalar.andi (Scalar.cmpi .eq (BitVec.ofNat 32 (i 1).val) (BitVec.ofNat 32 (i 0).val))
    (Scalar.cmpi .slt (BitVec.ofNat 32 (i 0).val) 7#32))) 0#32

def cond5 (i : grid1.Coords) : BitVec 1 :=
  Scalar.cmpi .ne (Scalar.extui (Scalar.andi (Scalar.cmpi .eq (BitVec.ofNat 32 (i 1).val) (BitVec.ofNat 32 (i 0).val))
    (Scalar.cmpi .eq (BitVec.ofNat 32 (i 0).val) 7#32))) 0#32

-- Each branch condition is a word computed from the two block coordinates: decided at the 64 points of the grid.
theorem cond1_iff : ∀ i : grid1.Coords, k1_cond1 i = 1#1 ↔ (i 1).val = 0 := by decide +kernel
theorem cond2_iff : ∀ i : grid1.Coords, k1_cond2 i = 1#1 ↔ (i 1).val < 7 := by decide +kernel
theorem cond3_iff : ∀ i : grid1.Coords, k1_cond3 i = 1#1 ↔ (i 1).val = 7 := by decide +kernel
theorem cond4_iff : ∀ i : grid1.Coords, cond4 i = 1#1 ↔ ((i 1).val = (i 0).val ∧ (i 0).val < 7) := by decide +kernel
theorem cond5_iff : ∀ i : grid1.Coords, cond5 i = 1#1 ↔ ((i 1).val = (i 0).val ∧ (i 0).val = 7) := by decide +kernel
theorem cond6_iff : ∀ i : grid1.Coords, k1_cond6 i = 1#1 ↔ (i 1).val < (i 0).val := by decide +kernel
theorem cond7_iff : ∀ i : grid1.Coords, k1_cond7 i = 1#1 ↔ (i 1).val = 7 := by decide +kernel

theorem zz : (![0, 0] : Fin 2 → Nat) = fun _ => 0 := by
  funext a; fin_cases a <;> rfl

-- A buffer whose last store covers it reads as that store's payload.
theorem read_last_whole {Val : EltTy → Type} [∀ e, Nonempty (Val e)] {sg : RefSig} {κ : Kind} {sp : Space} {S : Shape} {e : EltTy}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f (⟨Rect.unit off S.size inb, w⟩ :: L)) = w :=
  (View.read_writes_eq_canon v f _ (fun y => ⟨_, List.mem_cons_self, View.mem_set_unit_zero h inb y⟩)).trans
    (View.canon_cons_unit_zero h inb w L)

theorem ld_off_congr {Val : EltTy → Type} {S : Shape} {e : EltTy} (X : S.Idx → Val e) {off off' : Fin S.rank → Nat} (h : off = off')
    (sz : Fin S.rank → Nat) (inb : ∀ a, off a + sz a ≤ S.size a) (inb' : ∀ a, off' a + sz a ≤ S.size a) :
    View.ld X (Rect.unit off sz inb) = View.ld X (Rect.unit off' sz inb') := by
  subst h; rfl

theorem congr3 {α β γ δ : Sort _} (g : α → β → γ → δ) {a a' : α} {b b' : β} {c c' : γ}
    (ha : a = a') (hb : b = b') (hc : c = c') : g a b c = g a' b' c' := by
  subst ha hb hc; rfl

theorem congr4 {α β γ δ ε : Sort _} (g : α → β → γ → δ → ε) {a a' : α} {b b' : β} {c c' : γ} {d d' : δ}
    (ha : a = a') (hb : b = b') (hc : c = c') (hd : d = d') : g a b c d = g a' b' c' d' := by
  subst ha hb hc hd; rfl

theorem rows_inb128 (b : Fin 8) : ∀ a, (![1280 * b.val, 0] : Fin 2 → Nat) a + S1280x128.size a ≤ S10240x128.size a := by
  revert b; decide
theorem rows_inb1 (b : Fin 8) : ∀ a, (![1280 * b.val, 0] : Fin 2 → Nat) a + S1280x1.size a ≤ S10240x1.size a := by
  revert b; decide

def sBlk (i : grid1.Coords) (S : Vec F S10240x128 .bf16) : Vec F S1280x128 .bf16 :=
  View.ld S (Rect.unit (s := S10240x128) ![1280 * (i 1).val, 0] S1280x128.size (rows_inb128 (i 1)))

def vBlkJ (i : grid1.Coords) (Vv : Vec F S10240x1 .f32) : Vec F S1280x1 .f32 :=
  View.ld Vv (Rect.unit (s := S10240x1) ![1280 * (i 1).val, 0] S1280x1.size (rows_inb1 (i 1)))

-- After one store through a rectangle a buffer reads as before, the rectangle's part replaced by the payload.
theorem read_writes_one {Val : EltTy → Type} {sg : RefSig} {κ : Kind} {sp : Space} {S : Shape} {e : EltTy}
    (v : View sg κ sp S e) (f : v.ty.Contents Val) (r : Rect S) (w : r.shape.Idx → Val e) :
    v.read Val (v.writes Val f [⟨r, w⟩]) = r.overlay (v.read Val f) w := by
  funext y
  by_cases hy : y ∈ r.set
  · obtain ⟨x, rfl⟩ : ∃ x, r.emb x = y := r.exists_idx_of_mem hy
    rw [View.read_writes_cons_emb, Rect.overlay_emb]
  · have hy' : y ∉ Finset.univ.map r.emb := by rwa [Rect.map_emb_univ]
    rw [View.writes_cons, View.read_slice_write_of_not_mem r _ _ _ hy', Rect.overlay_of_not_mem _ _ _ hy]
    rfl

theorem overlay_off_congr {α : Type} {S : Shape} (X : S.Idx → α) {off off' : Fin S.rank → Nat} (h : off = off')
    (sz : Fin S.rank → Nat) (inb : ∀ a, off a + sz a ≤ S.size a) (inb' : ∀ a, off' a + sz a ≤ S.size a)
    (w : (Rect.unit off sz inb).shape.Idx → α) :
    (Rect.unit off sz inb).overlay X w = (Rect.unit off' sz inb').overlay X w := by
  subst h; rfl

def vPut (i : grid1.Coords) (Vv : Vec F S10240x1 .f32) (w : Vec F S1280x1 .f32) : Vec F S10240x1 .f32 :=
  (Rect.unit (s := S10240x1) ![1280 * (i 0).val, 0] S1280x1.size (rows_inb1 (i 0))).overlay Vv w

-- What the body leaves in one of its four written buffers, as a function of the point and of what the nine buffers held.
abbrev Upd (F : FTy → Type) (T : Type) := grid1.Coords → Vec F S10240x128 .bf16 → Vec F S1x128 .f32 → Vec F S128x1 .f32 →
  Vec F S1x1 .f32 → Vec F S1280x1280 .f32 → Vec F S10240x1 .f32 → Vec F S1280x1 .f32 → Vec F S1280x128 .f32 → Vec F S1280x1280 .f32 → T

-- The body at point `i`, on whole buffers at known contents, runs to the continuation: the five inputs as they were, the four others at the given updates.
def Spec (c : Dev nD) (E : Set ℕ) (i : grid1.Coords) (uV : Upd F (Vec F S10240x1 .f32)) (uP : Upd F (Vec F S1280x1 .f32))
    (uH : Upd F (Vec F S1280x128 .f32)) (uD : Upd F (Vec F S1280x1280 .f32)) : Prop :=
  ∀ (arg2 : Memref sig .tc .vmem S1280x1280 .f32) (harg2 : arg2.IsWhole) (arg3 : Memref sig .tc .vmem S10240x128 .bf16) (harg3 : arg3.IsWhole)
    (arg4 : Memref sig .tc .vmem S1x128 .f32) (harg4 : arg4.IsWhole) (arg5 : Memref sig .tc .vmem S128x1 .f32) (harg5 : arg5.IsWhole)
    (arg6 : Memref sig .tc .vmem S1x1 .f32) (harg6 : arg6.IsWhole) (arg7 : Memref sig .tc .vmem S10240x1 .f32) (harg7 : arg7.IsWhole)
    (arg8 : Memref sig .tc .vmem S1280x1 .f32) (harg8 : arg8.IsWhole) (arg9 : Memref sig .tc .vmem S1280x128 .f32) (harg9 : arg9.IsWhole)
    (arg10 : Memref sig .tc .vmem S1280x1280 .f32) (harg10 : arg10.IsWhole)
    (X : Vec F S1280x1280 .f32) (S : Vec F S10240x128 .bf16) (B : Vec F S1x128 .f32) (Wv : Vec F S128x1 .f32) (C : Vec F S1x1 .f32)
    (Vv : Vec F S10240x1 .f32) (Pp : Vec F S1280x1 .f32) (Hh : Vec F S1280x128 .f32) (Dd : Vec F S1280x1280 .f32) (K : PUnit → sProp 𝕄),
    iprop(owns (c : Thread nD τ) arg2 fullShare X ∗ owns c arg3 fullShare S ∗ owns c arg4 fullShare B ∗ owns c arg5 fullShare Wv ∗ owns c arg6 fullShare C
        ∗ owns c arg7 fullShare Vv ∗ owns c arg8 fullShare Pp ∗ owns c arg9 fullShare Hh ∗ owns c arg10 fullShare Dd
        ∗ (iprop(owns c arg2 fullShare X ∗ owns c arg3 fullShare S ∗ owns c arg4 fullShare B ∗ owns c arg5 fullShare Wv ∗ owns c arg6 fullShare C
            ∗ owns c arg7 fullShare (uV i S B Wv C X Vv Pp Hh Dd) ∗ owns c arg8 fullShare (uP i S B Wv C X Vv Pp Hh Dd)
            ∗ owns c arg9 fullShare (uH i S B Wv C X Vv Pp Hh Dd) ∗ owns c arg10 fullShare (uD i S B Wv C X Vv Pp Hh Dd)) -∗ K ⟨⟩))
      ⊢ wp frame (wpE (defs₀ (F := F)) Variants.none (c : Thread nD τ) none) E
          (cc1_body i arg2 harg2 arg3 harg3 arg4 harg4 arg5 harg5 arg6 harg6 arg7 harg7 arg8 harg8 arg9 harg9 arg10 harg10) K

-- Nine buffers at contents whose reads are known are owned at those reads.
theorem hand_back (c : Dev nD) {s2 s3 s4 s5 s6 s7 s8 s9 s10 : Shape} {e2 e3 e4 e5 e6 e7 e8 e9 e10 : EltTy}
    {a2 : Memref sig .tc .vmem s2 e2} {a3 : Memref sig .tc .vmem s3 e3} {a4 : Memref sig .tc .vmem s4 e4} {a5 : Memref sig .tc .vmem s5 e5}
    {a6 : Memref sig .tc .vmem s6 e6} {a7 : Memref sig .tc .vmem s7 e7} {a8 : Memref sig .tc .vmem s8 e8} {a9 : Memref sig .tc .vmem s9 e9}
    {a10 : Memref sig .tc .vmem s10 e10} {f2 f3 f4 f5 f6 f7 f8 f9 f10} {V P H D}
    (hV : a7.view.read (Elt F) f7 = V) (hP : a8.view.read (Elt F) f8 = P) (hH : a9.view.read (Elt F) f9 = H) (hD : a10.view.read (Elt F) f10 = D) :
    iprop((a2.view.loc (c : Thread nD τ) ↦[a2.view.set]{fullShare} f2) ∗ (a3.view.loc (c : Thread nD τ) ↦[a3.view.set]{fullShare} f3)
        ∗ (a4.view.loc (c : Thread nD τ) ↦[a4.view.set]{fullShare} f4) ∗ (a5.view.loc (c : Thread nD τ) ↦[a5.view.set]{fullShare} f5)
        ∗ (a6.view.loc (c : Thread nD τ) ↦[a6.view.set]{fullShare} f6) ∗ (a7.view.loc (c : Thread nD τ) ↦[a7.view.set]{fullShare} f7)
        ∗ (a8.view.loc (c : Thread nD τ) ↦[a8.view.set]{fullShare} f8) ∗ (a9.view.loc (c : Thread nD τ) ↦[a9.view.set]{fullShare} f9)
        ∗ (a10.view.loc (c : Thread nD τ) ↦[a10.view.set]{fullShare} f10) : sProp 𝕄)
      ⊢ iprop(owns (c : Thread nD τ) a2 fullShare (a2.view.read (Elt F) f2) ∗ owns c a3 fullShare (a3.view.read (Elt F) f3)
        ∗ owns c a4 fullShare (a4.view.read (Elt F) f4) ∗ owns c a5 fullShare (a5.view.read (Elt F) f5) ∗ owns c a6 fullShare (a6.view.read (Elt F) f6)
        ∗ owns c a7 fullShare V ∗ owns c a8 fullShare P ∗ owns c a9 fullShare H ∗ owns c a10 fullShare D) := by
  subst hV hP hH hD
  exact BI.sep_mono (owns_intro _ _ _ _) <| BI.sep_mono (owns_intro _ _ _ _) <| BI.sep_mono (owns_intro _ _ _ _) <| BI.sep_mono (owns_intro _ _ _ _) <| BI.sep_mono (owns_intro _ _ _ _) <|
    BI.sep_mono (owns_intro _ _ _ _) <| BI.sep_mono (owns_intro _ _ _ _) <| BI.sep_mono (owns_intro _ _ _ _) (owns_intro _ _ _ _)

end Cert.KernelIdeal.Body1

end
-- ==== Proof.Body1A.lean ====
import proofs.«161930_g22909355557424_cont_8to1_1761_12_alg».proof.Proof.Body1Base

noncomputable section

namespace Cert.KernelIdeal.Body1

open Cert.KernelIdeal Cert.KernelIdeal.Gen Cert.KernelIdeal.Frag
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ UU ℕ

def newV_A : Upd F (Vec F S10240x1 .f32) := fun i S B Wv C X Vv Pp Hh Dd => Vv
def newP_A : Upd F (Vec F S1280x1 .f32) := fun i S B Wv C X Vv Pp Hh Dd => k1_pay2 C
def newH_A : Upd F (Vec F S1280x128 .f32) := fun i S B Wv C X Vv Pp Hh Dd => k1_pay3 X (k1_pay1 B) (sBlk i S)
def newD_A : Upd F (Vec F S1280x1280 .f32) := fun i S B Wv C X Vv Pp Hh Dd => k1_pay5 X

set_option maxHeartbeats 1000000 in
theorem run_A (c : Dev nD) (E : Set ℕ) (i : grid1.Coords) (h0 : (i 0).val = 0) (h1 : (i 1).val = 0) :
    Spec (F := F) c E i newV_A newP_A newH_A newD_A := by
  intro arg2 harg2 arg3 harg3 arg4 harg4 arg5 harg5 arg6 harg6 arg7 harg7 arg8 harg8 arg9 harg9 arg10 harg10 X S B Wv C Vv Pp Hh Dd K
  have hi0 : (i 0).val < 8 := (i 0).isLt
  have hi1 : (i 1).val < 8 := (i 1).isLt
  have c1 := (cond1_iff i).2 (by omega)
  have c2 := (cond2_iff i).2 (by omega)
  have c3 := mt (cond3_iff i).1 (by omega)
  have c4 := (cond4_iff i).2 ⟨by omega, by omega⟩
  have c5 := mt (cond5_iff i).1 (by omega)
  have c6 := mt (cond6_iff i).1 (by omega)
  have c7 := mt (cond7_iff i).1 (by omega)
  simp only [cc1_body_eq_skeleton]; unfold cc1_body_skel owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  subst hf2 hf3 hf4 hf5 hf6 hf7 hf8 hf9 hf10
  sl_exec (disch := first | sl_exact c4 | sl_exact c5)
  sl_step
  iapply Hk
  iapply hand_back c rfl ?_ ?_ ?_
  rotate_left 3
  · iframe
  · refine (read_last_whole _ _ zz _ _ _).trans ?_
    exact congrArg k1_pay2 (View.ld_unit_zero (S := S1x1) zz _ _)
  · refine (read_last_whole _ _ zz _ _ _).trans ?_
    unfold newH_A sBlk
    sl_unfold_run_names
    exact congr3 k1_pay3 (View.ld_unit_zero (S := S1280x1280) zz _ _) ((View.readCov_unit_zero _ zz _ _).trans (congrArg k1_pay1 (View.ld_unit_zero (S := S1x128) zz _ _))) (ld_off_congr _ (k1_off1_eq i) _ _ _)
  · refine (read_last_whole _ _ zz _ _ _).trans ?_
    unfold newD_A
    sl_unfold_run_names
    exact congrArg k1_pay5 (View.ld_unit_zero (S := S1280x1280) zz _ _)

end Cert.KernelIdeal.Body1

end
-- ==== Proof.Body1B.lean ====
import proofs.«161930_g22909355557424_cont_8to1_1761_12_alg».proof.Proof.Body1Base

noncomputable section

namespace Cert.KernelIdeal.Body1

open Cert.KernelIdeal Cert.KernelIdeal.Gen Cert.KernelIdeal.Frag
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ UU ℕ

def newV_B : Upd F (Vec F S10240x1 .f32) := fun i S B Wv C X Vv Pp Hh Dd => Vv
def newP_B : Upd F (Vec F S1280x1 .f32) := fun i S B Wv C X Vv Pp Hh Dd => k1_pay7 (k1_pay2 C) X (vBlkJ i Vv)
def newH_B : Upd F (Vec F S1280x128 .f32) := fun i S B Wv C X Vv Pp Hh Dd => k1_pay3 X (k1_pay1 B) (sBlk i S)
def newD_B : Upd F (Vec F S1280x1280 .f32) := fun i S B Wv C X Vv Pp Hh Dd => Dd

set_option maxHeartbeats 1000000 in
theorem run_B (c : Dev nD) (E : Set ℕ) (i : grid1.Coords) (h0 : 0 < (i 0).val) (h1 : (i 1).val = 0) :
    Spec (F := F) c E i newV_B newP_B newH_B newD_B := by
  intro arg2 harg2 arg3 harg3 arg4 harg4 arg5 harg5 arg6 harg6 arg7 harg7 arg8 harg8 arg9 harg9 arg10 harg10 X S B Wv C Vv Pp Hh Dd K
  have hi0 : (i 0).val < 8 := (i 0).isLt
  have hi1 : (i 1).val < 8 := (i 1).isLt
  have c1 := (cond1_iff i).2 (by omega)
  have c2 := (cond2_iff i).2 (by omega)
  have c3 := mt (cond3_iff i).1 (by omega)
  have c4 := mt (cond4_iff i).1 (by omega)
  have c5 := mt (cond5_iff i).1 (by omega)
  have c6 := (cond6_iff i).2 (by omega)
  have c7 := mt (cond7_iff i).1 (by omega)
  simp only [cc1_body_eq_skeleton]; unfold cc1_body_skel owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  subst hf2 hf3 hf4 hf5 hf6 hf7 hf8 hf9 hf10
  sl_exec (disch := first | sl_exact c4 | sl_exact c5)
  sl_step
  iapply Hk
  iapply hand_back c rfl ?_ ?_ rfl
  rotate_left 2
  · iframe
  · refine (read_last_whole _ _ zz _ _ _).trans ?_
    unfold newP_B vBlkJ
    sl_unfold_run_names
    exact congr3 k1_pay7 ((View.readCov_unit_zero _ zz _ _).trans (congrArg k1_pay2 (View.ld_unit_zero (S := S1x1) zz _ _))) (View.ld_unit_zero (S := S1280x1280) zz _ _) (ld_off_congr _ (k1_off3_eq i) _ _ _)
  · refine (read_last_whole _ _ zz _ _ _).trans ?_
    unfold newH_B sBlk
    sl_unfold_run_names
    exact congr3 k1_pay3 (View.ld_unit_zero (S := S1280x1280) zz _ _) ((View.readCov_unit_zero _ zz _ _).trans (congrArg k1_pay1 (View.ld_unit_zero (S := S1x128) zz _ _))) (ld_off_congr _ (k1_off1_eq i) _ _ _)

end Cert.KernelIdeal.Body1

end
-- ==== Proof.Body1C.lean ====
import proofs.«161930_g22909355557424_cont_8to1_1761_12_alg».proof.Proof.Body1Base

noncomputable section

namespace Cert.KernelIdeal.Body1

open Cert.KernelIdeal Cert.KernelIdeal.Gen Cert.KernelIdeal.Frag
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ UU ℕ

def newV_C : Upd F (Vec F S10240x1 .f32) := fun i S B Wv C X Vv Pp Hh Dd => Vv
def newP_C : Upd F (Vec F S1280x1 .f32) := fun i S B Wv C X Vv Pp Hh Dd => k1_pay7 Pp X (vBlkJ i Vv)
def newH_C : Upd F (Vec F S1280x128 .f32) := fun i S B Wv C X Vv Pp Hh Dd => k1_pay3 X Hh (sBlk i S)
def newD_C : Upd F (Vec F S1280x1280 .f32) := fun i S B Wv C X Vv Pp Hh Dd => Dd

set_option maxHeartbeats 1000000 in
theorem run_C (c : Dev nD) (E : Set ℕ) (i : grid1.Coords) (h0 : 0 < (i 1).val) (h1 : (i 1).val < (i 0).val) :
    Spec (F := F) c E i newV_C newP_C newH_C newD_C := by
  intro arg2 harg2 arg3 harg3 arg4 harg4 arg5 harg5 arg6 harg6 arg7 harg7 arg8 harg8 arg9 harg9 arg10 harg10 X S B Wv C Vv Pp Hh Dd K
  have hi0 : (i 0).val < 8 := (i 0).isLt
  have hi1 : (i 1).val < 8 := (i 1).isLt
  have c1 := mt (cond1_iff i).1 (by omega)
  have c2 := (cond2_iff i).2 (by omega)
  have c3 := mt (cond3_iff i).1 (by omega)
  have c4 := mt (cond4_iff i).1 (by omega)
  have c5 := mt (cond5_iff i).1 (by omega)
  have c6 := (cond6_iff i).2 (by omega)
  have c7 := mt (cond7_iff i).1 (by omega)
  simp only [cc1_body_eq_skeleton]; unfold cc1_body_skel owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  subst hf2 hf3 hf4 hf5 hf6 hf7 hf8 hf9 hf10
  sl_exec (disch := first | sl_exact c4 | sl_exact c5)
  sl_step
  iapply Hk
  iapply hand_back c rfl ?_ ?_ rfl
  rotate_left 2
  · iframe
  · refine (read_last_whole _ _ zz _ _ _).trans ?_
    unfold newP_C vBlkJ
    sl_unfold_run_names
    exact congr3 k1_pay7 (View.ld_unit_zero (S := S1280x1) zz _ _) (View.ld_unit_zero (S := S1280x1280) zz _ _) (ld_off_congr _ (k1_off3_eq i) _ _ _)
  · refine (read_last_whole _ _ zz _ _ _).trans ?_
    unfold newH_C sBlk
    sl_unfold_run_names
    exact congr3 k1_pay3 (View.ld_unit_zero (S := S1280x1280) zz _ _) (View.ld_unit_zero (S := S1280x128) zz _ _) (ld_off_congr _ (k1_off1_eq i) _ _ _)

end Cert.KernelIdeal.Body1

end
-- ==== Proof.Body1D.lean ====
import proofs.«161930_g22909355557424_cont_8to1_1761_12_alg».proof.Proof.Body1Base

noncomputable section

namespace Cert.KernelIdeal.Body1

open Cert.KernelIdeal Cert.KernelIdeal.Gen Cert.KernelIdeal.Frag
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ UU ℕ

def newV_D : Upd F (Vec F S10240x1 .f32) := fun i S B Wv C X Vv Pp Hh Dd => Vv
def newP_D : Upd F (Vec F S1280x1 .f32) := fun i S B Wv C X Vv Pp Hh Dd => Pp
def newH_D : Upd F (Vec F S1280x128 .f32) := fun i S B Wv C X Vv Pp Hh Dd => k1_pay3 X Hh (sBlk i S)
def newD_D : Upd F (Vec F S1280x1280 .f32) := fun i S B Wv C X Vv Pp Hh Dd => k1_pay5 X

set_option maxHeartbeats 1000000 in
theorem run_D (c : Dev nD) (E : Set ℕ) (i : grid1.Coords) (h0 : 0 < (i 1).val) (h1 : (i 1).val = (i 0).val) (h2 : (i 0).val < 7) :
    Spec (F := F) c E i newV_D newP_D newH_D newD_D := by
  intro arg2 harg2 arg3 harg3 arg4 harg4 arg5 harg5 arg6 harg6 arg7 harg7 arg8 harg8 arg9 harg9 arg10 harg10 X S B Wv C Vv Pp Hh Dd K
  have hi0 : (i 0).val < 8 := (i 0).isLt
  have hi1 : (i 1).val < 8 := (i 1).isLt
  have c1 := mt (cond1_iff i).1 (by omega)
  have c2 := (cond2_iff i).2 (by omega)
  have c3 := mt (cond3_iff i).1 (by omega)
  have c4 := (cond4_iff i).2 ⟨by omega, by omega⟩
  have c5 := mt (cond5_iff i).1 (by omega)
  have c6 := mt (cond6_iff i).1 (by omega)
  have c7 := mt (cond7_iff i).1 (by omega)
  simp only [cc1_body_eq_skeleton]; unfold cc1_body_skel owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  subst hf2 hf3 hf4 hf5 hf6 hf7 hf8 hf9 hf10
  sl_exec (disch := first | sl_exact c4 | sl_exact c5)
  sl_step
  iapply Hk
  iapply hand_back c rfl rfl ?_ ?_
  rotate_left 2
  · iframe
  · refine (read_last_whole _ _ zz _ _ _).trans ?_
    unfold newH_D sBlk
    sl_unfold_run_names
    exact congr3 k1_pay3 (View.ld_unit_zero (S := S1280x1280) zz _ _) (View.ld_unit_zero (S := S1280x128) zz _ _) (ld_off_congr _ (k1_off1_eq i) _ _ _)
  · refine (read_last_whole _ _ zz _ _ _).trans ?_
    unfold newD_D
    sl_unfold_run_names
    exact congrArg k1_pay5 (View.ld_unit_zero (S := S1280x1280) zz _ _)

end Cert.KernelIdeal.Body1

end
-- ==== Proof.Body1E.lean ====
import proofs.«161930_g22909355557424_cont_8to1_1761_12_alg».proof.Proof.Body1Base

noncomputable section

namespace Cert.KernelIdeal.Body1

open Cert.KernelIdeal Cert.KernelIdeal.Gen Cert.KernelIdeal.Frag
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ UU ℕ

def newV_E : Upd F (Vec F S10240x1 .f32) := fun i S B Wv C X Vv Pp Hh Dd => Vv
def newP_E : Upd F (Vec F S1280x1 .f32) := fun i S B Wv C X Vv Pp Hh Dd => Pp
def newH_E : Upd F (Vec F S1280x128 .f32) := fun i S B Wv C X Vv Pp Hh Dd => k1_pay3 X Hh (sBlk i S)
def newD_E : Upd F (Vec F S1280x1280 .f32) := fun i S B Wv C X Vv Pp Hh Dd => Dd

set_option maxHeartbeats 1000000 in
theorem run_E (c : Dev nD) (E : Set ℕ) (i : grid1.Coords) (h0 : (i 0).val < (i 1).val) (h1 : (i 1).val < 7) :
    Spec (F := F) c E i newV_E newP_E newH_E newD_E := by
  intro arg2 harg2 arg3 harg3 arg4 harg4 arg5 harg5 arg6 harg6 arg7 harg7 arg8 harg8 arg9 harg9 arg10 harg10 X S B Wv C Vv Pp Hh Dd K
  have hi0 : (i 0).val < 8 := (i 0).isLt
  have hi1 : (i 1).val < 8 := (i 1).isLt
  have c1 := mt (cond1_iff i).1 (by omega)
  have c2 := (cond2_iff i).2 (by omega)
  have c3 := mt (cond3_iff i).1 (by omega)
  have c4 := mt (cond4_iff i).1 (by omega)
  have c5 := mt (cond5_iff i).1 (by omega)
  have c6 := mt (cond6_iff i).1 (by omega)
  have c7 := mt (cond7_iff i).1 (by omega)
  simp only [cc1_body_eq_skeleton]; unfold cc1_body_skel owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  subst hf2 hf3 hf4 hf5 hf6 hf7 hf8 hf9 hf10
  sl_exec (disch := first | sl_exact c4 | sl_exact c5)
  sl_step
  iapply Hk
  iapply hand_back c rfl rfl ?_ rfl
  rotate_left 1
  · iframe
  · refine (read_last_whole _ _ zz _ _ _).trans ?_
    unfold newH_E sBlk
    sl_unfold_run_names
    exact congr3 k1_pay3 (View.ld_unit_zero (S := S1280x1280) zz _ _) (View.ld_unit_zero (S := S1280x128) zz _ _) (ld_off_congr _ (k1_off1_eq i) _ _ _)

end Cert.KernelIdeal.Body1

end
-- ==== Proof.Body1F.lean ====
import proofs.«161930_g22909355557424_cont_8to1_1761_12_alg».proof.Proof.Body1Base

noncomputable section

namespace Cert.KernelIdeal.Body1

open Cert.KernelIdeal Cert.KernelIdeal.Gen Cert.KernelIdeal.Frag
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ UU ℕ

def newV_F : Upd F (Vec F S10240x1 .f32) := fun i S B Wv C X Vv Pp Hh Dd => vPut i Vv (k1_pay8 i (k1_pay4 X Hh (sBlk i S)) Wv)
def newP_F : Upd F (Vec F S1280x1 .f32) := fun i S B Wv C X Vv Pp Hh Dd => k1_pay9 i (k1_pay4 X Hh (sBlk i S)) Wv Pp Dd
def newH_F : Upd F (Vec F S1280x128 .f32) := fun i S B Wv C X Vv Pp Hh Dd => k1_pay4 X Hh (sBlk i S)
def newD_F : Upd F (Vec F S1280x1280 .f32) := fun i S B Wv C X Vv Pp Hh Dd => Dd

set_option maxHeartbeats 1000000 in
theorem run_F (c : Dev nD) (E : Set ℕ) (i : grid1.Coords) (h0 : (i 0).val < 7) (h1 : (i 1).val = 7) :
    Spec (F := F) c E i newV_F newP_F newH_F newD_F := by
  intro arg2 harg2 arg3 harg3 arg4 harg4 arg5 harg5 arg6 harg6 arg7 harg7 arg8 harg8 arg9 harg9 arg10 harg10 X S B Wv C Vv Pp Hh Dd K
  have hi0 : (i 0).val < 8 := (i 0).isLt
  have hi1 : (i 1).val < 8 := (i 1).isLt
  have c1 := mt (cond1_iff i).1 (by omega)
  have c2 := mt (cond2_iff i).1 (by omega)
  have c3 := (cond3_iff i).2 (by omega)
  have c4 := mt (cond4_iff i).1 (by omega)
  have c5 := mt (cond5_iff i).1 (by omega)
  have c6 := mt (cond6_iff i).1 (by omega)
  have c7 := (cond7_iff i).2 (by omega)
  simp only [cc1_body_eq_skeleton]; unfold cc1_body_skel owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  subst hf2 hf3 hf4 hf5 hf6 hf7 hf8 hf9 hf10
  sl_exec (disch := first | sl_exact c4 | sl_exact c5)
  sl_step
  iapply Hk
  iapply hand_back c ?_ ?_ ?_ rfl
  rotate_left 3
  · iframe
  · refine (read_writes_one _ _ _ _).trans ?_
    unfold newV_F vPut sBlk
    sl_unfold_run_names
    refine (overlay_off_congr _ (k1_off4_eq i) _ _ (rows_inb1 (i 0)) _).trans ?_
    exact congrArg (Rect.overlay _ _) (congrArg₂ (k1_pay8 i) ((View.readCov_unit_zero _ zz _ _).trans (congr3 k1_pay4 (View.ld_unit_zero (S := S1280x1280) zz _ _) (View.ld_unit_zero (S := S1280x128) zz _ _) (ld_off_congr _ (k1_off2_eq i) _ _ _))) (View.ld_unit_zero (S := S128x1) zz _ _))
  · refine (read_last_whole _ _ zz _ _ _).trans ?_
    unfold newP_F sBlk
    sl_unfold_run_names
    exact congr4 (k1_pay9 i) ((View.readCov_unit_zero _ zz _ _).trans (congr3 k1_pay4 (View.ld_unit_zero (S := S1280x1280) zz _ _) (View.ld_unit_zero (S := S1280x128) zz _ _) (ld_off_congr _ (k1_off2_eq i) _ _ _))) (View.ld_unit_zero (S := S128x1) zz _ _) (View.ld_unit_zero (S := S1280x1) zz _ _) (View.ld_unit_zero (S := S1280x1280) zz _ _)
  · refine (read_last_whole _ _ zz _ _ _).trans ?_
    unfold newH_F sBlk
    sl_unfold_run_names
    exact congr3 k1_pay4 (View.ld_unit_zero (S := S1280x1280) zz _ _) (View.ld_unit_zero (S := S1280x128) zz _ _) (ld_off_congr _ (k1_off2_eq i) _ _ _)

end Cert.KernelIdeal.Body1

end
-- ==== Proof.Body1G.lean ====
import proofs.«161930_g22909355557424_cont_8to1_1761_12_alg».proof.Proof.Body1Base

noncomputable section

namespace Cert.KernelIdeal.Body1

open Cert.KernelIdeal Cert.KernelIdeal.Gen Cert.KernelIdeal.Frag
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ UU ℕ

def newV_G : Upd F (Vec F S10240x1 .f32) := fun i S B Wv C X Vv Pp Hh Dd => vPut i Vv (k1_pay8 i (k1_pay4 X Hh (sBlk i S)) Wv)
def newP_G : Upd F (Vec F S1280x1 .f32) := fun i S B Wv C X Vv Pp Hh Dd => k1_pay9 i (k1_pay4 X Hh (sBlk i S)) Wv Pp (k1_pay6 X)
def newH_G : Upd F (Vec F S1280x128 .f32) := fun i S B Wv C X Vv Pp Hh Dd => k1_pay4 X Hh (sBlk i S)
def newD_G : Upd F (Vec F S1280x1280 .f32) := fun i S B Wv C X Vv Pp Hh Dd => k1_pay6 X

set_option maxHeartbeats 1000000 in
theorem run_G (c : Dev nD) (E : Set ℕ) (i : grid1.Coords) (h0 : (i 0).val = 7) (h1 : (i 1).val = 7) :
    Spec (F := F) c E i newV_G newP_G newH_G newD_G := by
  intro arg2 harg2 arg3 harg3 arg4 harg4 arg5 harg5 arg6 harg6 arg7 harg7 arg8 harg8 arg9 harg9 arg10 harg10 X S B Wv C Vv Pp Hh Dd K
  have hi0 : (i 0).val < 8 := (i 0).isLt
  have hi1 : (i 1).val < 8 := (i 1).isLt
  have c1 := mt (cond1_iff i).1 (by omega)
  have c2 := mt (cond2_iff i).1 (by omega)
  have c3 := (cond3_iff i).2 (by omega)
  have c4 := mt (cond4_iff i).1 (by omega)
  have c5 := (cond5_iff i).2 ⟨by omega, by omega⟩
  have c6 := mt (cond6_iff i).1 (by omega)
  have c7 := (cond7_iff i).2 (by omega)
  simp only [cc1_body_eq_skeleton]; unfold cc1_body_skel owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  subst hf2 hf3 hf4 hf5 hf6 hf7 hf8 hf9 hf10
  sl_exec (disch := first | sl_exact c4 | sl_exact c5)
  sl_step
  iapply Hk
  iapply hand_back c ?_ ?_ ?_ ?_
  rotate_left 4
  · iframe
  · refine (read_writes_one _ _ _ _).trans ?_
    unfold newV_G vPut sBlk
    sl_unfold_run_names
    refine (overlay_off_congr _ (k1_off4_eq i) _ _ (rows_inb1 (i 0)) _).trans ?_
    exact congrArg (Rect.overlay _ _) (congrArg₂ (k1_pay8 i) ((View.readCov_unit_zero _ zz _ _).trans (congr3 k1_pay4 (View.ld_unit_zero (S := S1280x1280) zz _ _) (View.ld_unit_zero (S := S1280x128) zz _ _) (ld_off_congr _ (k1_off2_eq i) _ _ _))) (View.ld_unit_zero (S := S128x1) zz _ _))
  · refine (read_last_whole _ _ zz _ _ _).trans ?_
    unfold newP_G sBlk
    sl_unfold_run_names
    exact congr4 (k1_pay9 i) ((View.readCov_unit_zero _ zz _ _).trans (congr3 k1_pay4 (View.ld_unit_zero (S := S1280x1280) zz _ _) (View.ld_unit_zero (S := S1280x128) zz _ _) (ld_off_congr _ (k1_off2_eq i) _ _ _))) (View.ld_unit_zero (S := S128x1) zz _ _) (View.ld_unit_zero (S := S1280x1) zz _ _) ((View.readCov_unit_zero _ zz _ _).trans (congrArg k1_pay6 (View.ld_unit_zero (S := S1280x1280) zz _ _)))
  · refine (read_last_whole _ _ zz _ _ _).trans ?_
    unfold newH_G sBlk
    sl_unfold_run_names
    exact congr3 k1_pay4 (View.ld_unit_zero (S := S1280x1280) zz _ _) (View.ld_unit_zero (S := S1280x128) zz _ _) (ld_off_congr _ (k1_off2_eq i) _ _ _)
  · refine (read_last_whole _ _ zz _ _ _).trans ?_
    unfold newD_G
    sl_unfold_run_names
    exact congrArg k1_pay6 (View.ld_unit_zero (S := S1280x1280) zz _ _)

end Cert.KernelIdeal.Body1

end
-- ==== Proof.Body1.lean ====
import proofs.«161930_g22909355557424_cont_8to1_1761_12_alg».proof.Proof.Body1A
import proofs.«161930_g22909355557424_cont_8to1_1761_12_alg».proof.Proof.Body1B
import proofs.«161930_g22909355557424_cont_8to1_1761_12_alg».proof.Proof.Body1C
import proofs.«161930_g22909355557424_cont_8to1_1761_12_alg».proof.Proof.Body1D
import proofs.«161930_g22909355557424_cont_8to1_1761_12_alg».proof.Proof.Body1E
import proofs.«161930_g22909355557424_cont_8to1_1761_12_alg».proof.Proof.Body1F
import proofs.«161930_g22909355557424_cont_8to1_1761_12_alg».proof.Proof.Body1G
-- ==== Proof.Region1.lean ====
import proofs.«161930_g22909355557424_cont_8to1_1761_12_alg».proof.Proof.Between
import proofs.«161930_g22909355557424_cont_8to1_1761_12_alg».proof.Proof.Body1
import proofs.«161930_g22909355557424_cont_8to1_1761_12_alg».proof.Proof.Gen.KernelIdeal.Points

noncomputable section

namespace Cert.KernelIdeal.Region1

open Cert.KernelIdeal Cert.KernelIdeal.Gen Cert.KernelIdeal.Frag
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig Unit (Elt F) ℕ UU ℕ

def Found {c : Dev nD} (rd : RDat τ (Elt F) Unit ℕ UU ℕ cfg1 c) (t : Fin cfg1.N)
    (X : Vec F S1280x1280 .f32) (S : Vec F S10240x128 .bf16) (B : Vec F S1x128 .f32) (Wv : Vec F S128x1 .f32) (C : Vec F S1x1 .f32)
    (Vv : Vec F S10240x1 .f32) (Pp : Vec F S1280x1 .f32) : Prop :=
  rd.Finds 0 t X ∧ rd.Finds 1 t S ∧ rd.Finds 2 t B ∧ rd.Finds 3 t Wv ∧ rd.Finds 4 t C ∧ rd.Finds 5 t Vv ∧ rd.Finds 6 t Pp

section Data

variable (m : (ℓ : Loc nD τ sig) → Buf (Elt F) ℓ) (o : Outs (F := F)) (c : Dev nD)
  (invH : Fin (cfg1.N + 1) → Vec F S1280x128 .f32 → Prop) (invD : Fin (cfg1.N + 1) → Vec F S1280x1280 .f32 → Prop)
  (relV : Fin cfg1.N → (Y X : Vec F S10240x1 .f32) → Prop) (relP : Fin cfg1.N → (Y X : Vec F S1280x1 .f32) → Prop)

/-- The invariant between points: the two scratch buffers hold contents of which the two predicates hold. -/
def inv1 (t : Fin (cfg1.N + 1)) : sProp 𝕄 :=
  iprop(∃ h d, ⌜invH t h ∧ invD t d⌝ ∗ owns (c : Thread nD τ) (Memref.whole cc1_scratch0) fullShare h
    ∗ owns (c : Thread nD τ) (Memref.whole cc1_scratch1) fullShare d
    ∗ Pipeline.scopedRestBut (Ix := Unit) (Name := ℕ) (U := UU) (Lvl := ℕ) (Val := Elt F) spec1 c [cc1_scratch0, cc1_scratch1]
    ∗ ∃ r, prngReg c r)

/-- The region's proof data over predicates still to be chosen. -/
def rd1 : RDat τ (Elt F) Unit ℕ UU ℕ cfg1 c where
  A w := V3 m o c (Pipeline.arrRef spec1 w)
  after w t := match w with
    | ⟨0, _⟩ => fun _ _ => True
    | ⟨1, _⟩ => fun Y X => X = Y
    | ⟨2, _⟩ => fun Y X => X = Y
    | ⟨3, _⟩ => fun Y X => X = Y
    | ⟨4, _⟩ => fun Y X => X = Y
    | ⟨5, _⟩ => relV t
    | ⟨6, _⟩ => relP t
  Φ := inv1 c invH invD
  q _ := fullShare
  owed _ := 0

/-- A control case's step at point `t`: whatever the body was handed, its results keep the two invariants and stand in the two relations. -/
def StepOk (t : Fin cfg1.N) (nH : Body1.Upd F (Vec F S1280x128 .f32)) (nD : Body1.Upd F (Vec F S1280x1280 .f32))
    (nV : Body1.Upd F (Vec F S10240x1 .f32)) (nP : Body1.Upd F (Vec F S1280x1 .f32)) : Prop :=
  ∀ X S B Wv C Vv Pp Hh Dd, Found (rd1 m o c invH invD relV relP) t X S B Wv C Vv Pp → invH t.castSucc Hh → invD t.castSucc Dd →
    invH t.succ (nH (grid1.coords t) S B Wv C X Vv Pp Hh Dd) ∧ invD t.succ (nD (grid1.coords t) S B Wv C X Vv Pp Hh Dd)
      ∧ relV t Vv (nV (grid1.coords t) S B Wv C X Vv Pp Hh Dd) ∧ relP t Pp (nP (grid1.coords t) S B Wv C X Vv Pp Hh Dd)

end Data

def outsWith (o : Outs (F := F)) (c : Dev nD) (vv : Buf (Elt F) ((c : Thread nD τ).loc main_v4_0))
    (pp : Buf (Elt F) ((c : Thread nD τ).loc main_v4_1)) : Outs (F := F) :=
  Function.update o 4 (Function.update (Function.update (o 4) main_v4_0 (Function.update (o 4 main_v4_0) c vv))
    main_v4_1 (Function.update (o 4 main_v4_1) c pp))

/-- The per-point predicates and what must be known of them: one step per control case of the body, and a closing fact about the two results. -/
structure Steps (m : (ℓ : Loc nD τ sig) → Buf (Elt F) ℓ) (P : Between.Leaves (F := F) m) (o : Outs (F := F)) (c : Dev nD) where
  invH : Fin (cfg1.N + 1) → Vec F S1280x128 .f32 → Prop
  invD : Fin (cfg1.N + 1) → Vec F S1280x1280 .f32 → Prop
  relV : Fin cfg1.N → (Y X : Vec F S10240x1 .f32) → Prop
  relP : Fin cfg1.N → (Y X : Vec F S1280x1 .f32) → Prop
  invH0 : ∀ h, invH 0 h
  invD0 : ∀ d, invD 0 d
  stepA : ∀ t : Fin cfg1.N, ((grid1.coords t) 0).val = 0 → ((grid1.coords t) 1).val = 0 →
      StepOk m o c invH invD relV relP t Body1.newH_A Body1.newD_A Body1.newV_A Body1.newP_A
  stepB : ∀ t : Fin cfg1.N, 0 < ((grid1.coords t) 0).val → ((grid1.coords t) 1).val = 0 →
      StepOk m o c invH invD relV relP t Body1.newH_B Body1.newD_B Body1.newV_B Body1.newP_B
  stepC : ∀ t : Fin cfg1.N, 0 < ((grid1.coords t) 1).val → ((grid1.coords t) 1).val < ((grid1.coords t) 0).val →
      StepOk m o c invH invD relV relP t Body1.newH_C Body1.newD_C Body1.newV_C Body1.newP_C
  stepD : ∀ t : Fin cfg1.N, 0 < ((grid1.coords t) 1).val → ((grid1.coords t) 1).val = ((grid1.coords t) 0).val → ((grid1.coords t) 0).val < 7 →
      StepOk m o c invH invD relV relP t Body1.newH_D Body1.newD_D Body1.newV_D Body1.newP_D
  stepE : ∀ t : Fin cfg1.N, ((grid1.coords t) 0).val < ((grid1.coords t) 1).val → ((grid1.coords t) 1).val < 7 →
      StepOk m o c invH invD relV relP t Body1.newH_E Body1.newD_E Body1.newV_E Body1.newP_E
  stepF : ∀ t : Fin cfg1.N, ((grid1.coords t) 0).val < 7 → ((grid1.coords t) 1).val = 7 →
      StepOk m o c invH invD relV relP t Body1.newH_F Body1.newD_F Body1.newV_F Body1.newP_F
  stepG : ∀ t : Fin cfg1.N, ((grid1.coords t) 0).val = 7 → ((grid1.coords t) 1).val = 7 →
      StepOk m o c invH invD relV relP t Body1.newH_G Body1.newD_G Body1.newV_G Body1.newP_G
  final : ∀ (vv : Buf (Elt F) ((c : Thread nD τ).loc main_v4_0)) (pp : Buf (Elt F) ((c : Thread nD τ).loc main_v4_1)),
      (rd1 m o c invH invD relV relP).ArrAt 5 cfg1.N vv → (rd1 m o c invH invD relV relP).ArrAt 6 cfg1.N pp →
      P.after1 (outsWith o c vv pp) c

def Steps.trivial (m : (ℓ : Loc nD τ sig) → Buf (Elt F) ℓ) (o : Outs (F := F)) (c : Dev nD) : Steps m (Between.Leaves.nothing m) o c where
  invH _ _ := True
  invD _ _ := True
  relV _ _ _ := True
  relP _ _ _ := True
  invH0 _ := ⟨⟩
  invD0 _ := ⟨⟩
  stepA _ _ _ _ _ _ _ _ _ _ _ _ _ _ _ := ⟨⟨⟩, ⟨⟩, ⟨⟩, ⟨⟩⟩
  stepB _ _ _ _ _ _ _ _ _ _ _ _ _ _ _ := ⟨⟨⟩, ⟨⟩, ⟨⟩, ⟨⟩⟩
  stepC _ _ _ _ _ _ _ _ _ _ _ _ _ _ _ := ⟨⟨⟩, ⟨⟩, ⟨⟩, ⟨⟩⟩
  stepD _ _ _ _ _ _ _ _ _ _ _ _ _ _ _ _ := ⟨⟨⟩, ⟨⟩, ⟨⟩, ⟨⟩⟩
  stepE _ _ _ _ _ _ _ _ _ _ _ _ _ _ _ := ⟨⟨⟩, ⟨⟩, ⟨⟩, ⟨⟩⟩
  stepF _ _ _ _ _ _ _ _ _ _ _ _ _ _ _ := ⟨⟨⟩, ⟨⟩, ⟨⟩, ⟨⟩⟩
  stepG _ _ _ _ _ _ _ _ _ _ _ _ _ _ _ := ⟨⟨⟩, ⟨⟩, ⟨⟩, ⟨⟩⟩
  final _ _ _ _ := ⟨⟩

variable (m : (ℓ : Loc nD τ sig) → Buf (Elt F) ℓ) (P : Between.Leaves (F := F) m) (o : Outs (F := F))

def rd (S : ∀ c, Steps m P o c) : (p : Fin 3) → (c : Dev nD) → RDat τ (Elt F) Unit ℕ UU ℕ (Pipeline.pin (pcfgs (F := F)) adm p) c
  | ⟨0, _⟩ => fun c => { A := fun w => V1 m c (Pipeline.arrRef spec0 w), after := fun _ _ _ _ => True, Φ := fun _ => iprop(emp), q := fun _ => fullShare, owed := fun _ => 0 }
  | ⟨1, _⟩ => fun c => rd1 m o c (S c).invH (S c).invD (S c).relV (S c).relP
  | ⟨2, _⟩ => fun c => { A := fun w => V4 m o c (Pipeline.arrRef spec2 w), after := fun _ _ _ _ => True, Φ := fun _ => iprop(emp), q := fun _ => fullShare, owed := fun _ => 0 }

section Body

variable (S : ∀ c, Steps m P o c)

abbrev rdc (c : Dev nD) : RDat τ (Elt F) Unit ℕ UU ℕ cfg1 c := rd1 m o c (S c).invH (S c).invD (S c).relV (S c).relP

theorem cases7 (a b : ℕ) (ha : a < 8) (hb : b < 8) :
    (a = 0 ∧ b = 0) ∨ (0 < a ∧ b = 0) ∨ (0 < b ∧ b < a) ∨ (0 < b ∧ b = a ∧ a < 7) ∨ (a < b ∧ b < 7) ∨ (a < 7 ∧ b = 7)
      ∨ (a = 7 ∧ b = 7) := by omega

/-- Every point is in one of the body's seven control cases: the case's step holds of its results, and its run takes the nine buffers to them. -/
theorem body_case (c : Dev nD) (t : Fin cfg1.N) :
    ∃ nH nD nV nP, StepOk m o c (S c).invH (S c).invD (S c).relV (S c).relP t nH nD nV nP
      ∧ Body1.Spec (F := F) c Set.univ (grid1.coords t) nV nP nH nD := by
  rcases cases7 _ _ ((grid1.coords t) 0).isLt ((grid1.coords t) 1).isLt with
    ⟨h0, h1⟩ | ⟨h0, h1⟩ | ⟨h0, h1⟩ | ⟨h0, h1, h2⟩ | ⟨h0, h1⟩ | ⟨h0, h1⟩ | ⟨h0, h1⟩
  · exact ⟨_, _, _, _, (S c).stepA t h0 h1, Body1.run_A c _ _ h0 h1⟩
  · exact ⟨_, _, _, _, (S c).stepB t h0 h1, Body1.run_B c _ _ h0 h1⟩
  · exact ⟨_, _, _, _, (S c).stepC t h0 h1, Body1.run_C c _ _ h0 h1⟩
  · exact ⟨_, _, _, _, (S c).stepD t h0 h1 h2, Body1.run_D c _ _ h0 h1 h2⟩
  · exact ⟨_, _, _, _, (S c).stepE t h0 h1, Body1.run_E c _ _ h0 h1⟩
  · exact ⟨_, _, _, _, (S c).stepF t h0 h1, Body1.run_F c _ _ h0 h1⟩
  · exact ⟨_, _, _, _, (S c).stepG t h0 h1, Body1.run_G c _ _ h0 h1⟩

theorem body_obligation (c : Dev nD) : (rd m P o S 1 c).BodyObligation (defs₀ (F := F)) 𝒱₀ () Set.univ := fun t Y hY => by
  rw [bigSep_W1, bigSep_W1]
  show iprop(inv1 c (S c).invH (S c).invD t.castSucc ∗ _) ⊢ wp frame _ Set.univ (bodyAt1 t) fun _ =>
    iprop(inv1 c (S c).invH (S c).invD t.succ ∗ _)
  unfold inv1
  iintro ⟨⟨%h, %d, %hinv, Hh, Hd, Hr, Hp⟩, Ho, H0, H1, H2, H3, H4, H5, H6⟩
  obtain ⟨nH, nD, nV, nP, hs, hrun⟩ := body_case m P o S c t
  obtain ⟨hH, hD, hV, hP⟩ := hs _ _ _ _ _ _ _ _ _ ⟨hY 0, hY 1, hY 2, hY 3, hY 4, hY 5, hY 6⟩ hinv.1 hinv.2
  iapply hrun (st1_0 t) _ (st1_1 t) _ (st1_2 t) _ (st1_3 t) _ (st1_4 t) _ (st1_5 t) _ (st1_6 t) _ (Memref.whole cc1_scratch0) _ (Memref.whole cc1_scratch1)
  iframe H0 H1 H2 H3 H4 H5 H6 Hh Hd
  iintro ⟨H0, H1, H2, H3, H4, H5, H6, Hh, Hd⟩
  isplitl [Hh Hd Hr Hp]
  · iexists _, _; iframe; ipureintro; exact ⟨hH, hD⟩
  isplitl [Ho]; · iexact Ho
  isplitl [H0]; · iexists _; iframe; ipureintro; exact ⟨⟩
  isplitl [H1]; · iexists _; iframe; ipureintro; exact rfl
  isplitl [H2]; · iexists _; iframe; ipureintro; exact rfl
  isplitl [H3]; · iexists _; iframe; ipureintro; exact rfl
  isplitl [H4]; · iexists _; iframe; ipureintro; exact rfl
  isplitl [H5]; · iexists _; iframe; ipureintro; exact hV
  iexists _; iframe; ipureintro; exact hP

end Body

section Record

variable (S : ∀ c, Steps m P o c)

theorem scoped_owns (c : Dev nD) :
    (Pipeline.scopedRest (Ix := Unit) (Name := ℕ) (U := UU) (Lvl := ℕ) (Val := Elt F) spec1 c : sProp 𝕄)
      = iprop(((∃ X, owns (c : Thread nD τ) (Memref.whole cc1_scratch0) fullShare X) ∗ (∃ X, owns (c : Thread nD τ) (Memref.whole cc1_scratch1) fullShare X))
        ∗ Pipeline.scopedRestBut (Ix := Unit) (Name := ℕ) (U := UU) (Lvl := ℕ) (Val := Elt F) spec1 c [cc1_scratch0, cc1_scratch1]) := by
  rw [(Memref.isWhole_whole cc1_scratch0).exists_owns_eq (c := (c : Thread nD τ)) fullShare,
    (Memref.isWhole_whole cc1_scratch1).exists_owns_eq (c := (c : Thread nD τ)) fullShare]
  exact Pipeline.scopedRest_split_of_list spec1 c [cc1_scratch0, cc1_scratch1] (by decide) (by decide)

theorem outsWith_of_ne (c : Dev nD) (vv pp) {J : ℕ} (hJ : J ≠ 4) : outsWith o c vv pp J = o J := by
  unfold outsWith; exact Function.update_of_ne hJ _ _
theorem outsWith_v (c : Dev nD) (vv pp) : outsWith o c vv pp 4 main_v4_0 c = vv := by
  unfold outsWith
  rw [Function.update_self, Function.update_of_ne (by decide : main_v4_0 ≠ main_v4_1), Function.update_self, Function.update_self]
theorem outsWith_p (c : Dev nD) (vv pp) : outsWith o c vv pp 4 main_v4_1 c = pp := by
  unfold outsWith
  rw [Function.update_self, Function.update_self, Function.update_self]

theorem V3_outsWith (c : Dev nD) (vv pp) : V3 m (outsWith o c vv pp) c = V3 m o c := by
  unfold V3 V2
  rw [outsWith_of_ne o c vv pp (by decide : (2 : ℕ) ≠ 4)]

/-- Both predicates hold of anything at the first point. -/
theorem inv_in (c : Dev nD) (Fr : sProp 𝕄) :
    iprop((∃ r, prngReg c r) ∗ Fr ∗ Pipeline.scopedRest (Ix := Unit) (Name := ℕ) (U := UU) (Lvl := ℕ) (Val := Elt F) spec1 c)
      ⊢ inv1 c (S c).invH (S c).invD 0 := by
  unfold inv1
  rw [scoped_owns c]
  iintro ⟨Hp, -, ⟨⟨%h, Hh⟩, ⟨%d, Hd⟩⟩, Hr⟩
  iexists h, d
  iframe
  ipureintro; exact ⟨(S c).invH0 h, (S c).invD0 d⟩

theorem inv_out (c : Dev nD) (t : Fin (cfg1.N + 1)) :
    inv1 c (S c).invH (S c).invD t
      ⊢ iprop((∃ r, prngReg c r) ∗ emp ∗ Pipeline.scopedRest (Ix := Unit) (Name := ℕ) (U := UU) (Lvl := ℕ) (Val := Elt F) spec1 c) := by
  unfold inv1
  rw [scoped_owns c]
  iintro ⟨%h, %d, -, Hh, Hd, Hr, Hp⟩
  iframe Hp Hr
  isplitl [Hh]
  · iexists h; iexact Hh
  iexists d; iexact Hd

end Record

section Exit

variable (S : ∀ c, Steps m P o c)

theorem exit_arr (c : Dev nD) (A : (w : Fin cfg1.W) → Buf (Elt F) ((cfg1.win w).arr.view.loc (c : Thread nD τ)))
    (hA : ∀ w, (rdc m P o S c).ArrAt w cfg1.N (A w)) (w : Fin cfg1.W) :
    A w = V4 m (outsWith o c (A 5) (A 6)) c (Pipeline.arrRef spec1 w) := by
  have hin : ∀ w' : Fin cfg1.W, (cfg1.win w').isOut = false → A w' = V3 m o c (Pipeline.arrRef spec1 w') := fun w' hw' => by
    have h := hA w'
    rw [(rdc m P o S c).ArrAt_in w' hw'] at h
    exact h
  have hV4 : ∀ b : Ref sig .tc, b ∉ ([main_v4_0, main_v4_1] : List (Ref sig .tc)) →
      V4 m (outsWith o c (A 5) (A 6)) c b = V3 m o c b := fun b hb => by
    rw [V4_of m (outsWith o c (A 5) (A 6)) c b hb, V3_outsWith]
  match w with
  | ⟨0, _⟩ | ⟨1, _⟩ | ⟨2, _⟩ | ⟨3, _⟩ | ⟨4, _⟩ => exact (hin _ rfl).trans (hV4 _ (by decide +revert)).symm
  | ⟨5, _⟩ =>
    show A 5 = V4 m (outsWith o c (A 5) (A 6)) c main_v4_0
    unfold V4
    rw [Function.update_of_ne (StableHlo.devRef_ne_of_ne (by decide) : (Proc.devRef .tc main_v4_0 : DevRef τ sig) ≠ Proc.devRef .tc main_v4_1),
      Function.update_self, outsWith_v]
  | ⟨6, _⟩ =>
    show A 6 = V4 m (outsWith o c (A 5) (A 6)) c main_v4_1
    unfold V4
    rw [Function.update_self, outsWith_p]

theorem exit_rest (c : Dev nD) (vv pp) (b : Ref sig .tc) (hb : b ∉ Finset.univ.image (Pipeline.arrRef spec1)) :
    V4 m (outsWith o c vv pp) c b = V3 m o c b := by
  rw [V4_of m (outsWith o c vv pp) c b (fun h => hb ?_), V3_outsWith]
  rcases List.mem_cons.mp h with rfl | h
  · exact Finset.mem_image.mpr ⟨5, Finset.mem_univ _, rfl⟩
  · rcases List.mem_cons.mp h with rfl | h
    · exact Finset.mem_image.mpr ⟨6, Finset.mem_univ _, rfl⟩
    · exact absurd h (List.not_mem_nil)

set_option backward.isDefEq.respectTransparency.types false in
theorem exit_held (c : Dev nD) :
    iprop((rdc m P o S c).arraysAt cfg1.N
        ∗ Pipeline.unscopedRest (Ix := Unit) (Name := ℕ) (U := UU) (Lvl := ℕ) spec1 c (fun b => V3 m o c b))
      ⊢ iprop(∃ (vv : Buf (Elt F) ((c : Thread nD τ).loc main_v4_0)) (pp : Buf (Elt F) ((c : Thread nD τ).loc main_v4_1)),
          ⌜(rdc m P o S c).ArrAt 5 cfg1.N vv ∧ (rdc m P o S c).ArrAt 6 cfg1.N pp⌝
          ∗ StableHlo.held (c : Thread nD τ) (Pipeline.ucRefs τ sig) (V4 m (outsWith o c vv pp) c)) := by
  unfold RDat.arraysAt
  iintro ⟨Ha, Hrest⟩
  ihave Ha' := (BI.bigSep_exists_pi Finset.univ _) $$ Ha
  icases Ha' with ⟨%A, Ha⟩
  ihave Ha2 := (BI.bigSep_pure_sep Finset.univ _ _) $$ Ha
  icases Ha2 with ⟨%hA', Ha⟩
  have hA : ∀ w, (rdc m P o S c).ArrAt w cfg1.N (A w) := fun w => hA' w (Finset.mem_univ w)
  iexists (A 5), (A 6)
  isplitr; · ipureintro; exact ⟨hA 5, hA 6⟩
  rw [← Pipeline.unscopedBufs_held (Ix := Unit) (Name := ℕ) (U := UU) (Lvl := ℕ) c (V4 m (outsWith o c (A 5) (A 6)) c),
    Pipeline.unscopedBufs_split (Pipeline.pin (pcfgs (F := F)) adm) 1 launch1.win.arr_unscoped launch1.win.arr_inj c
      (fun b => V4 m (outsWith o c (A 5) (A 6)) c b)]
  have hw : ∀ w : Fin cfg1.W,
      ((cfg1.win w).arr.view.loc (c : Thread nD τ) ↦[(cfg1.win w).arr.view.set]{(rdc m P o S c).share w} A w : sProp 𝕄)
        = (((c : Thread nD τ).loc (Pipeline.arrRef spec1 w)) ↦{fullShare} V4 m (outsWith o c (A 5) (A 6)) c (Pipeline.arrRef spec1 w)) := fun w => by
    have e1 : (cfg1.win w).arr.view.set = Finset.univ := (launch1.arr_whole w).set_eq_univ
    have e2 : (rdc m P o S c).share w = fullShare := (rdc m P o S c).share_full (fun _ => rfl) w
    rw [e1, e2, ← exit_arr m P o S c A hA w]
  have hr : ∀ b : Ref sig .tc, b ∉ Finset.univ.image (Pipeline.arrRef spec1) →
      ((((c : Thread nD τ).loc b) ↦{fullShare} V3 m o c b) : sProp 𝕄)
        = (((c : Thread nD τ).loc b) ↦{fullShare} V4 m (outsWith o c (A 5) (A 6)) c b) := fun b hb => by
    rw [exit_rest m o c (A 5) (A 6) b hb]
  isplitl [Ha]
  · iapply (Entails.of_eq (bigSep_congr fun w _ => hw w)); iexact Ha
  · unfold Pipeline.unscopedRest
    iapply (Entails.of_eq (bigSep_congr fun b hb => hr b (Finset.mem_sdiff.mp hb).2)); iexact Hrest

end Exit

section TheRecord

variable (S : ∀ c, Steps m P o c)

set_option backward.isDefEq.respectTransparency.types false in
def R1 : Pipeline.RDat.RegionSeg (pcfgs (F := F)) adm (rd m P o S) () defs₀ 𝒱₀ L lv 1 where
  win := launch1.win.to₀
  block_pos := launch1.block_pos
  stage_whole := launch1.stage_whole
  K := PEmpty
  osem k := k.elim
  ho := Pipeline.OwnSemFacts.none _
  hbody c := body_obligation m P o S c
  hwaits := Pipeline.RDat.hwaits_of_owed_zero _ _ _ _ L lv 1 fun _ _ => rfl
  pre c := Between.T3 m o c
  post c := Between.T4 m P o c
  X c := iprop(∃ r, prngReg c r)
  Y c := iprop(∃ r, prngReg c r)
  Z c := Pipeline.unscopedRest (Ix := Unit) (Name := ℕ) (U := UU) (Lvl := ℕ) spec1 c (fun b => V3 m o c b)
  hentry c := by
    rw [Pipeline.ownSems0_none]
    have hsplit := Pipeline.RDat.arrays_of_unscopedBufs (p := 1) (pcfgs (F := F)) adm (rd m P o S) launch1.win launch1.arr_whole c
      ((rd m P o S 1 c).share_full fun _ => rfl) (fun b => V3 m o c b) fun _ => rfl
    rw [Pipeline.unscopedBufs_held] at hsplit
    iintro ⟨⟨Hub, Hp, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    unfold Pipeline.RDat.owesAt Pipeline.owesWithin
    icases HO with ⟨%W, HO⟩; iexists W; isplitr; · ipureintro; exact fun _ _ => Or.inl trivial
    iexact HO
  hin c := inv_in m P o S c _
  hout c := by rw [Pipeline.ownSems0_none]; exact inv_out m P o S c _
  hexit c := by
    show iprop((rdc m P o S c).arraysAt cfg1.N ∗ (rdc m P o S c).owesAt () (Fin.last cfg1.N) ∗ (∃ r, prngReg c r)
        ∗ Pipeline.unscopedRest (Ix := Unit) (Name := ℕ) (U := UU) (Lvl := ℕ) spec1 c (fun b => V3 m o c b))
      ⊢ |={Set.univ}=> Between.T4 m P o c
    iintro ⟨Ha, HO, HY, Hrest⟩
    ihave H := (exit_held m P o S c) $$ [Ha Hrest]
    · isplitl [Ha] <;> iassumption
    icases H with ⟨%vv, %pp, %hvp, Hh⟩
    imodintro
    iexists (outsWith o c vv pp)
    isplitr
    · ipureintro
      exact ⟨outsWith_of_ne o c vv pp (by decide), (S c).final vv pp hvp.1 hvp.2⟩
    isplitl [Hh]; · iexact Hh
    isplitl [HY]; · iexact HY
    unfold Pipeline.RDat.owesAt Pipeline.owesWithin
    icases HO with ⟨%W, -, HO⟩; iexists W; iexact HO

theorem R1_pre (c : Dev nD) : (R1 m P o S).pre c = Between.T3 m o c := rfl
theorem R1_post (c : Dev nD) : (R1 m P o S).post c = Between.T4 m P o c := rfl

end TheRecord

end Cert.KernelIdeal.Region1

end
-- ==== Proof.Body2.lean ====
import proofs.«161930_g22909355557424_cont_8to1_1761_12_alg».proof.Proof.RegionFragment
import proofs.«161930_g22909355557424_cont_8to1_1761_12_alg».proof.Proof.Gen.KernelIdeal.Skeleton
import Idealize.ShloMosaic.Lib.Pipeline.Value
import Idealize.ShloMosaic.Lib.Tactic

noncomputable section

namespace Cert.KernelIdeal.Body2

open Cert.KernelIdeal Cert.KernelIdeal.Gen Cert.KernelIdeal.Frag
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem cond1_iff : ∀ i : grid2.Coords, k2_cond1 i = 1#1 ↔ (i 1).val = 0 := by decide +kernel
theorem cond2_iff : ∀ i : grid2.Coords, k2_cond2 i = 1#1 ↔ ((i 0).val < (i 1).val ∧ (i 1).val < 7) := by decide +kernel
theorem cond3_iff : ∀ i : grid2.Coords, k2_cond3 i = 1#1 ↔ ((i 0).val < (i 1).val ∧ (i 1).val = 7) := by decide +kernel

-- At most one of the three conditions holds at a point.
theorem kinds (i : grid2.Coords) :
    (k2_cond1 i = 1#1 ∧ ¬ k2_cond2 i = 1#1 ∧ ¬ k2_cond3 i = 1#1) ∨ (¬ k2_cond1 i = 1#1 ∧ k2_cond2 i = 1#1 ∧ ¬ k2_cond3 i = 1#1)
      ∨ (¬ k2_cond1 i = 1#1 ∧ ¬ k2_cond2 i = 1#1 ∧ k2_cond3 i = 1#1) ∨ (¬ k2_cond1 i = 1#1 ∧ ¬ k2_cond2 i = 1#1 ∧ ¬ k2_cond3 i = 1#1) := by
  rw [cond1_iff, cond2_iff, cond3_iff]; omega

theorem off_zero : (![0, 0] : Fin 2 → Nat) = fun _ => 0 := by
  funext a; fin_cases a <;> rfl

section Whole
variable {sg : RefSig} {κ : Kind} {sp : Space} {S : Shape} {e : EltTy}

theorem load_whole (v : View sg κ sp S e) (f : v.ty.Contents (Elt F)) {off : Fin S.rank → Nat} (h : off = fun _ => 0)
    (inb : ∀ a, off a + S.size a ≤ S.size a) :
    v.readAt (Elt F) (Rect.unit off S.size inb).toLoadRect f = v.read (Elt F) f :=
  (View.readAt_eq_ld v f _).trans (View.ld_unit_zero h inb _)

theorem read_store_whole (v : View sg κ sp S e) (f : v.ty.Contents (Elt F)) {off : Fin S.rank → Nat} (h : off = fun _ => 0)
    (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon v f _ (fun y => ⟨_, List.mem_singleton_self _, View.mem_set_unit_zero h inb y⟩),
    View.canon_unit_zero h]

end Whole

-- What the body leaves in the output block: a copy of the partial result's block, the block plus adjacency times vector, or the block as found.
def newO (i : grid2.Coords) (X : Vec F S1280x1280 .f32) (Vb Pb Ob : Vec F S1280x1 .f32) : Vec F S1280x1 .f32 :=
  if k2_cond1 i = 1#1 then k2_pay1 Pb else if k2_cond2 i = 1#1 then k2_pay2 X Ob Vb
  else if k2_cond3 i = 1#1 then k2_pay3 X Ob Vb else Ob

set_option maxHeartbeats 1000000 in
theorem run (c : Dev nD) (E : Set ℕ) (i : grid2.Coords)
    (arg2 : Memref sig .tc .vmem S1280x1280 .f32) (harg2 : arg2.IsWhole) (arg3 : Memref sig .tc .vmem S1280x1 .f32) (harg3 : arg3.IsWhole)
    (arg4 : Memref sig .tc .vmem S1280x1 .f32) (harg4 : arg4.IsWhole) (arg5 : Memref sig .tc .vmem S1280x1 .f32) (harg5 : arg5.IsWhole)
    (X : Vec F S1280x1280 .f32) (Vb Pb Ob : Vec F S1280x1 .f32) (K : PUnit → sProp 𝕄) :
    iprop(owns (c : Thread nD τ) arg2 fullShare X ∗ owns (c : Thread nD τ) arg3 fullShare Vb ∗ owns (c : Thread nD τ) arg4 fullShare Pb
        ∗ owns (c : Thread nD τ) arg5 fullShare Ob
        ∗ (iprop(owns (c : Thread nD τ) arg2 fullShare X ∗ owns (c : Thread nD τ) arg3 fullShare Vb ∗ owns (c : Thread nD τ) arg4 fullShare Pb
            ∗ owns (c : Thread nD τ) arg5 fullShare (newO i X Vb Pb Ob)) -∗ K ⟨⟩))
      ⊢ wp frame (wpE (defs₀ (F := F)) Variants.none (c : Thread nD τ) none) E (cc2_body i arg2 harg2 arg3 harg3 arg4 harg4 arg5 harg5) K := by
  simp only [cc2_body_eq_skeleton]; unfold cc2_body_skel owns
  iintro ⟨⟨%f2, %hf2, H2⟩, ⟨%f3, %hf3, H3⟩, ⟨%f4, %hf4, H4⟩, ⟨%f5, %hf5, H5⟩, Hk⟩
  subst hf2 hf3 hf4 hf5
  rcases kinds i with ⟨hc1, hc2, hc3⟩ | ⟨hc1, hc2, hc3⟩ | ⟨hc1, hc2, hc3⟩ | ⟨hc1, hc2, hc3⟩ <;>
  · sl_exec
    sl_step
    iapply Hk
    isplitl [H2]; · iexists f2; isplitr; · ipureintro; rfl
                    iexact H2
    isplitl [H3]; · iexists f3; isplitr; · ipureintro; rfl
                    iexact H3
    isplitl [H4]; · iexists f4; isplitr; · ipureintro; rfl
                    iexact H4
    iexists _; isplitr
    swap; · iexact H5
    ipureintro
    simp only [newO, hc1, hc2, hc3, ↓reduceIte, read_store_whole arg5.view _ off_zero, load_whole arg2.view _ off_zero,
      load_whole arg3.view _ off_zero, load_whole arg4.view _ off_zero, load_whole arg5.view _ off_zero]

end Cert.KernelIdeal.Body2

end
-- ==== Proof.Region2.lean ====
import proofs.«161930_g22909355557424_cont_8to1_1761_12_alg».proof.Proof.Between
import proofs.«161930_g22909355557424_cont_8to1_1761_12_alg».proof.Proof.Body2
import proofs.«161930_g22909355557424_cont_8to1_1761_12_alg».proof.Proof.Gen.KernelIdeal.Launch
import proofs.«161930_g22909355557424_cont_8to1_1761_12_alg».proof.Proof.Gen.KernelIdeal.Points
import proofs.«161930_g22909355557424_cont_8to1_1761_12_alg».proof.Proof.Gen.KernelIdeal.Skeleton
import Idealize.ShloMosaic.Lib.Pipeline.Frame
import Idealize.ShloMosaic.Lib.Pipeline.Regions
import Idealize.ShloMosaic.Lib.Pipeline.FrameBody
import Idealize.ShloMosaic.Lib.Tactic

noncomputable section

namespace Cert.KernelIdeal.Region2

open Cert.KernelIdeal Cert.KernelIdeal.Gen Cert.KernelIdeal.Frag
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig Unit (Elt F) ℕ UU ℕ

variable (m : (ℓ : Loc nD τ sig) → Buf (Elt F) ℓ)

abbrev Vin (o : Outs (F := F)) (c : Dev nD) : (b : Ref sig .tc) → Buf (Elt F) ((c : Thread nD τ).loc b) := fun b => V4 m o c b

def dat (o : Outs (F := F)) (c : Dev nD) (relO : Fin cfg2.N → (Y X : Vec F S1280x1 .f32) → Prop) :
    RDat τ (Elt F) Unit ℕ UU ℕ cfg2 c where
  A w := Vin m o c (Pipeline.arrRef spec2 w)
  after w t := match w with
    | ⟨0, _⟩ => fun Y X => X = Y
    | ⟨1, _⟩ => fun Y X => X = Y
    | ⟨2, _⟩ => fun Y X => X = Y
    | ⟨3, _⟩ => fun Y X => relO t Y X
  Φ _ := Pipeline.ΦA spec2 c
  q _ := fullShare
  owed _ := 0

section Dat
variable (o : Outs (F := F)) (c : Dev nD) (relO : Fin cfg2.N → (Y X : Vec F S1280x1 .f32) → Prop)

theorem dat_A (w : Fin cfg2.W) : (dat m o c relO).A w = Vin m o c (Pipeline.arrRef spec2 w) := by dsimp only [dat]
theorem after_0 (t : Fin cfg2.N) : (dat m o c relO).after 0 t = fun Y X => X = Y := by dsimp only [dat]
theorem after_1 (t : Fin cfg2.N) : (dat m o c relO).after 1 t = fun Y X => X = Y := by dsimp only [dat]
theorem after_2 (t : Fin cfg2.N) : (dat m o c relO).after 2 t = fun Y X => X = Y := by dsimp only [dat]
theorem after_3 (t : Fin cfg2.N) : (dat m o c relO).after 3 t = fun Y X => relO t Y X := by dsimp only [dat]; rfl

end Dat

def adjAt (o : Outs (F := F)) (c : Dev nD) (t : Fin cfg2.N) (d : Vec F S1280x1280 .f32) : Vec F S1280x1280 .f32 :=
  (dat m o c fun _ _ _ => True).fetched 0 t d

def vAt (o : Outs (F := F)) (c : Dev nD) (t : Fin cfg2.N) : Vec F S1280x1 .f32 :=
  (dat m o c fun _ _ _ => True).blockOf 1 t

def pAt (o : Outs (F := F)) (c : Dev nD) (t : Fin cfg2.N) : Vec F S1280x1 .f32 :=
  (dat m o c fun _ _ _ => True).blockOf 2 t

section Finds
variable (o : Outs (F := F)) (c : Dev nD) (relO : Fin cfg2.N → (Y X : Vec F S1280x1 .f32) → Prop)

theorem finds_0 (t : Fin cfg2.N) (X : Vec F S1280x1280 .f32) (h : (dat m o c relO).Finds 0 t X) : ∃ d, X = adjAt m o c t d :=
  Pipeline.RDat.finds_in_eq_fetched (dat m o c relO) 0 rfl
    (fun t t' h => by
      funext a
      show Pipeline.Clip.of (cc2_transform_0 (grid2.coords t) a) _ _ = Pipeline.Clip.of (cc2_transform_0 (grid2.coords t') a) _ _
      rw [show cc2_transform_0 (grid2.coords t) = cc2_transform_0 (grid2.coords t') from h])
    (fun t Y X h => by rw [after_0] at h; exact h) t X h

theorem finds_1 (t : Fin cfg2.N) (X : Vec F S1280x1 .f32) (h : (dat m o c relO).Finds 1 t X) : X = vAt m o c t := by
  obtain ⟨d, hd⟩ := Pipeline.RDat.finds_in_eq_fetched (dat m o c relO) 1 rfl (fun _ _ _ => rfl)
    (fun t Y X h => by rw [after_1] at h; exact h) t X h
  exact hd

theorem finds_2 (t : Fin cfg2.N) (X : Vec F S1280x1 .f32) (h : (dat m o c relO).Finds 2 t X) : X = pAt m o c t := by
  obtain ⟨d, hd⟩ := Pipeline.RDat.finds_in_eq_fetched (dat m o c relO) 2 rfl (fun _ _ _ => rfl)
    (fun t Y X h => by rw [after_2] at h; exact h) t X h
  exact hd

end Finds

structure Steps (P : Between.Leaves (F := F) m) (o : Outs (F := F)) (c : Dev nD) where
  relO : Fin cfg2.N → (Y X : Vec F S1280x1 .f32) → Prop
  stepZ : ∀ (t : Fin cfg2.N), ((grid2.coords t) 1).val = 0 → ∀ (d : Vec F S1280x1280 .f32) (Y : Vec F S1280x1 .f32),
    relO t Y (k2_pay1 (pAt m o c t))
  stepU : ∀ (t : Fin cfg2.N), ((grid2.coords t) 0).val < ((grid2.coords t) 1).val → ((grid2.coords t) 1).val < 7 →
    ∀ (d : Vec F S1280x1280 .f32) (Y : Vec F S1280x1 .f32),
    relO t Y (k2_pay2 (adjAt m o c t d) Y (vAt m o c t))
  stepW : ∀ (t : Fin cfg2.N), ((grid2.coords t) 0).val < ((grid2.coords t) 1).val → ((grid2.coords t) 1).val = 7 →
    ∀ (d : Vec F S1280x1280 .f32) (Y : Vec F S1280x1 .f32),
    relO t Y (k2_pay3 (adjAt m o c t d) Y (vAt m o c t))
  stepN : ∀ (t : Fin cfg2.N), 0 < ((grid2.coords t) 1).val → ((grid2.coords t) 1).val ≤ ((grid2.coords t) 0).val →
    ∀ (Y : Vec F S1280x1 .f32), relO t Y Y
  final : ∀ (oo : Buf (Elt F) ((c : Thread nD τ).loc main_v5)), (dat m o c relO).ArrAt 3 cfg2.N oo →
    ∀ o' : Outs (F := F), o' 2 = o 2 → o' 4 = o 4 → o' 5 main_v5 c = oo → P.after2 o' c

def Steps.trivial (o : Outs (F := F)) (c : Dev nD) : Steps m (Between.Leaves.nothing m) o c where
  relO _ _ _ := True
  stepZ _ _ _ _ := True.intro
  stepU _ _ _ _ _ := True.intro
  stepW _ _ _ _ _ := True.intro
  stepN _ _ _ _ := True.intro
  final _ _ _ _ _ _ := True.intro

section Body
variable {P : Between.Leaves (F := F) m} {o : Outs (F := F)} {c : Dev nD} (S : Steps m P o c)

-- The four facts asked of the relation, as one: it holds of what the body leaves at any point.
theorem Steps.rel (t : Fin cfg2.N) (d : Vec F S1280x1280 .f32) (Y : Vec F S1280x1 .f32) :
    S.relO t Y (Body2.newO (grid2.coords t) (adjAt m o c t d) (vAt m o c t) (pAt m o c t) Y) := by
  unfold Body2.newO
  split_ifs with h1 h2 h3
  · exact S.stepZ t ((Body2.cond1_iff _).1 h1) d Y
  · exact S.stepU t ((Body2.cond2_iff _).1 h2).1 ((Body2.cond2_iff _).1 h2).2 d Y
  · exact S.stepW t ((Body2.cond3_iff _).1 h3).1 ((Body2.cond3_iff _).1 h3).2 d Y
  · rw [Body2.cond1_iff] at h1; rw [Body2.cond2_iff] at h2; rw [Body2.cond3_iff] at h3
    have := ((grid2.coords t) 1).isLt
    have hb : grid2.bound 1 = 8 := rfl
    exact S.stepN t (by omega) (by omega) Y

theorem body_obligation : (dat m o c S.relO).BodyObligation (defs₀ (F := F)) Variants.none () Set.univ := fun t Y hY => by
  obtain ⟨d, h0⟩ := finds_0 m o c S.relO t (Y 0) (hY 0)
  have h1 := finds_1 m o c S.relO t (Y 1) (hY 1)
  have h2 := finds_2 m o c S.relO t (Y 2) (hY 2)
  rw [bigSep_W2, bigSep_W2, h0, h1, h2, after_0, after_1, after_2, after_3,
    show (dat m o c S.relO).Φ t.succ = (dat m o c S.relO).Φ t.castSucc from rfl,
    show (dat m o c S.relO).owesAt () t.succ = (dat m o c S.relO).owesAt () t.castSucc from rfl]
  show _ ⊢ wp _ _ _ (bodyAt2 t) _
  iintro ⟨HΦ, Ho, H0, H1, H2, H3⟩
  iapply (Body2.run c Set.univ (grid2.coords t) _ _ _ _ _ _ _ _ (adjAt m o c t d) (vAt m o c t) (pAt m o c t) (Y 3) _)
  iframe H0 H1 H2 H3
  iintro ⟨H0, H1, H2, H3⟩
  iframe HΦ Ho
  isplitl [H0]; · iexists _; isplitr; · ipureintro; rfl
                  iexact H0
  isplitl [H1]; · iexists _; isplitr; · ipureintro; rfl
                  iexact H1
  isplitl [H2]; · iexists _; isplitr; · ipureintro; rfl
                  iexact H2
  iexists _; isplitr; · ipureintro; exact S.rel m t d (Y 3)
  iexact H3

end Body

def withOut (o : Outs (F := F)) (c : Dev nD) (oo : Buf (Elt F) ((c : Thread nD τ).loc main_v5)) : Outs (F := F) :=
  fun j r c' => if h : j = 5 ∧ r = main_v5 ∧ c' = c then cast (by rw [h.2.1, h.2.2]) oo else o j r c'

theorem withOut_five (o : Outs (F := F)) (c : Dev nD) (oo : Buf (Elt F) ((c : Thread nD τ).loc main_v5)) :
    withOut o c oo 5 main_v5 c = oo := by
  unfold withOut; rw [dif_pos ⟨rfl, rfl, rfl⟩]; rfl

theorem withOut_of_ne (o : Outs (F := F)) (c : Dev nD) (oo : Buf (Elt F) ((c : Thread nD τ).loc main_v5)) {j : ℕ} (hj : j ≠ 5) :
    withOut o c oo j = o j := by
  funext r c'; unfold withOut; rw [dif_neg fun h => hj h.1]

theorem V4_congr (o o' : Outs (F := F)) (h2 : o' 2 = o 2) (h4 : o' 4 = o 4) (c : Dev nD) : V4 m o' c = V4 m o c := by
  simp only [V4, V3, V2, h2, h4]

section Exit
variable (o : Outs (F := F)) (c : Dev nD) (oo : Buf (Elt F) ((c : Thread nD τ).loc main_v5))

theorem V5_withOut_self : V5 m (withOut o c oo) c main_v5 = oo := by
  simp only [V5, Function.update_self, withOut_five]

theorem V5_withOut_of_ne (b : Ref sig .tc) (hb : b ≠ main_v5) : V5 m (withOut o c oo) c b = V4 m o c b := by
  simp only [V5, Function.update_of_ne (StableHlo.devRef_ne_of_ne hb : (Proc.devRef .tc b : DevRef τ sig) ≠ Proc.devRef .tc main_v5)]
  rw [V4_congr m o (withOut o c oo) (withOut_of_ne o c oo (by decide)) (withOut_of_ne o c oo (by decide)) c]

end Exit

theorem bufs_of_arrays (c : Dev nD) (V V' : (b : Ref sig .tc) → Buf (Elt F) ((c : Thread nD τ).loc b))
    (A : (w : Fin cfg2.W) → Buf (Elt F) ((c : Thread nD τ).loc (Pipeline.arrRef spec2 w)))
    (hA : ∀ w, A w = V' (Pipeline.arrRef spec2 w))
    (hrest : ∀ b, b ∉ Finset.univ.image (Pipeline.arrRef spec2) → V' b = V b) :
    iprop((bigSep Finset.univ fun w : Fin cfg2.W => (((c : Thread nD τ).loc (Pipeline.arrRef spec2 w)) ↦{fullShare} A w : sProp 𝕄))
        ∗ Pipeline.unscopedRest (Ix := Unit) (Name := ℕ) (U := UU) (Lvl := ℕ) spec2 c V)
      ⊢ (unscopedBufs (Ix := Unit) (Name := ℕ) (U := UU) (Lvl := ℕ) c V' : sProp 𝕄) := by
  rw [Pipeline.unscopedBufs_split cfgs 2 launch2.win.arr_unscoped launch2.win.arr_inj c V']
  refine sep_mono (Entails.of_eq (bigSep_congr fun w _ => by rw [hA]; rfl)) (Entails.of_eq ?_)
  unfold Pipeline.unscopedRest
  exact bigSep_congr fun b hb => by rw [hrest b (Finset.mem_sdiff.mp hb).2]

theorem exit_bufs (o : Outs (F := F)) (c : Dev nD) (relO : Fin cfg2.N → (Y X : Vec F S1280x1 .f32) → Prop) :
    iprop((dat m o c relO).arraysAt cfg2.N ∗ Pipeline.unscopedRest (Ix := Unit) (Name := ℕ) (U := UU) (Lvl := ℕ) spec2 c (Vin m o c))
      ⊢ (iprop(∃ oo, ⌜(dat m o c relO).ArrAt 3 cfg2.N oo⌝
          ∗ StableHlo.held (c : Thread nD τ) (Pipeline.ucRefs τ sig) (V5 m (withOut o c oo) c)) : sProp 𝕄) := by
  unfold RDat.arraysAt
  iintro ⟨Ha, Hrest⟩
  ihave Ha' := (BI.bigSep_exists_pi Finset.univ (fun w F => iprop(⌜(dat m o c relO).ArrAt w cfg2.N F⌝
      ∗ (cfg2.win w).arr.view.loc (c.tc : Thread nD τ) ↦[(cfg2.win w).arr.view.set]{(dat m o c relO).share w} F))) $$ Ha
  icases Ha' with ⟨%A, Ha⟩
  ihave Ha2 := (BI.bigSep_pure_sep Finset.univ (fun w => (dat m o c relO).ArrAt w cfg2.N (A w))
      (fun w => (cfg2.win w).arr.view.loc (c.tc : Thread nD τ) ↦[(cfg2.win w).arr.view.set]{(dat m o c relO).share w} A w)) $$ Ha
  icases Ha2 with ⟨%hA', Ha⟩
  have hA : ∀ w, (dat m o c relO).ArrAt w cfg2.N (A w) := fun w => hA' w (Finset.mem_univ w)
  have hin : ∀ w : Fin cfg2.W, (cfg2.win w).isOut = false → A w = Vin m o c (Pipeline.arrRef spec2 w) := fun w hw => by
    have := hA w; rw [(dat m o c relO).ArrAt_in w hw] at this; rw [this, dat_A]

  have hAw : ∀ w : Fin cfg2.W, A w = (fun b => V5 m (withOut o c (A 3)) c b : (b : Ref sig .tc) → Buf (Elt F) ((c : Thread nD τ).loc b)) (Pipeline.arrRef spec2 w) := fun w =>
    match w with
    | ⟨0, _⟩ => (hin 0 rfl).trans (V5_withOut_of_ne m o c (A 3) main_arg0 (by decide)).symm
    | ⟨1, _⟩ => (hin 1 rfl).trans (V5_withOut_of_ne m o c (A 3) main_v4_0 (by decide)).symm
    | ⟨2, _⟩ => (hin 2 rfl).trans (V5_withOut_of_ne m o c (A 3) main_v4_1 (by decide)).symm
    | ⟨3, _⟩ => (V5_withOut_self m o c (A 3)).symm
  have hrest : ∀ b, b ∉ Finset.univ.image (Pipeline.arrRef spec2) →
      (fun b => V5 m (withOut o c (A 3)) c b : (b : Ref sig .tc) → Buf (Elt F) ((c : Thread nD τ).loc b)) b = Vin m o c b := fun b hb =>
    V5_withOut_of_ne m o c (A 3) b fun e => hb (Finset.mem_image.mpr ⟨3, Finset.mem_univ _, e.symm⟩)
  have hjoin := bufs_of_arrays c (Vin m o c) (fun b => V5 m (withOut o c (A 3)) c b) A hAw hrest
  rw [Pipeline.unscopedBufs_held] at hjoin
  iexists (A 3); isplitr; · ipureintro; exact hA 3
  iapply hjoin
  iframe Hrest
  · iapply (Entails.of_eq (bigSep_congr (fun w _ => by
        have hs : (cfg2.win w).arr.view.set = Finset.univ := (arr_whole2 w).set_eq_univ
        rw [hs, (dat m o c relO).share_full (fun _ => rfl) w]) :
      (bigSep Finset.univ fun w => ((cfg2.win w).arr.view.loc (c.tc : Thread nD τ) ↦[(cfg2.win w).arr.view.set]{(dat m o c relO).share w} A w : sProp 𝕄))
        = bigSep Finset.univ fun w => (((c.tc : Thread nD τ).loc (Pipeline.arrRef spec2 w)) ↦{fullShare} A w : sProp 𝕄)))
    iexact Ha

section Final
variable (o : Outs (F := F)) (c : Dev nD) (relO : Fin cfg2.N → (Y X : Vec F S1280x1 .f32) → Prop)

def pt (ib : Fin 8) (k : Nat) (hk : k < 8) : Fin cfg2.N :=
  ⟨8 * ib.val + k, by have := ib.isLt; rw [show cfg2.N = 64 from N_2]; omega⟩

abbrev rowEnd (ib : Fin 8) : Fin cfg2.N := pt ib 7 (by decide)

-- What the body leaves at point k of a block row ends a chain of the relation along the row's points 0 … k, begun at arbitrary contents.
theorem row_chain (ib : Fin 8) : ∀ (k : Nat) (hk : k < 8) (X : Vec F S1280x1 .f32), (dat m o c relO).Leaves 3 (pt ib k hk) X →
    ∃ Z : Nat → Vec F S1280x1 .f32, Z (k + 1) = X ∧ ∀ (j : Nat) (hj : j ≤ k), relO (pt ib j (by omega)) (Z j) (Z (j + 1))
  | 0, hk, X, h => by
    obtain ⟨Y, -, hR⟩ := h
    rw [after_3] at hR
    refine ⟨fun j => if j = 0 then Y else X, by simp, fun j hj => ?_⟩
    obtain rfl : j = 0 := Nat.le_zero.mp hj
    simpa using hR
  | k + 1, hk, X, h => by
    obtain ⟨Y, hY, hR⟩ := h
    rw [after_3] at hR
    rw [(dat m o c relO).finds_of_pos (t := pt ib (k + 1) hk) (Pipeline.Window.fetch_out _ rfl _)
      (by show 8 * ib.val + (k + 1) ≠ 0; omega)] at hY
    have hY' := hY.resolve_left fun hfl => absurd ((flush2_3 _).mp hfl) (by show ¬ (8 * ib.val + (k + 1) - 1) % 8 = 7; omega)
    rw [show (⟨(pt ib (k + 1) hk).val - 1, Nat.lt_of_le_of_lt (Nat.sub_le _ _) (pt ib (k + 1) hk).isLt⟩ : Fin cfg2.N) = pt ib k (by omega) from
      Fin.ext (by show 8 * ib.val + (k + 1) - 1 = 8 * ib.val + k; omega)] at hY'
    obtain ⟨Z, hZ, hch⟩ := row_chain ib k (by omega) Y hY'
    refine ⟨Function.update Z (k + 2) X, Function.update_self _ _ _, fun j hj => ?_⟩
    rcases Nat.lt_or_ge j (k + 1) with hlt | hge
    · rw [Function.update_of_ne (by omega), Function.update_of_ne (by omega)]
      exact hch j (by omega)
    · obtain rfl : j = k + 1 := by omega
      rw [Function.update_of_ne (by omega), Function.update_self, hZ]
      exact hR

theorem index3_ne : ∀ (ib : Fin 8) (n : Fin grid2.N), 8 * ib.val + 7 < n.val → n.val % 8 = 7 →
    win2_3.index (rowEnd ib) ≠ win2_3.index n := by
  decide +kernel

theorem arrAt_rows_aux : ∀ (n : Nat), n ≤ cfg2.N → ∀ G, (dat m o c relO).ArrAt 3 n G →
    ∀ ib : Fin 8, 8 * ib.val + 7 < n →
      (dat m o c relO).Leaves 3 (rowEnd ib) (((cfg2.win 3).blk (rowEnd ib)).view.read (Elt F) G)
  | 0, _, _, _, ib, h => absurd h (Nat.not_lt_zero _)
  | n + 1, hn, G, hG, ib, hib => by
    have hlt : n < cfg2.N := hn
    have hG' := (congrFun ((dat m o c relO).ArrAt_succ 3 ⟨n, hlt⟩) G).mp hG
    by_cases hfl : (cfg2.win 3).flush ⟨n, hlt⟩ = true
    · rw [if_pos hfl] at hG'
      obtain ⟨G₀, X, hG₀, hX, rfl⟩ := hG'
      have h7 : n % 8 = 7 := (flush2_3 ⟨n, hlt⟩).mp hfl
      by_cases he : 8 * ib.val + 7 = n
      · have e : rowEnd ib = ⟨n, hlt⟩ := Fin.ext he
        rw [e, View.read_write_univ]
        exact hX
      · have hlt' : 8 * ib.val + 7 < n := by omega
        have hdis := Pipeline.Window.disjoint_blk (cfg2.win 3) (index3_ne ib ⟨n, hlt⟩ hlt' h7)
        rw [show ((cfg2.win 3).blk (rowEnd ib)).view.read (Elt F)
              (((cfg2.win 3).blk ⟨n, hlt⟩).view.write (Elt F) G₀ ((cfg2.win 3).cut (cfg2.grid.coords ⟨n, hlt⟩) X) Finset.univ)
            = ((cfg2.win 3).blk (rowEnd ib)).view.read (Elt F) G₀ from
          View.read_congr fun i hi => View.write_of_not_mem _ _ _ (Finset.disjoint_left.mp hdis hi)]
        exact arrAt_rows_aux n (Nat.le_of_lt hlt) G₀ hG₀ ib hlt'
    · rw [if_neg hfl] at hG'
      have h7 : ¬ n % 8 = 7 := fun h => hfl ((flush2_3 ⟨n, hlt⟩).mpr h)
      exact arrAt_rows_aux n (Nat.le_of_lt hlt) G hG' ib (by omega)

theorem arrAt_rows (oo : Buf (Elt F) ((c : Thread nD τ).loc main_v5)) (h : (dat m o c relO).ArrAt 3 cfg2.N oo) (ib : Fin 8) :
    (dat m o c relO).Leaves 3 (rowEnd ib) (((cfg2.win 3).blk (rowEnd ib)).view.read (Elt F) oo) :=
  arrAt_rows_aux m o c relO cfg2.N (Nat.le_refl _) oo h ib (by have := ib.isLt; rw [show cfg2.N = 64 from N_2]; omega)

theorem arrAt_row_chain (oo : Buf (Elt F) ((c : Thread nD τ).loc main_v5)) (h : (dat m o c relO).ArrAt 3 cfg2.N oo) (ib : Fin 8) :
    ∃ Z : Nat → Vec F S1280x1 .f32, Z 8 = ((cfg2.win 3).blk (rowEnd ib)).view.read (Elt F) oo
      ∧ ∀ (j : Nat) (hj : j ≤ 7), relO (pt ib j (by omega)) (Z j) (Z (j + 1)) :=
  row_chain m o c relO ib 7 (by decide) _ (arrAt_rows m o c relO oo h ib)

end Final

def rd (P : Between.Leaves (F := F) m) (o : Outs (F := F)) (S : ∀ c, Steps m P o c) :
    (p : Fin 3) → (c : Dev nD) → RDat τ (Elt F) Unit ℕ UU ℕ (Pipeline.pin (pcfgs (F := F)) adm p) c
  | ⟨0, _⟩ => fun c => { A := fun w => Vin m o c (Pipeline.arrRef spec0 w), after := fun _ _ _ _ => True, Φ := fun _ => iprop(emp), q := fun _ => fullShare, owed := fun _ => 0 }
  | ⟨1, _⟩ => fun c => { A := fun w => Vin m o c (Pipeline.arrRef spec1 w), after := fun _ _ _ _ => True, Φ := fun _ => iprop(emp), q := fun _ => fullShare, owed := fun _ => 0 }
  | ⟨2, _⟩ => fun c => dat m o c (S c).relO

set_option backward.isDefEq.respectTransparency.types false in
def R2 (P : Between.Leaves (F := F) m) (o : Outs (F := F)) (S : ∀ c, Steps m P o c) :
    Pipeline.RDat.RegionSeg (pcfgs (F := F)) adm (rd m P o S) () defs₀ 𝒱₀ L lv 2 where
  win := launch2.win.to₀
  block_pos := launch2.block_pos
  stage_whole := launch2.stage_whole
  K := PEmpty
  osem k := k.elim
  ho := Pipeline.OwnSemFacts.none _
  hbody c := body_obligation m (S c)
  hwaits := Pipeline.RDat.hwaits_of_owed_zero _ _ _ _ L lv 2 fun _ _ => rfl
  pre c := Between.T4at m o c
  post c := Between.T5 m P o c
  X c := iprop(∃ r, prngReg c r)
  Y c := iprop(∃ r, prngReg c r)
  Z c := Pipeline.unscopedRest (Ix := Unit) (Name := ℕ) (U := UU) (Lvl := ℕ) spec2 c (Vin m o c)
  hentry c := by
    rw [Pipeline.ownSems0_none]
    have hsplit := Pipeline.RDat.arrays_of_unscopedBufs (p := 2) (pcfgs (F := F)) adm (rd m P o S) launch2.win launch2.arr_whole c
      ((rd m P o S 2 c).share_full fun _ => rfl) (Vin m o c) fun _ => rfl
    rw [Pipeline.unscopedBufs_held] at hsplit
    iintro ⟨⟨Hub, Hp, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    unfold Pipeline.RDat.owesAt Pipeline.owesWithin
    icases HO with ⟨%W, HO⟩; iexists W; isplitr; · ipureintro; exact fun _ _ => Or.inl trivial
    iexact HO
  hin c := by
    rw [show (rd m P o S 2 c).Φ 0 = Pipeline.ΦA spec2 c from rfl]; unfold Pipeline.ΦA
    iintro ⟨Hp, -, Hr⟩
    iframe
  hout c := by
    rw [Pipeline.ownSems0_none, show (rd m P o S 2 c).Φ (Fin.last _) = Pipeline.ΦA spec2 c from rfl]; unfold Pipeline.ΦA
    iintro ⟨Hr, Hp⟩
    iframe
    iempintro
  hexit c := by
    have hx : iprop((rd m P o S 2 c).arraysAt (Pipeline.pin (pcfgs (F := F)) adm 2).N
          ∗ Pipeline.unscopedRest (Ix := Unit) (Name := ℕ) (U := UU) (Lvl := ℕ) spec2 c (Vin m o c))
        ⊢ (iprop(∃ oo, ⌜(dat m o c (S c).relO).ArrAt 3 cfg2.N oo⌝
            ∗ StableHlo.held (c : Thread nD τ) (Pipeline.ucRefs τ sig) (V5 m (withOut o c oo) c)) : sProp 𝕄) :=
      exit_bufs m o c (S c).relO
    iintro ⟨Ha, HO, HY, Hrest⟩
    ihave H := hx $$ [Ha Hrest]
    · iframe
    icases H with ⟨%oo, %hoo, Hh⟩
    imodintro
    iexists (withOut o c oo)
    isplitr
    · ipureintro
      exact ⟨withOut_of_ne o c oo (by decide), withOut_of_ne o c oo (by decide),
        (S c).final oo hoo _ (withOut_of_ne o c oo (by decide)) (withOut_of_ne o c oo (by decide)) (withOut_five o c oo)⟩
    isplitl [Hh]; · iexact Hh
    isplitl [HY]; · iexact HY
    unfold Pipeline.RDat.owesAt Pipeline.owesWithin
    icases HO with ⟨%W, -, HO⟩; iexists W; iexact HO

theorem R2_pre (P : Between.Leaves (F := F) m) (o : Outs (F := F)) (S : ∀ c, Steps m P o c) (c : Dev nD) :
    (R2 m P o S).pre c = Between.T4at m o c := rfl
theorem R2_post (P : Between.Leaves (F := F) m) (o : Outs (F := F)) (S : ∀ c, Steps m P o c) (c : Dev nD) :
    (R2 m P o S).post c = Between.T5 m P o c := rfl

end Cert.KernelIdeal.Region2

end
-- ==== Proof.Frames.lean ====
import proofs.«161930_g22909355557424_cont_8to1_1761_12_alg».proof.Proof.Whole
import proofs.«161930_g22909355557424_cont_8to1_1761_12_alg».proof.Proof.Region0
import proofs.«161930_g22909355557424_cont_8to1_1761_12_alg».proof.Proof.Region1
import proofs.«161930_g22909355557424_cont_8to1_1761_12_alg».proof.Proof.Region2

noncomputable section

namespace Cert.KernelIdeal.Frames

open Cert.KernelIdeal Cert.KernelIdeal.Gen Cert.KernelIdeal.Frag Cert.KernelIdeal.Between
open Idealize.ShloMosaic Idealize.ShloMosaic.TcCoe
open Idealize.SL Idealize.SL.RA Idealize.SL.BI
open scoped Idealize.SL.BI
open Idealize.SL.BI.BIBase Idealize.SL.BI.Laws Idealize.SL.Sem

variable {F : FTy → Type} [FloatOps F]

-- The run of the whole host program with nothing claimed of what the regions leave.
theorem frame (m : (ℓ : Loc nD τ sig) → Buf (Elt F) ℓ) (ρ : Dev nD → PrngReg) :
    θ_run defs (onTc (τ := τ) (main (F := F))) ⟨m, fun _ => 0, ρ⟩ (fun r => ∀ c : Dev nD, Whole.argsKept m r.2.mem c) :=
  let N := Leaves.nothing m
  let S1 := fun o c => Region1.Steps.trivial m o c
  let S2 := fun o c => Region2.Steps.trivial m o c
  (θ_run defs _ _).mono (fun _ h c => (h c).2)
    (Whole.run m N (Region0.rd m) (Region0.R0 m N fun _ => trivial)
      (fun o => Region1.rd m N o (S1 o)) (fun o => Region1.R1 m N o (S1 o))
      (fun o => Region2.rd m N o (S2 o)) (fun o => Region2.R2 m N o (S2 o)) ρ
      (Region0.pre_eq m N fun _ => trivial) (Region0.post_eq m N fun _ => trivial)
      (fun o => Region1.R1_pre m N o (S1 o)) (fun o => Region1.R1_post m N o (S1 o))
      (fun o => Region2.R2_pre m N o (S2 o)) (fun o => Region2.R2_post m N o (S2 o)))

end Cert.KernelIdeal.Frames

end
-- ==== Proof.K.RegionFragment.lean ====
import proofs.«161930_g22909355557424_cont_8to1_1761_12_alg».proof.Proof.Gen.Kernel.Regions
import Idealize.ShloMosaic.Lib.Pipeline.Kit

noncomputable section

namespace Cert.Kernel.Frag

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat HostSeg)

variable {F : FTy → Type} [FloatOps F]

abbrev UU : Type := UR sig nD τ × UR sig nD τ

local notation "𝕄" => MT nD τ sig Unit (Elt F) ℕ UU ℕ

abbrev embLaunch : Emb (UR sig nD τ) (MT nD τ sig Unit (Elt F) ℕ UU ℕ) := embL
abbrev embRegion : Emb (UR sig nD τ) (MT nD τ sig Unit (Elt F) ℕ UU ℕ) := embR

abbrev 𝒱₀ : Variants := Variants.none
abbrev L : GSem nD τ sig → Finset Unit := fun _ => ∅
abbrev lv : GSem nD τ sig → Unit → ℕ := fun _ _ => 0

def cellGhost (p : Fin 3) (c : Dev nD) : sProp 𝕄 :=
  iprop(Pipeline.cellsGhost (Pipeline.pin (pcfgs (F := F)) adm) (embRegion (F := F)) p c
    ∗ Pipeline.toksInit (Pipeline.pin (pcfgs (F := F)) adm) (embRegion (F := F)) p c)

-- A region's call as an item of the host program, for a record over any proof data.
def regionFragment (rdats : (p : Fin 3) → (c : Dev nD) → RDat τ (Elt F) Unit ℕ UU ℕ (Pipeline.pin (pcfgs (F := F)) adm p) c)
    {p : Fin 3} (R : Pipeline.RDat.RegionSeg (pcfgs (F := F)) adm rdats () defs₀ 𝒱₀ L lv p) :
    HostSeg (Ix := Unit) (Name := ℕ) (U := UU) (Lvl := ℕ) (pcfgs (F := F)) defs₀ 𝒱₀ L lv where
  prog := Prog.lift (.customCall (Pipeline.entry p) ())
  pre c := iprop(R.pre c ∗ cellGhost (F := F) p c)
  post c := R.post c
  run c β k K := by
    unfold cellGhost
    iintro ⟨Hk, Hbd, ⟨Hpre, Hg, Ht⟩, #Hla⟩
    iapply Pipeline.RDat.RegionSeg.wp (pcfgs (F := F)) adm rdats () cellOf_inj (embRegion (F := F)) defs₀ 𝒱₀ L lv R c none
      (fun u h => nomatch h) k K
    iframe
    iexact Hla

def launchElt : UU :=
  (initOf (Pipeline.cells (Pipeline.pin (pcfgs (F := F)) adm) cellOf_inj) (Pipeline.launchToks (Pipeline.pin (pcfgs (F := F)) adm) cellOf_inj),
   initOf (Pipeline.cells (Pipeline.pin (pcfgs (F := F)) adm) cellOf_inj) (Pipeline.launchToks (Pipeline.pin (pcfgs (F := F)) adm) cellOf_inj))

theorem launch_ghost :
    (ownU (launchElt (F := F)) : sProp 𝕄)
      ⊢ |={Set.univ}=> iprop(BI.own (embLaunch (F := F) (initOf (Pipeline.cells (Pipeline.pin (pcfgs (F := F)) adm) cellOf_inj)
            (Pipeline.launchToks (Pipeline.pin (pcfgs (F := F)) adm) cellOf_inj)))
          ∗ bigSep Finset.univ fun c : Dev nD => bigSep Finset.univ fun p : Fin 3 => cellGhost (F := F) p c) := by
  unfold launchElt
  iintro H
  ihave H' := (ownU_pair _ _) $$ H
  icases H' with ⟨HL, HR⟩
  imod (Pipeline.fund_ghost (Pipeline.pin (pcfgs (F := F)) adm) (embRegion (F := F)) cellOf_inj) $$ HR with ⟨Hg, Ht⟩
  imodintro
  unfold cellGhost
  simp only [bigSep_sep']
  iframe

end Cert.Kernel.Frag

end
-- ==== Proof.K.Between.lean ====
import proofs.«161930_g22909355557424_cont_8to1_1761_12_alg».proof.Proof.K.RegionFragment

noncomputable section

namespace Cert.Kernel.Between

open Cert.Kernel Cert.Kernel.Gen Cert.Kernel.Frag
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev rest (c : Dev nD) : sProp 𝕄 :=
  iprop((∃ r, prngReg c r) ∗ ∃ W, owes (c : Thread nD τ) (0 : CellTallies nD τ sig Unit) W)

abbrev at_ (V : Valuation τ sig (Elt F)) (c : Dev nD) : sProp 𝕄 :=
  iprop(StableHlo.held (c : Thread nD τ) (Pipeline.ucRefs τ sig) V ∗ rest (F := F) c)

-- What is claimed, on each core, of the contents each region leaves in the buffers it may change.
structure Leaves (m : (ℓ : Loc nD τ sig) → Buf (Elt F) ℓ) where
  after0 : Outs (F := F) → Dev nD → Prop
  after1 : Outs (F := F) → Dev nD → Prop
  after2 : Outs (F := F) → Dev nD → Prop

def Leaves.nothing (m : (ℓ : Loc nD τ sig) → Buf (Elt F) ℓ) : Leaves (F := F) m := ⟨fun _ _ => True, fun _ _ => True, fun _ _ => True⟩

variable (m : (ℓ : Loc nD τ sig) → Buf (Elt F) ℓ) (P : Leaves (F := F) m)

-- The states between the items: a region's results are held at SOME contents of which the claim holds.
abbrev T1 (c : Dev nD) : sProp 𝕄 := at_ (F := F) (V1 m c) c
abbrev T2 (c : Dev nD) : sProp 𝕄 := iprop(∃ o : Outs (F := F), ⌜P.after0 o c⌝ ∗ at_ (F := F) (V2 m o c) c)
abbrev T3 (o : Outs (F := F)) (c : Dev nD) : sProp 𝕄 := at_ (F := F) (V3 m o c) c
abbrev T4 (o : Outs (F := F)) (c : Dev nD) : sProp 𝕄 :=
  iprop(∃ o' : Outs (F := F), ⌜o' 2 = o 2 ∧ P.after1 o' c⌝ ∗ at_ (F := F) (V4 m o' c) c)
abbrev T4at (o : Outs (F := F)) (c : Dev nD) : sProp 𝕄 := at_ (F := F) (V4 m o c) c
abbrev T5 (o : Outs (F := F)) (c : Dev nD) : sProp 𝕄 :=
  iprop(∃ o' : Outs (F := F), ⌜o' 2 = o 2 ∧ o' 4 = o 4 ∧ P.after2 o' c⌝ ∗ at_ (F := F) (V5 m o' c) c)

end Cert.Kernel.Between

end
-- ==== Proof.K.Segments.lean ====
import proofs.«161930_g22909355557424_cont_8to1_1761_12_alg».proof.Proof.K.Between

noncomputable section

namespace Cert.Kernel.Segments

open Cert.Kernel Cert.Kernel.Gen Cert.Kernel.Frag
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (HostSeg)

variable {F : FTy → Type} [FloatOps F]

local notation "𝕄" => MT nD τ sig Unit (Elt F) ℕ UU ℕ

abbrev Frag : Type _ := HostSeg (Ix := Unit) (Name := ℕ) (U := UU) (Lvl := ℕ) (pcfgs (F := F)) defs₀ 𝒱₀ L lv

-- An item with a resource carried along unchanged.
def carry (H : Frag (F := F)) (Rr : Dev nD → sProp 𝕄) : Frag (F := F) where
  prog := H.prog
  pre c := iprop(H.pre c ∗ Rr c)
  post c := iprop(H.post c ∗ Rr c)
  run c β k K := by
    iintro ⟨Hk, Hbd, ⟨Hpre, HR⟩, #Hla⟩
    iapply H.run c k K
    isplitl [Hk HR]
    · iintro ⟨Hbd, Hpost⟩
      iapply Hk
      iframe
    · iframe
      iexact Hla

-- One program, an item of it for every `a`: entered at some `a`'s entry state it reaches that `a`'s exit state.
def some_ {α : Type} (prog : Prog (TpuEff nD τ sig (Elt F) (Pipeline.Sig Λ₀ (Fin 3) fun p => (pcfgs (F := F) p).Adm) .tc) PUnit)
    (H : α → Frag (F := F)) (hp : ∀ a, (H a).prog = prog) : Frag (F := F) where
  prog := prog
  pre c := iprop(∃ a, (H a).pre c)
  post c := iprop(∃ a, (H a).post c)
  run c β k K := by
    iintro ⟨Hk, Hbd, ⟨%a, Hpre⟩, #Hla⟩
    rw [← hp a]
    iapply (H a).run c k K
    isplitl [Hk]
    · iintro ⟨Hbd, Hpost⟩
      iapply Hk
      isplitl [Hbd]; · iexact Hbd
      iexists a; iexact Hpost
    · iframe
      iexact Hla

end Cert.Kernel.Segments

end
-- ==== Proof.K.Whole.lean ====
import proofs.«161930_g22909355557424_cont_8to1_1761_12_alg».proof.Proof.K.Segments

noncomputable section

namespace Cert.Kernel.Whole

open Cert.Kernel Cert.Kernel.Gen Cert.Kernel.Frag Cert.Kernel.Between Cert.Kernel.Segments
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat HostSeg)

variable {F : FTy → Type} [FloatOps F]

local notation "𝕄" => MT nD τ sig Unit (Elt F) ℕ UU ℕ

variable (m : (ℓ : Loc nD τ sig) → Buf (Elt F) ℓ) (P : Leaves (F := F) m)

def known4 (o : Outs (F := F)) (c : Dev nD) : Prop := ∃ o₀ : Outs (F := F), P.after0 o₀ c ∧ o 2 = o₀ 2 ∧ P.after1 o c
def known5 (o : Outs (F := F)) (c : Dev nD) : Prop := ∃ o₁ : Outs (F := F), known4 m P o₁ c ∧ o 2 = o₁ 2 ∧ o 4 = o₁ 4 ∧ P.after2 o c

-- Every argument array holds in the memory `s` what it holds in `m`.
abbrev argsKept (s : (ℓ : Loc nD τ sig) → Buf (Elt F) ℓ) (c : Dev nD) : Prop :=
  s ((c.tc : Thread nD τ).loc main_arg0) = m ((c.tc : Thread nD τ).loc main_arg0) ∧ s ((c.tc : Thread nD τ).loc main_arg1) = m ((c.tc : Thread nD τ).loc main_arg1)
  ∧ s ((c.tc : Thread nD τ).loc main_arg2) = m ((c.tc : Thread nD τ).loc main_arg2) ∧ s ((c.tc : Thread nD τ).loc main_arg3) = m ((c.tc : Thread nD τ).loc main_arg3)
  ∧ s ((c.tc : Thread nD τ).loc main_arg4) = m ((c.tc : Thread nD τ).loc main_arg4) ∧ s ((c.tc : Thread nD τ).loc main_arg5) = m ((c.tc : Thread nD τ).loc main_arg5)
  ∧ s ((c.tc : Thread nD τ).loc main_arg6) = m ((c.tc : Thread nD τ).loc main_arg6) ∧ s ((c.tc : Thread nD τ).loc main_arg7) = m ((c.tc : Thread nD τ).loc main_arg7)

abbrev g3 (c : Dev nD) : sProp 𝕄 := iprop(cellGhost (F := F) 0 c ∗ cellGhost (F := F) 1 c ∗ cellGhost (F := F) 2 c)
abbrev g2 (c : Dev nD) : sProp 𝕄 := iprop(cellGhost (F := F) 1 c ∗ cellGhost (F := F) 2 c)

theorem ghost_three (c : Dev nD) : (bigSep Finset.univ fun p : Fin 3 => cellGhost (F := F) p c) = g3 (F := F) c :=
  bigSep_univ_eq_bigSepL [(0 : Fin 3), (1 : Fin 3), (2 : Fin 3)] (by decide) (by decide) _

abbrev restAt : Fin 4 → Dev nD → sProp 𝕄 := fun _ c => rest (F := F) c

section Records

variable (rd0 : (p : Fin 3) → (c : Dev nD) → RDat τ (Elt F) Unit ℕ UU ℕ (Pipeline.pin (pcfgs (F := F)) adm p) c)
  (R0 : Pipeline.RDat.RegionSeg (pcfgs (F := F)) adm rd0 () defs₀ 𝒱₀ L lv 0)
  (rd1 : Outs (F := F) → (p : Fin 3) → (c : Dev nD) → RDat τ (Elt F) Unit ℕ UU ℕ (Pipeline.pin (pcfgs (F := F)) adm p) c)
  (R1 : (o : Outs (F := F)) → Pipeline.RDat.RegionSeg (pcfgs (F := F)) adm (rd1 o) () defs₀ 𝒱₀ L lv 1)
  (rd2 : Outs (F := F) → (p : Fin 3) → (c : Dev nD) → RDat τ (Elt F) Unit ℕ UU ℕ (Pipeline.pin (pcfgs (F := F)) adm p) c)
  (R2 : (o : Outs (F := F)) → Pipeline.RDat.RegionSeg (pcfgs (F := F)) adm (rd2 o) () defs₀ 𝒱₀ L lv 2)

def f0 : Frag (F := F) := carry (seg0 m 𝒱₀ L lv (restAt (F := F))) (g3 (F := F))
def f1 : Frag (F := F) := carry (regionFragment rd0 R0) (g2 (F := F))
def f2 : Frag (F := F) := some_ (StableHlo.seq hostOps1)
  (fun o : Outs (F := F) => carry (seg2 m o 𝒱₀ L lv (restAt (F := F))) fun c => iprop(⌜P.after0 o c⌝ ∗ g2 (F := F) c)) fun _ => rfl
def f3 : Frag (F := F) := some_ (Prog.lift (.customCall (Pipeline.entry 1) ()))
  (fun o : Outs (F := F) => carry (regionFragment (rd1 o) (R1 o)) fun c => iprop(⌜P.after0 o c⌝ ∗ cellGhost (F := F) 2 c)) fun _ => rfl
def f4 : Frag (F := F) := some_ (Prog.lift (.customCall (Pipeline.entry 2) ()))
  (fun o : Outs (F := F) => carry (regionFragment (rd2 o) (R2 o)) fun c => iprop(⌜known4 m P o c⌝)) fun _ => rfl
def f5 : Frag (F := F) := some_ (StableHlo.seq hostOps3)
  (fun o : Outs (F := F) => carry (seg5 m o 𝒱₀ L lv (restAt (F := F))) fun c => iprop(⌜known5 m P o c⌝)) fun _ => rfl

-- The host program is six items in a row; each region's exit state is opened before the next item's record is chosen.
theorem run (ρ : Dev nD → PrngReg)
    (hpre0 : ∀ c, R0.pre c = T1 (F := F) m c) (hpost0 : ∀ c, R0.post c = T2 (F := F) m P c)
    (hpre1 : ∀ o c, (R1 o).pre c = T3 (F := F) m o c) (hpost1 : ∀ o c, (R1 o).post c = T4 (F := F) m P o c)
    (hpre2 : ∀ o c, (R2 o).pre c = T4at (F := F) m o c) (hpost2 : ∀ o c, (R2 o).post c = T5 (F := F) m P o c) :
    θ_run defs (onTc (τ := τ) (main (F := F))) ⟨m, fun _ => 0, ρ⟩ (fun r => ∀ c : Dev nD,
      (∃ o : Outs (F := F), known5 m P o c ∧ r.2.mem ((c.tc : Thread nD τ).loc main_v6) = V6 m o c main_v6) ∧ argsKept m r.2.mem c) := by
  refine Pipeline.RDat.θ_run_regions_kit_dev (pcfgs (F := F)) adm rd0 () cellOf_inj (embLaunch (F := F)) defs₀ 𝒱₀ L lv m ρ main
    (fun _ => [.host (f0 m), .host (f1 rd0 R0), .host (f2 m P), .host (f3 m P rd1 R1), .host (f4 m P rd2 R2), .host (f5 m P)])
    (fun c Q => by
      rewrite [main_chain c, Pipeline.RDat.Seg.run_eq_chain]
      exact .rfl)
    (fun c => by simp only [Pipeline.RDat.Seg.pipes_host, Pipeline.RDat.Seg.pipes_nil]; exact List.nodup_nil)
    (fun _ => 0) (fun _ _ => rfl) (fun c => bigSep Finset.univ fun p : Fin 3 => cellGhost (F := F) p c) (launchElt (F := F)) launch_ghost
    (T₀ := fun c => iprop(at_ (F := F) (V0 m c) c ∗ g3 (F := F) c))
    (Tₙ := fun c => iprop(∃ o : Outs (F := F), ⌜known5 m P o c⌝ ∗ StableHlo.held (c : Thread nD τ) (Pipeline.ucRefs τ sig) (V6 m o c) ∗ ∃ r, prngReg c r))
    (hch := fun c => ⟨.rfl, ?_, ?_, ?_, ?_, ?_, ?_⟩)
    (hinit := ?_) (QY := _) (hfin := fun c s' => ?_) (hQ := fun _ h => h)
  · show iprop(T1 (F := F) m c ∗ g3 (F := F) c) ⊢ iprop((R0.pre c ∗ cellGhost (F := F) 0 c) ∗ g2 (F := F) c)
    rw [hpre0 c]
    iintro ⟨H, Hg0, Hg⟩
    iframe
  · show iprop(R0.post c ∗ g2 (F := F) c) ⊢ iprop(∃ o : Outs (F := F), at_ (F := F) (V2 m o c) c ∗ ⌜P.after0 o c⌝ ∗ g2 (F := F) c)
    rw [hpost0 c]
    iintro ⟨⟨%o, %ho, H⟩, Hg⟩
    iexists o
    iframe %ho
    iframe
  · show iprop(∃ o : Outs (F := F), T3 (F := F) m o c ∗ ⌜P.after0 o c⌝ ∗ g2 (F := F) c)
      ⊢ iprop(∃ o : Outs (F := F), ((R1 o).pre c ∗ cellGhost (F := F) 1 c) ∗ ⌜P.after0 o c⌝ ∗ cellGhost (F := F) 2 c)
    simp only [hpre1]
    iintro ⟨%o, H, %ho, Hg1, Hg2⟩
    iexists o
    iframe %ho
    iframe
  · show iprop(∃ o : Outs (F := F), (R1 o).post c ∗ ⌜P.after0 o c⌝ ∗ cellGhost (F := F) 2 c)
      ⊢ iprop(∃ o : Outs (F := F), ((R2 o).pre c ∗ cellGhost (F := F) 2 c) ∗ ⌜known4 m P o c⌝)
    simp only [hpost1, hpre2]
    iintro ⟨%o, ⟨%o', %ho', H⟩, %ho, Hg2⟩
    iexists o'
    have hk : known4 m P o' c := ⟨o, ho, ho'.1, ho'.2⟩
    iframe %hk
    iframe
  · show iprop(∃ o : Outs (F := F), (R2 o).post c ∗ ⌜known4 m P o c⌝) ⊢ iprop(∃ o : Outs (F := F), at_ (F := F) (V5 m o c) c ∗ ⌜known5 m P o c⌝)
    simp only [hpost2]
    iintro ⟨%o, ⟨%o', %ho', H⟩, %ho⟩
    iexists o'
    have hk : known5 m P o' c := ⟨o, ho, ho'.1, ho'.2.1, ho'.2.2⟩
    iframe %hk
    iframe
  · show iprop(∃ o : Outs (F := F), (StableHlo.held (c : Thread nD τ) (Pipeline.ucRefs τ sig) (V6 m o c) ∗ rest (F := F) c) ∗ ⌜known5 m P o c⌝)
      ⊢ iprop((∃ o : Outs (F := F), ⌜known5 m P o c⌝ ∗ StableHlo.held (c : Thread nD τ) (Pipeline.ucRefs τ sig) (V6 m o c) ∗ ∃ r, prngReg c r)
          ∗ ∃ W, owes (c.tc : Thread nD τ) (0 : CellTallies nD τ sig Unit) W)
    iintro ⟨%o, ⟨Hh, Hp, HO⟩, %ho⟩
    isplitr [HO]
    · iexists o
      iframe %ho
      iframe
    · iexact HO
  · have hcore : ∀ c : Dev nD,
        iprop(unscopedBufs c (fun b => m ((c.tc : Thread nD τ).loc b)) ∗ unscopedSems0 c
          ∗ owes (c.tc : Thread nD τ) (0 : CellTallies nD τ sig Unit) ∅ ∗ Pipeline.launchCred (fun _ : Dev nD => (0 : CellTallies nD τ sig Unit)) c ∗ prngReg c (ρ c)
          ∗ bigSep Finset.univ fun p : Fin 3 => cellGhost (F := F) p c)
        ⊢ (iprop(at_ (F := F) (V0 m c) c ∗ g3 (F := F) c) : sProp 𝕄) := fun c => by
      rw [ghost_three]
      show _ ⊢ iprop((StableHlo.held (c : Thread nD τ) (Pipeline.ucRefs τ sig) (V0 m c) ∗ rest (F := F) c) ∗ g3 (F := F) c)
      rw [← Pipeline.unscopedBufs_held (Ix := Unit) (Name := ℕ) (U := UU) (Lvl := ℕ) c (V0 m c)]
      iintro ⟨Hb, -, HO, -, Hp, Hg⟩
      isplitr [Hg]
      · isplitl [Hb]; · iexact Hb
        isplitl [Hp]; · iexists _; iexact Hp
        iexists _; iexact HO
      · iexact Hg
    have hall : (bigSep Finset.univ fun c : Dev nD => _) ⊢ (bigSep Finset.univ fun c : Dev nD => iprop(at_ (F := F) (V0 m c) c ∗ g3 (F := F) c) : sProp 𝕄) :=
      bigSep_mono fun c _ => hcore c
    iintro ⟨H, -⟩
    ihave H' := hall $$ H
    imodintro
    iexact H'
  · unfold StableHlo.held
    iintro ⟨⟨%o, %hk, Hh, Hp⟩, HSI⟩
    ihave Hr := (pointsTo_read_all (Pipeline.ucRefs τ sig) (fun b => ((c : Thread nD τ).1, b)) (V6 m o c) s') $$ [Hh HSI]
    · isplitl [Hh] <;> iassumption
    icases Hr with ⟨%h, HSI⟩
    imodintro
    isplitr
    · ipureintro
      have g := fun (b : Ref sig .tc) hb => h (Proc.devRef .tc b) (Finset.mem_filter.mpr ⟨StableHlo.devRef_mem_tcRefs b, hb⟩)
      exact ⟨⟨o, hk, g main_v6 (by decide)⟩, (g main_arg0 (by decide)).trans (V6_main_arg0 m o c), (g main_arg1 (by decide)).trans (V6_main_arg1 m o c),
        (g main_arg2 (by decide)).trans (V6_main_arg2 m o c), (g main_arg3 (by decide)).trans (V6_main_arg3 m o c), (g main_arg4 (by decide)).trans (V6_main_arg4 m o c),
        (g main_arg5 (by decide)).trans (V6_main_arg5 m o c), (g main_arg6 (by decide)).trans (V6_main_arg6 m o c), (g main_arg7 (by decide)).trans (V6_main_arg7 m o c)⟩
    · iexact HSI

end Records

end Cert.Kernel.Whole

end
-- ==== Proof.K.Body0.lean ====
import proofs.«161930_g22909355557424_cont_8to1_1761_12_alg».proof.Proof.K.RegionFragment
import proofs.«161930_g22909355557424_cont_8to1_1761_12_alg».proof.Proof.Gen.Kernel.Skeleton
import Idealize.ShloMosaic.Lib.Pipeline.FrameBody
import Idealize.ShloMosaic.Lib.Pipeline.Value
import Idealize.ShloMosaic.Lib.Tactic

noncomputable section

namespace Cert.Kernel.Body0

open Cert.Kernel Cert.Kernel.Gen Cert.Kernel.Frag
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev rTop : Rect S10240x128 := Rect.unit (s := S10240x128) ![0, 0] S10000x128.size inb_S10240x128_S10000x128_0_0

abbrev rPad : Rect S10240x128 := Rect.unit (s := S10240x128) ![10000, 0] S240x128.size inb_S10240x128_S240x128_10000_0

def ix {m n : ℕ} (r : Fin m) (k : Fin n) : (⟨2, ![m, n]⟩ : Shape).Idx := fun
  | 0 => r
  | 1 => k

@[simp] theorem ix_zero {m n : ℕ} (r : Fin m) (k : Fin n) : ix r k 0 = r := rfl
@[simp] theorem ix_one {m n : ℕ} (r : Fin m) (k : Fin n) : ix r k 1 = k := rfl

theorem off00 : (![0, 0] : Fin 2 → ℕ) = fun _ => 0 := funext fun a => by fin_cases a <;> rfl

theorem mem_rTop {y : S10240x128.Idx} : y ∈ rTop.set ↔ (y 0).val < 10000 := by
  have h1 : (y 1).val < 128 := (y 1).isLt
  rw [Rect.mem_set_unit, Fin.forall_fin_two]
  show (0 ≤ (y 0).val ∧ (y 0).val < 0 + 10000) ∧ (0 ≤ (y 1).val ∧ (y 1).val < 0 + 128) ↔ _
  omega

theorem mem_rPad {y : S10240x128.Idx} : y ∈ rPad.set ↔ 10000 ≤ (y 0).val := by
  have h0 : (y 0).val < 10240 := (y 0).isLt
  have h1 : (y 1).val < 128 := (y 1).isLt
  rw [Rect.mem_set_unit, Fin.forall_fin_two]
  show (10000 ≤ (y 0).val ∧ (y 0).val < 10000 + 240) ∧ (0 ≤ (y 1).val ∧ (y 1).val < 0 + 128) ↔ _
  omega

theorem rTop_emb (r : ℕ) (hr : r < 10000) (k : Fin 128) :
    rTop.emb (ix (m := 10000) ⟨r, hr⟩ k) = ix (m := 10240) ⟨r, by omega⟩ k := by
  funext a
  fin_cases a
  · exact Fin.ext (show 0 + 1 * r = r by omega)
  · exact Fin.ext (show 0 + 1 * k.val = k.val by omega)

theorem rPad_emb (r : ℕ) (h0 : 10000 ≤ r) (h1 : r < 10240) (k : Fin 128) :
    rPad.emb (ix (m := 240) ⟨r - 10000, by omega⟩ k) = ix (m := 10240) ⟨r, h1⟩ k := by
  funext a
  fin_cases a
  · exact Fin.ext (show 10000 + 1 * (r - 10000) = r by omega)
  · exact Fin.ext (show 0 + 1 * k.val = k.val by omega)

def s1Of (x : Vec F S10000x128 .f32) (w1 : Vec F S128x128 .f32) : Vec F S10240x128 .bf16 :=
  View.canon [⟨rPad, k0_pay2 (F := F)⟩, ⟨rTop, k0_pay1 x w1⟩]

theorem cover (p1 : Vec F S10000x128 .bf16) (p2 : Vec F S240x128 .bf16) (y : S10240x128.Idx) :
    ∃ pc ∈ ([⟨rPad, p2⟩, ⟨rTop, p1⟩] : List (View.Piece (Elt F) S10240x128 .bf16)), y ∈ pc.1.set := by
  by_cases h : (y 0).val < 10000
  · exact ⟨⟨rTop, p1⟩, List.mem_cons_of_mem _ List.mem_cons_self, mem_rTop.mpr h⟩
  · exact ⟨⟨rPad, p2⟩, List.mem_cons_self, mem_rPad.mpr (Nat.le_of_not_lt h)⟩

theorem s1Of_row_lt (x : Vec F S10000x128 .f32) (w1 : Vec F S128x128 .f32) (r : ℕ) (hr : r < 10000) (k : Fin 128) :
    s1Of x w1 (ix (m := 10240) ⟨r, by omega⟩ k) = k0_pay1 x w1 (ix (m := 10000) ⟨r, hr⟩ k) := by
  have hy : ix (m := 10240) ⟨r, by omega⟩ k ∉ rPad.set := by
    rw [mem_rPad, ix_zero]; show ¬ 10000 ≤ r; omega
  unfold s1Of
  refine (View.canon_cons_of_not_mem (⟨rPad, k0_pay2 (F := F)⟩ : View.Piece (Elt F) S10240x128 .bf16) [⟨rTop, k0_pay1 x w1⟩] hy).trans ?_
  have e := View.canon_cons_emb rTop (k0_pay1 x w1) ([] : List (View.Piece (Elt F) S10240x128 .bf16)) (ix (m := 10000) ⟨r, hr⟩ k)
  exact (congrArg (View.canon [(⟨rTop, k0_pay1 x w1⟩ : View.Piece (Elt F) S10240x128 .bf16)]) (rTop_emb r hr k).symm).trans e

theorem s1Of_row_ge (x : Vec F S10000x128 .f32) (w1 : Vec F S128x128 .f32) (r : ℕ) (h0 : 10000 ≤ r) (h1 : r < 10240) (k : Fin 128) :
    s1Of x w1 (ix (m := 10240) ⟨r, h1⟩ k) = k0_pay2 (F := F) (ix (m := 240) ⟨r - 10000, by omega⟩ k) := by
  unfold s1Of
  have e := View.canon_cons_emb rPad (k0_pay2 (F := F)) ([⟨rTop, k0_pay1 x w1⟩] : List (View.Piece (Elt F) S10240x128 .bf16))
    (ix (m := 240) ⟨r - 10000, by omega⟩ k)
  exact (congrArg (View.canon [(⟨rPad, k0_pay2 (F := F)⟩ : View.Piece (Elt F) S10240x128 .bf16), ⟨rTop, k0_pay1 x w1⟩]) (rPad_emb r h0 h1 k).symm).trans e

theorem read_whole_store {sg : RefSig} {κ : Kind} {sp : Space} {S : Shape} {e : EltTy} (v : View sg κ sp S e)
    (f : v.ty.Contents (Elt F)) {off : Fin S.rank → ℕ} (h : off = fun _ => 0) (inb : ∀ a, off a + S.size a ≤ S.size a)
    (w : S.Idx → Elt F e) :
    v.read (Elt F) (v.writes (Elt F) f [(⟨Rect.unit off S.size inb, w⟩ : View.Piece (Elt F) S e)]) = w :=
  (View.read_writes_eq_canon v f _ fun y => ⟨_, List.mem_singleton_self _, View.mem_set_unit_zero h inb y⟩).trans
    (View.canon_unit_zero h inb w)

-- A load through the rectangle at offset (0, 0) of the shape's own sizes reads the contents.
theorem readAt_whole {sg : RefSig} {κ : Kind} {sp : Space} {m n : ℕ} {e : EltTy} (v : View sg κ sp ⟨2, ![m, n]⟩ e)
    (f : v.ty.Contents (Elt F)) (inb) :
    View.readAt (Elt F) v (Rect.unit (s := ⟨2, ![m, n]⟩) ![0, 0] ![m, n] inb).toLoadRect f = v.read (Elt F) f :=
  View.ld_unit_zero off00 inb _

theorem run (c : Dev nD) (E : Set ℕ) (arg0 : Memref sig .tc .vmem S10000x128 .f32) (harg0 : arg0.IsWhole) (arg1 : Memref sig .tc .vmem S128x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x1 .f32) (harg4 : arg4.IsWhole) (arg5 : Memref sig .tc .vmem S1x1 .f32) (harg5 : arg5.IsWhole) (arg6 : Memref sig .tc .vmem S10240x128 .bf16) (harg6 : arg6.IsWhole) (arg7 : Memref sig .tc .vmem S128x1 .f32) (harg7 : arg7.IsWhole) (arg8 : Memref sig .tc .vmem S1x1 .f32) (harg8 : arg8.IsWhole)
    (x : Vec F S10000x128 .f32) (w1 : Vec F S128x128 .f32) (w2 : Vec F S128x128 .f32) (b2 : Vec F S1x128 .f32) (wl : Vec F S128x1 .f32) (bl : Vec F S1x1 .f32)
    (d6 : Vec F S10240x128 .bf16) (d7 : Vec F S128x1 .f32) (d8 : Vec F S1x1 .f32) (K : PUnit → sProp 𝕄) :
    iprop(owns (c : Thread nD τ) arg0 fullShare x ∗ owns (c : Thread nD τ) arg1 fullShare w1 ∗ owns (c : Thread nD τ) arg2 fullShare w2 ∗ owns (c : Thread nD τ) arg3 fullShare b2 ∗ owns (c : Thread nD τ) arg4 fullShare wl ∗ owns (c : Thread nD τ) arg5 fullShare bl
        ∗ owns (c : Thread nD τ) arg6 fullShare d6 ∗ owns (c : Thread nD τ) arg7 fullShare d7 ∗ owns (c : Thread nD τ) arg8 fullShare d8
        ∗ (iprop(owns (c : Thread nD τ) arg0 fullShare x ∗ owns (c : Thread nD τ) arg1 fullShare w1 ∗ owns (c : Thread nD τ) arg2 fullShare w2 ∗ owns (c : Thread nD τ) arg3 fullShare b2 ∗ owns (c : Thread nD τ) arg4 fullShare wl ∗ owns (c : Thread nD τ) arg5 fullShare bl
            ∗ owns (c : Thread nD τ) arg6 fullShare (s1Of x w1) ∗ owns (c : Thread nD τ) arg7 fullShare (k0_pay3 w2 wl) ∗ owns (c : Thread nD τ) arg8 fullShare (k0_pay4 b2 wl bl)) -∗ K ⟨⟩))
      ⊢ wp frame (wpE (defs₀ (F := F)) Variants.none (c : Thread nD τ) none) E (cc0_body arg0 harg0 arg1 harg1 arg2 harg2 arg3 harg3 arg4 harg4 arg5 harg5 arg6 harg6 arg7 harg7 arg8 harg8) K := by
  simp only [cc0_body_eq_skeleton]; unfold cc0_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, -, H6⟩, ⟨%f7, -, H7⟩, ⟨%f8, -, H8⟩, Hk⟩
  subst hf0 hf1 hf2 hf3 hf4 hf5
  sl_exec
  sl_step
  iapply Hk
  simp only [readAt_whole]
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro; exact View.read_writes_eq_canon _ _ _ (cover _ _)
  isplitl [H7]
  · iexists _; isplitr
    swap; · iexact H7
    ipureintro; exact read_whole_store _ _ off00 _ _
  iexists _; isplitr
  swap; · iexact H8
  ipureintro; exact read_whole_store _ _ off00 _ _

end Cert.Kernel.Body0

end
-- ==== Proof.K.Region0.lean ====
import proofs.«161930_g22909355557424_cont_8to1_1761_12_alg».proof.Proof.K.Between
import proofs.«161930_g22909355557424_cont_8to1_1761_12_alg».proof.Proof.K.Body0
import proofs.«161930_g22909355557424_cont_8to1_1761_12_alg».proof.Proof.Gen.Kernel.Points
import Idealize.ShloMosaic.Lib.Pipeline.RegionsLoop

noncomputable section

namespace Cert.Kernel.Region0

open Cert.Kernel Cert.Kernel.Gen Cert.Kernel.Frag
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ UU ℕ

section Whole
variable {Val : EltTy → Type}

theorem read_blk_whole {s : Shape} {e : EltTy} {cs : CoreSpace} {arr : Memref sig .tc .hbm s e} {isOut sync : Bool}
    {stage : Memref sig .tc (.core cs) ⟨s.rank, s.size⟩ e} {sem : DmaSem sig} {harr : arr.IsWhole} {hstage : stage.IsWhole}
    (t : Fin Pipeline.Grid.none.N) (f : arr.view.ty.Contents Val) :
    ((Pipeline.Window.whole arr isOut sync stage sem harr hstage).blk t).view.read Val f = arr.view.read Val f := by
  funext j
  rw [View.read_apply, View.read_apply]
  have h : ((Pipeline.Window.whole arr isOut sync stage sem harr hstage).blk t).view.emb j = arr.view.emb j :=
    congrArg arr.view.emb (funext fun a => Fin.ext (Pipeline.Window.rect_emb_val_of_index_zero _ t a rfl j))
  rw [h]

end Whole

variable (m : (ℓ : Loc nD τ sig) → Buf (Elt F) ℓ)

abbrev E1 (c : Dev nD) (b : Ref sig .tc) : Buf (Elt F) ((c : Thread nD τ).loc b) := V1 m c b

def outs0 : Outs (F := F) := fun _ r c =>
  Function.update (Function.update (Function.update (fun b : Ref sig .tc => E1 m c b)
    main_v2_0 (Body0.s1Of (E1 m c main_arg1) (E1 m c main_arg2)))
    main_v2_1 (k0_pay3 (E1 m c main_arg4) (E1 m c main_arg6)))
    main_v2_2 (k0_pay4 (E1 m c main_v0) (E1 m c main_arg6) (E1 m c main_v1)) r

theorem outs0_v2_0 (J : ℕ) (c : Dev nD) : outs0 m J main_v2_0 c = Body0.s1Of (E1 m c main_arg1) (E1 m c main_arg2) := by
  unfold outs0
  rw [Function.update_of_ne (by decide), Function.update_of_ne (by decide), Function.update_self]
theorem outs0_v2_1 (J : ℕ) (c : Dev nD) : outs0 m J main_v2_1 c = k0_pay3 (E1 m c main_arg4) (E1 m c main_arg6) := by
  unfold outs0
  rw [Function.update_of_ne (by decide), Function.update_self]
theorem outs0_v2_2 (J : ℕ) (c : Dev nD) : outs0 m J main_v2_2 c = k0_pay4 (E1 m c main_v0) (E1 m c main_arg6) (E1 m c main_v1) := by
  unfold outs0
  rw [Function.update_self]

section AtEntry

variable (V : (c : Dev nD) → (b : Ref sig .tc) → Buf (Elt F) ((c : Thread nD τ).loc b))

def dat0 (c : Dev nD) : Dat τ (Elt F) Unit ℕ UU ℕ cfg0 c where
  A w := V c (Pipeline.arrRef spec0 w)
  after w t := match w with
    | ⟨0, _⟩ => (V c main_arg1 : Vec F S10000x128 .f32)
    | ⟨1, _⟩ => (V c main_arg2 : Vec F S128x128 .f32)
    | ⟨2, _⟩ => (V c main_arg4 : Vec F S128x128 .f32)
    | ⟨3, _⟩ => (V c main_v0 : Vec F S1x128 .f32)
    | ⟨4, _⟩ => (V c main_arg6 : Vec F S128x1 .f32)
    | ⟨5, _⟩ => (V c main_v1 : Vec F S1x1 .f32)
    | ⟨6, _⟩ => Body0.s1Of (V c main_arg1) (V c main_arg2)
    | ⟨7, _⟩ => k0_pay3 (V c main_arg4) (V c main_arg6)
    | ⟨8, _⟩ => k0_pay4 (V c main_v0) (V c main_arg6) (V c main_v1)
  Φ _ := Pipeline.ΦA spec0 c
  q _ := fullShare
  owed _ := 0

theorem before_0 (c : Dev nD) (t : Fin cfg0.N) (d) : (dat0 V c).before 0 t d = (V c main_arg1 : Vec F S10000x128 .f32) :=
  ((dat0 V c).before_fetched 0 t (fetch0_0 t) d).trans (read_blk_whole t _ : (win0_0.blk t).view.read (Elt F) _ = _)
theorem before_1 (c : Dev nD) (t : Fin cfg0.N) (d) : (dat0 V c).before 1 t d = (V c main_arg2 : Vec F S128x128 .f32) :=
  ((dat0 V c).before_fetched 1 t (fetch0_1 t) d).trans (read_blk_whole t _ : (win0_1.blk t).view.read (Elt F) _ = _)
theorem before_2 (c : Dev nD) (t : Fin cfg0.N) (d) : (dat0 V c).before 2 t d = (V c main_arg4 : Vec F S128x128 .f32) :=
  ((dat0 V c).before_fetched 2 t (fetch0_2 t) d).trans (read_blk_whole t _ : (win0_2.blk t).view.read (Elt F) _ = _)
theorem before_3 (c : Dev nD) (t : Fin cfg0.N) (d) : (dat0 V c).before 3 t d = (V c main_v0 : Vec F S1x128 .f32) :=
  ((dat0 V c).before_fetched 3 t (fetch0_3 t) d).trans (read_blk_whole t _ : (win0_3.blk t).view.read (Elt F) _ = _)
theorem before_4 (c : Dev nD) (t : Fin cfg0.N) (d) : (dat0 V c).before 4 t d = (V c main_arg6 : Vec F S128x1 .f32) :=
  ((dat0 V c).before_fetched 4 t (fetch0_4 t) d).trans (read_blk_whole t _ : (win0_4.blk t).view.read (Elt F) _ = _)
theorem before_5 (c : Dev nD) (t : Fin cfg0.N) (d) : (dat0 V c).before 5 t d = (V c main_v1 : Vec F S1x1 .f32) :=
  ((dat0 V c).before_fetched 5 t (fetch0_5 t) d).trans (read_blk_whole t _ : (win0_5.blk t).view.read (Elt F) _ = _)

theorem body_obligation (c : Dev nD) : BodyObligation (dat0 (F := F) V c) (defs₀ (F := F)) Variants.none () Set.univ := fun t => by
  rw [bigSep_W0, bigSep_W0, show (dat0 V c).owesAt () t.succ = (dat0 V c).owesAt () t.castSucc from rfl]
  simp only [before_0, before_1, before_2, before_3, before_4, before_5]
  dsimp only [dat0]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (Body0.run c Set.univ _ (hstage0_0 0) _ (hstage0_1 0) _ (hstage0_2 0) _ (hstage0_3 0) _ (hstage0_4 0) _ (hstage0_5 0) _ (hstage0_6 0) _ (hstage0_7 0) _ (hstage0_8 0)
    (V c main_arg1) (V c main_arg2) (V c main_arg4) (V c main_v0) (V c main_arg6) (V c main_v1) _ _ _ _)
  iframe H0 H1 H2 H3 H4 H5 H6 H7 H8
  iintro ⟨H0, H1, H2, H3, H4, H5, H6, H7, H8⟩
  iframe

theorem final_6 (c : Dev nD) : (dat0 V c).arrAt 6 cfg0.N = Body0.s1Of (V c main_arg1) (V c main_arg2) :=
  (dat0 V c).arrAt_eq_of_cover 6 (Body0.s1Of (V c main_arg1) (V c main_arg2))
    (fun t _ => (read_blk_whole t _ : (win0_6.blk t).view.read (Elt F) _ = _).symm)
    fun i => ⟨t0_0, flush0_6 _, by
      show i ∈ ((View.whole main_v2_0).slice (win0_6.rect t0_0)).set
      rw [View.set_slice_whole, Rect.set_eq_univ_of_whole _ fun a => ⟨Nat.zero_mul _, rfl, rfl⟩]
      exact Finset.mem_univ i⟩
theorem final_7 (c : Dev nD) : (dat0 V c).arrAt 7 cfg0.N = k0_pay3 (V c main_arg4) (V c main_arg6) :=
  (dat0 V c).arrAt_eq_of_cover 7 (k0_pay3 (V c main_arg4) (V c main_arg6))
    (fun t _ => (read_blk_whole t _ : (win0_7.blk t).view.read (Elt F) _ = _).symm)
    fun i => ⟨t0_0, flush0_7 _, by
      show i ∈ ((View.whole main_v2_1).slice (win0_7.rect t0_0)).set
      rw [View.set_slice_whole, Rect.set_eq_univ_of_whole _ fun a => ⟨Nat.zero_mul _, rfl, rfl⟩]
      exact Finset.mem_univ i⟩
theorem final_8 (c : Dev nD) : (dat0 V c).arrAt 8 cfg0.N = k0_pay4 (V c main_v0) (V c main_arg6) (V c main_v1) :=
  (dat0 V c).arrAt_eq_of_cover 8 (k0_pay4 (V c main_v0) (V c main_arg6) (V c main_v1))
    (fun t _ => (read_blk_whole t _ : (win0_8.blk t).view.read (Elt F) _ = _).symm)
    fun i => ⟨t0_0, flush0_8 _, by
      show i ∈ ((View.whole main_v2_2).slice (win0_8.rect t0_0)).set
      rw [View.set_slice_whole, Rect.set_eq_univ_of_whole _ fun a => ⟨Nat.zero_mul _, rfl, rfl⟩]
      exact Finset.mem_univ i⟩

end AtEntry

abbrev E2 (c : Dev nD) (b : Ref sig .tc) : Buf (Elt F) ((c : Thread nD τ).loc b) := V2 m (outs0 m) c b

-- The three results are overwritten with the values `outs0` names; every other buffer keeps the value `outs0` gives it.
theorem E2_eq (c : Dev nD) (r : Ref sig .tc) : E2 m c r = outs0 m 2 r c := by
  unfold E2 V2
  by_cases h2 : r = main_v2_2
  · subst h2; rw [Function.update_self]
  rw [Function.update_of_ne (StableHlo.devRef_ne_of_ne h2)]
  by_cases h1 : r = main_v2_1
  · subst h1; rw [Function.update_self]
  rw [Function.update_of_ne (StableHlo.devRef_ne_of_ne h1)]
  by_cases h0 : r = main_v2_0
  · subst h0; rw [Function.update_self]
  rw [Function.update_of_ne (StableHlo.devRef_ne_of_ne h0)]
  unfold outs0
  rw [Function.update_of_ne h2, Function.update_of_ne h1, Function.update_of_ne h0]

theorem hF_in (c : Dev nD) (w : Fin cfg0.W) (hw : (cfg0.win w).isOut = false)
    (hr : Pipeline.arrRef spec0 w ∉ ([main_v2_0, main_v2_1, main_v2_2] : List (Ref sig .tc))) :
    (dat0 (E1 m) c).arrAt w cfg0.N = E2 m c (Pipeline.arrRef spec0 w) :=
  ((dat0 (E1 m) c).arrAt_in w hw _).trans (V2_of m (outs0 m) c _ hr).symm

theorem hF (c : Dev nD) : ∀ w : Fin cfg0.W, (dat0 (E1 m) c).arrAt w cfg0.N = E2 m c (Pipeline.arrRef spec0 w)
  | ⟨0, _⟩ => hF_in m c 0 rfl (by decide)
  | ⟨1, _⟩ => hF_in m c 1 rfl (by decide)
  | ⟨2, _⟩ => hF_in m c 2 rfl (by decide)
  | ⟨3, _⟩ => hF_in m c 3 rfl (by decide)
  | ⟨4, _⟩ => hF_in m c 4 rfl (by decide)
  | ⟨5, _⟩ => hF_in m c 5 rfl (by decide)
  | ⟨6, _⟩ => (final_6 (E1 m) c).trans ((E2_eq m c _).trans (outs0_v2_0 m 2 c)).symm
  | ⟨7, _⟩ => (final_7 (E1 m) c).trans ((E2_eq m c _).trans (outs0_v2_1 m 2 c)).symm
  | ⟨8, _⟩ => (final_8 (E1 m) c).trans ((E2_eq m c _).trans (outs0_v2_2 m 2 c)).symm

theorem hrest (c : Dev nD) : ∀ b, b ∉ Finset.univ.image (Pipeline.arrRef spec0) → E2 m c b = E1 m c b := fun b hb =>
  V2_of m (outs0 m) c b fun hm => by
    simp only [List.mem_cons, List.mem_nil_iff, or_false] at hm
    rcases hm with rfl | rfl | rfl <;> exact hb (by decide)

def pd : (p : Fin 3) → (c : Dev nD) → Dat τ (Elt F) Unit ℕ UU ℕ (Pipeline.pin (pcfgs (F := F)) adm p) c
  | ⟨0, _⟩ => fun c => dat0 (E1 m) c
  | ⟨1, _⟩ => fun c => { A := fun w => E1 m c (Pipeline.arrRef spec1 w), after := Dat.unnamed (cfg := cfg1), Φ := fun _ => BI.emp, q := fun _ => fullShare, owed := fun _ => 0 }
  | ⟨2, _⟩ => fun c => { A := fun w => E1 m c (Pipeline.arrRef spec2 w), after := Dat.unnamed (cfg := cfg2), Φ := fun _ => BI.emp, q := fun _ => fullShare, owed := fun _ => 0 }

def rd : (p : Fin 3) → (c : Dev nD) → RDat τ (Elt F) Unit ℕ UU ℕ (Pipeline.pin (pcfgs (F := F)) adm p) c :=
  Dat.toRs (pd m)

variable (P : Between.Leaves (F := F) m) (h0 : ∀ c, P.after0 (outs0 m) c)

set_option backward.isDefEq.respectTransparency.types false in
def R0x : Pipeline.RegionSeg (pcfgs (F := F)) adm (pd m) () defs₀ 𝒱₀ L lv 0 where
  win := launch0.win.to₀
  block_pos := launch0.block_pos
  stage_whole := launch0.stage_whole
  K := PEmpty
  osem k := k.elim
  ho := Pipeline.OwnSemFacts.none _
  hbody c := (body_obligation (E1 m) c).loose
  hwaits := Pipeline.hwaits_of_owed_zero _ _ _ _ L lv 0 fun _ _ => rfl
  pre c := Between.T1 m c
  post c := Between.T2 m P c
  X c := iprop(∃ r, prngReg c r)
  Y c := iprop(∃ r, prngReg c r)
  Z c := Pipeline.unscopedRest (Ix := Unit) (Name := ℕ) (U := UU) (Lvl := ℕ) spec0 c (E1 m c)
  hentry c := by
    rw [Pipeline.ownSems0_none]
    have hsplit := Pipeline.arrays_of_unscopedBufs (p := 0) (pcfgs (F := F)) adm (pd m) launch0.win launch0.arr_whole c
      ((pd m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    unfold Pipeline.Dat.owesAt Pipeline.owesWithin
    icases HO with ⟨%W, HO⟩; iexists W; isplitr; · ipureintro; exact fun _ _ => Or.inl trivial
    iexact HO
  hin c := by
    rw [show (pd m 0 c).Φ 0 = Pipeline.ΦA spec0 c from rfl]; unfold Pipeline.ΦA
    iintro ⟨Hp, -, Hr⟩
    iframe
  hout c := by
    rw [Pipeline.ownSems0_none, show (pd m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UU) (Lvl := ℕ)
      launch0.win launch0.arr_whole c (pd m) ((pd m 0 c).share_full fun _ => rfl)
      (E1 m c) (E2 m c) ((pd m 0 c).arrAt · cfg0.N) (hF m c) (hrest m c)
    rw [Pipeline.unscopedBufs_held] at hjoin
    iintro ⟨Ha, HO, HY, Hrest⟩
    imodintro
    iexists (outs0 m)
    isplitr; · ipureintro; exact h0 c
    isplitl [Ha Hrest]
    · iapply hjoin; iframe
    isplitl [HY]; · iexact HY
    unfold Pipeline.Dat.owesAt Pipeline.owesWithin
    icases HO with ⟨%W, -, HO⟩; iexists W; iexact HO

def R0 : Pipeline.RDat.RegionSeg (pcfgs (F := F)) adm (rd m) () defs₀ 𝒱₀ L lv 0 :=
  (R0x m P h0).toR (pcfgs (F := F)) adm (pd m) () defs₀ 𝒱₀ L lv

theorem pre_eq (c : Dev nD) : (R0 m P h0).pre c = Between.T1 m c := rfl
theorem post_eq (c : Dev nD) : (R0 m P h0).post c = Between.T2 m P c := rfl

end Cert.Kernel.Region0

end
-- ==== Proof.K.Body1Base.lean ====
import proofs.«161930_g22909355557424_cont_8to1_1761_12_alg».proof.Proof.K.RegionFragment
import proofs.«161930_g22909355557424_cont_8to1_1761_12_alg».proof.Proof.Gen.Kernel.Skeleton
import Idealize.ShloMosaic.Lib.Tactic
import Idealize.ShloMosaic.Lib.Pipeline.FrameBody
import Idealize.ShloMosaic.Lib.Pipeline.Value
import Idealize.ShloMosaic.Lib.ValueIdx

noncomputable section

namespace Cert.Kernel.Body1

open Cert.Kernel Cert.Kernel.Gen Cert.Kernel.Frag
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ UU ℕ
set_option Elab.async false

def cond4 (i : grid1.Coords) : BitVec 1 :=
  Scalar.cmpi .ne (Scalar.extui (Scalar.andi (Scalar.cmpi .eq (BitVec.ofNat 32 (i 1).val) (BitVec.ofNat 32 (i 0).val))
    (Scalar.cmpi .slt (BitVec.ofNat 32 (i 0).val) 7#32))) 0#32

def cond5 (i : grid1.Coords) : BitVec 1 :=
  Scalar.cmpi .ne (Scalar.extui (Scalar.andi (Scalar.cmpi .eq (BitVec.ofNat 32 (i 1).val) (BitVec.ofNat 32 (i 0).val))
    (Scalar.cmpi .eq (BitVec.ofNat 32 (i 0).val) 7#32))) 0#32

-- Each branch condition is a word computed from the two block coordinates: decided at the 64 points of the grid.
theorem cond1_iff : ∀ i : grid1.Coords, k1_cond1 i = 1#1 ↔ (i 1).val = 0 := by decide +kernel
theorem cond2_iff : ∀ i : grid1.Coords, k1_cond2 i = 1#1 ↔ (i 1).val < 7 := by decide +kernel
theorem cond3_iff : ∀ i : grid1.Coords, k1_cond3 i = 1#1 ↔ (i 1).val = 7 := by decide +kernel
theorem cond4_iff : ∀ i : grid1.Coords, cond4 i = 1#1 ↔ ((i 1).val = (i 0).val ∧ (i 0).val < 7) := by decide +kernel
theorem cond5_iff : ∀ i : grid1.Coords, cond5 i = 1#1 ↔ ((i 1).val = (i 0).val ∧ (i 0).val = 7) := by decide +kernel
theorem cond6_iff : ∀ i : grid1.Coords, k1_cond6 i = 1#1 ↔ (i 1).val < (i 0).val := by decide +kernel
theorem cond7_iff : ∀ i : grid1.Coords, k1_cond7 i = 1#1 ↔ (i 1).val = 7 := by decide +kernel

theorem zz : (![0, 0] : Fin 2 → Nat) = fun _ => 0 := by
  funext a; fin_cases a <;> rfl

-- A buffer whose last store covers it reads as that store's payload.
theorem read_last_whole {Val : EltTy → Type} [∀ e, Nonempty (Val e)] {sg : RefSig} {κ : Kind} {sp : Space} {S : Shape} {e : EltTy}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f (⟨Rect.unit off S.size inb, w⟩ :: L)) = w :=
  (View.read_writes_eq_canon v f _ (fun y => ⟨_, List.mem_cons_self, View.mem_set_unit_zero h inb y⟩)).trans
    (View.canon_cons_unit_zero h inb w L)

theorem ld_off_congr {Val : EltTy → Type} {S : Shape} {e : EltTy} (X : S.Idx → Val e) {off off' : Fin S.rank → Nat} (h : off = off')
    (sz : Fin S.rank → Nat) (inb : ∀ a, off a + sz a ≤ S.size a) (inb' : ∀ a, off' a + sz a ≤ S.size a) :
    View.ld X (Rect.unit off sz inb) = View.ld X (Rect.unit off' sz inb') := by
  subst h; rfl

theorem congr3 {α β γ δ : Sort _} (g : α → β → γ → δ) {a a' : α} {b b' : β} {c c' : γ}
    (ha : a = a') (hb : b = b') (hc : c = c') : g a b c = g a' b' c' := by
  subst ha hb hc; rfl

theorem congr4 {α β γ δ ε : Sort _} (g : α → β → γ → δ → ε) {a a' : α} {b b' : β} {c c' : γ} {d d' : δ}
    (ha : a = a') (hb : b = b') (hc : c = c') (hd : d = d') : g a b c d = g a' b' c' d' := by
  subst ha hb hc hd; rfl

theorem rows_inb128 (b : Fin 8) : ∀ a, (![1280 * b.val, 0] : Fin 2 → Nat) a + S1280x128.size a ≤ S10240x128.size a := by
  revert b; decide
theorem rows_inb1 (b : Fin 8) : ∀ a, (![1280 * b.val, 0] : Fin 2 → Nat) a + S1280x1.size a ≤ S10240x1.size a := by
  revert b; decide

def sBlk (i : grid1.Coords) (S : Vec F S10240x128 .bf16) : Vec F S1280x128 .bf16 :=
  View.ld S (Rect.unit (s := S10240x128) ![1280 * (i 1).val, 0] S1280x128.size (rows_inb128 (i 1)))

def vBlkJ (i : grid1.Coords) (Vv : Vec F S10240x1 .f32) : Vec F S1280x1 .f32 :=
  View.ld Vv (Rect.unit (s := S10240x1) ![1280 * (i 1).val, 0] S1280x1.size (rows_inb1 (i 1)))

-- After one store through a rectangle a buffer reads as before, the rectangle's part replaced by the payload.
theorem read_writes_one {Val : EltTy → Type} {sg : RefSig} {κ : Kind} {sp : Space} {S : Shape} {e : EltTy}
    (v : View sg κ sp S e) (f : v.ty.Contents Val) (r : Rect S) (w : r.shape.Idx → Val e) :
    v.read Val (v.writes Val f [⟨r, w⟩]) = r.overlay (v.read Val f) w := by
  funext y
  by_cases hy : y ∈ r.set
  · obtain ⟨x, rfl⟩ : ∃ x, r.emb x = y := r.exists_idx_of_mem hy
    rw [View.read_writes_cons_emb, Rect.overlay_emb]
  · have hy' : y ∉ Finset.univ.map r.emb := by rwa [Rect.map_emb_univ]
    rw [View.writes_cons, View.read_slice_write_of_not_mem r _ _ _ hy', Rect.overlay_of_not_mem _ _ _ hy]
    rfl

theorem overlay_off_congr {α : Type} {S : Shape} (X : S.Idx → α) {off off' : Fin S.rank → Nat} (h : off = off')
    (sz : Fin S.rank → Nat) (inb : ∀ a, off a + sz a ≤ S.size a) (inb' : ∀ a, off' a + sz a ≤ S.size a)
    (w : (Rect.unit off sz inb).shape.Idx → α) :
    (Rect.unit off sz inb).overlay X w = (Rect.unit off' sz inb').overlay X w := by
  subst h; rfl

def vPut (i : grid1.Coords) (Vv : Vec F S10240x1 .f32) (w : Vec F S1280x1 .f32) : Vec F S10240x1 .f32 :=
  (Rect.unit (s := S10240x1) ![1280 * (i 0).val, 0] S1280x1.size (rows_inb1 (i 0))).overlay Vv w

-- What the body leaves in one of its four written buffers, as a function of the point and of what the nine buffers held.
abbrev Upd (F : FTy → Type) (T : Type) := grid1.Coords → Vec F S10240x128 .bf16 → Vec F S1x128 .f32 → Vec F S128x1 .f32 →
  Vec F S1x1 .f32 → Vec F S1280x1280 .f32 → Vec F S10240x1 .f32 → Vec F S1280x1 .f32 → Vec F S1280x128 .f32 → Vec F S1280x1280 .f32 → T

-- The body at point `i`, on whole buffers at known contents, runs to the continuation: the five inputs as they were, the four others at the given updates.
def Spec (c : Dev nD) (E : Set ℕ) (i : grid1.Coords) (uV : Upd F (Vec F S10240x1 .f32)) (uP : Upd F (Vec F S1280x1 .f32))
    (uH : Upd F (Vec F S1280x128 .f32)) (uD : Upd F (Vec F S1280x1280 .f32)) : Prop :=
  ∀ (arg2 : Memref sig .tc .vmem S1280x1280 .f32) (harg2 : arg2.IsWhole) (arg3 : Memref sig .tc .vmem S10240x128 .bf16) (harg3 : arg3.IsWhole)
    (arg4 : Memref sig .tc .vmem S1x128 .f32) (harg4 : arg4.IsWhole) (arg5 : Memref sig .tc .vmem S128x1 .f32) (harg5 : arg5.IsWhole)
    (arg6 : Memref sig .tc .vmem S1x1 .f32) (harg6 : arg6.IsWhole) (arg7 : Memref sig .tc .vmem S10240x1 .f32) (harg7 : arg7.IsWhole)
    (arg8 : Memref sig .tc .vmem S1280x1 .f32) (harg8 : arg8.IsWhole) (arg9 : Memref sig .tc .vmem S1280x128 .f32) (harg9 : arg9.IsWhole)
    (arg10 : Memref sig .tc .vmem S1280x1280 .f32) (harg10 : arg10.IsWhole)
    (X : Vec F S1280x1280 .f32) (S : Vec F S10240x128 .bf16) (B : Vec F S1x128 .f32) (Wv : Vec F S128x1 .f32) (C : Vec F S1x1 .f32)
    (Vv : Vec F S10240x1 .f32) (Pp : Vec F S1280x1 .f32) (Hh : Vec F S1280x128 .f32) (Dd : Vec F S1280x1280 .f32) (K : PUnit → sProp 𝕄),
    iprop(owns (c : Thread nD τ) arg2 fullShare X ∗ owns c arg3 fullShare S ∗ owns c arg4 fullShare B ∗ owns c arg5 fullShare Wv ∗ owns c arg6 fullShare C
        ∗ owns c arg7 fullShare Vv ∗ owns c arg8 fullShare Pp ∗ owns c arg9 fullShare Hh ∗ owns c arg10 fullShare Dd
        ∗ (iprop(owns c arg2 fullShare X ∗ owns c arg3 fullShare S ∗ owns c arg4 fullShare B ∗ owns c arg5 fullShare Wv ∗ owns c arg6 fullShare C
            ∗ owns c arg7 fullShare (uV i S B Wv C X Vv Pp Hh Dd) ∗ owns c arg8 fullShare (uP i S B Wv C X Vv Pp Hh Dd)
            ∗ owns c arg9 fullShare (uH i S B Wv C X Vv Pp Hh Dd) ∗ owns c arg10 fullShare (uD i S B Wv C X Vv Pp Hh Dd)) -∗ K ⟨⟩))
      ⊢ wp frame (wpE (defs₀ (F := F)) Variants.none (c : Thread nD τ) none) E
          (cc1_body i arg2 harg2 arg3 harg3 arg4 harg4 arg5 harg5 arg6 harg6 arg7 harg7 arg8 harg8 arg9 harg9 arg10 harg10) K

-- Nine buffers at contents whose reads are known are owned at those reads.
theorem hand_back (c : Dev nD) {s2 s3 s4 s5 s6 s7 s8 s9 s10 : Shape} {e2 e3 e4 e5 e6 e7 e8 e9 e10 : EltTy}
    {a2 : Memref sig .tc .vmem s2 e2} {a3 : Memref sig .tc .vmem s3 e3} {a4 : Memref sig .tc .vmem s4 e4} {a5 : Memref sig .tc .vmem s5 e5}
    {a6 : Memref sig .tc .vmem s6 e6} {a7 : Memref sig .tc .vmem s7 e7} {a8 : Memref sig .tc .vmem s8 e8} {a9 : Memref sig .tc .vmem s9 e9}
    {a10 : Memref sig .tc .vmem s10 e10} {f2 f3 f4 f5 f6 f7 f8 f9 f10} {V P H D}
    (hV : a7.view.read (Elt F) f7 = V) (hP : a8.view.read (Elt F) f8 = P) (hH : a9.view.read (Elt F) f9 = H) (hD : a10.view.read (Elt F) f10 = D) :
    iprop((a2.view.loc (c : Thread nD τ) ↦[a2.view.set]{fullShare} f2) ∗ (a3.view.loc (c : Thread nD τ) ↦[a3.view.set]{fullShare} f3)
        ∗ (a4.view.loc (c : Thread nD τ) ↦[a4.view.set]{fullShare} f4) ∗ (a5.view.loc (c : Thread nD τ) ↦[a5.view.set]{fullShare} f5)
        ∗ (a6.view.loc (c : Thread nD τ) ↦[a6.view.set]{fullShare} f6) ∗ (a7.view.loc (c : Thread nD τ) ↦[a7.view.set]{fullShare} f7)
        ∗ (a8.view.loc (c : Thread nD τ) ↦[a8.view.set]{fullShare} f8) ∗ (a9.view.loc (c : Thread nD τ) ↦[a9.view.set]{fullShare} f9)
        ∗ (a10.view.loc (c : Thread nD τ) ↦[a10.view.set]{fullShare} f10) : sProp 𝕄)
      ⊢ iprop(owns (c : Thread nD τ) a2 fullShare (a2.view.read (Elt F) f2) ∗ owns c a3 fullShare (a3.view.read (Elt F) f3)
        ∗ owns c a4 fullShare (a4.view.read (Elt F) f4) ∗ owns c a5 fullShare (a5.view.read (Elt F) f5) ∗ owns c a6 fullShare (a6.view.read (Elt F) f6)
        ∗ owns c a7 fullShare V ∗ owns c a8 fullShare P ∗ owns c a9 fullShare H ∗ owns c a10 fullShare D) := by
  subst hV hP hH hD
  exact BI.sep_mono (owns_intro _ _ _ _) <| BI.sep_mono (owns_intro _ _ _ _) <| BI.sep_mono (owns_intro _ _ _ _) <| BI.sep_mono (owns_intro _ _ _ _) <| BI.sep_mono (owns_intro _ _ _ _) <|
    BI.sep_mono (owns_intro _ _ _ _) <| BI.sep_mono (owns_intro _ _ _ _) <| BI.sep_mono (owns_intro _ _ _ _) (owns_intro _ _ _ _)

end Cert.Kernel.Body1

end
-- ==== Proof.K.Body1A.lean ====
import proofs.«161930_g22909355557424_cont_8to1_1761_12_alg».proof.Proof.K.Body1Base

noncomputable section

namespace Cert.Kernel.Body1

open Cert.Kernel Cert.Kernel.Gen Cert.Kernel.Frag
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ UU ℕ

def newV_A : Upd F (Vec F S10240x1 .f32) := fun i S B Wv C X Vv Pp Hh Dd => Vv
def newP_A : Upd F (Vec F S1280x1 .f32) := fun i S B Wv C X Vv Pp Hh Dd => k1_pay2 C
def newH_A : Upd F (Vec F S1280x128 .f32) := fun i S B Wv C X Vv Pp Hh Dd => k1_pay3 X (k1_pay1 B) (sBlk i S)
def newD_A : Upd F (Vec F S1280x1280 .f32) := fun i S B Wv C X Vv Pp Hh Dd => k1_pay5 X

set_option maxHeartbeats 1000000 in
theorem run_A (c : Dev nD) (E : Set ℕ) (i : grid1.Coords) (h0 : (i 0).val = 0) (h1 : (i 1).val = 0) :
    Spec (F := F) c E i newV_A newP_A newH_A newD_A := by
  intro arg2 harg2 arg3 harg3 arg4 harg4 arg5 harg5 arg6 harg6 arg7 harg7 arg8 harg8 arg9 harg9 arg10 harg10 X S B Wv C Vv Pp Hh Dd K
  have hi0 : (i 0).val < 8 := (i 0).isLt
  have hi1 : (i 1).val < 8 := (i 1).isLt
  have c1 := (cond1_iff i).2 (by omega)
  have c2 := (cond2_iff i).2 (by omega)
  have c3 := mt (cond3_iff i).1 (by omega)
  have c4 := (cond4_iff i).2 ⟨by omega, by omega⟩
  have c5 := mt (cond5_iff i).1 (by omega)
  have c6 := mt (cond6_iff i).1 (by omega)
  have c7 := mt (cond7_iff i).1 (by omega)
  simp only [cc1_body_eq_skeleton]; unfold cc1_body_skel owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  subst hf2 hf3 hf4 hf5 hf6 hf7 hf8 hf9 hf10
  sl_exec (disch := first | sl_exact c4 | sl_exact c5)
  sl_step
  iapply Hk
  iapply hand_back c rfl ?_ ?_ ?_
  rotate_left 3
  · iframe
  · refine (read_last_whole _ _ zz _ _ _).trans ?_
    exact congrArg k1_pay2 (View.ld_unit_zero (S := S1x1) zz _ _)
  · refine (read_last_whole _ _ zz _ _ _).trans ?_
    unfold newH_A sBlk
    sl_unfold_run_names
    exact congr3 k1_pay3 (View.ld_unit_zero (S := S1280x1280) zz _ _) ((View.readCov_unit_zero _ zz _ _).trans (congrArg k1_pay1 (View.ld_unit_zero (S := S1x128) zz _ _))) (ld_off_congr _ (k1_off1_eq i) _ _ _)
  · refine (read_last_whole _ _ zz _ _ _).trans ?_
    unfold newD_A
    sl_unfold_run_names
    exact congrArg k1_pay5 (View.ld_unit_zero (S := S1280x1280) zz _ _)

end Cert.Kernel.Body1

end
-- ==== Proof.K.Body1B.lean ====
import proofs.«161930_g22909355557424_cont_8to1_1761_12_alg».proof.Proof.K.Body1Base

noncomputable section

namespace Cert.Kernel.Body1

open Cert.Kernel Cert.Kernel.Gen Cert.Kernel.Frag
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ UU ℕ

def newV_B : Upd F (Vec F S10240x1 .f32) := fun i S B Wv C X Vv Pp Hh Dd => Vv
def newP_B : Upd F (Vec F S1280x1 .f32) := fun i S B Wv C X Vv Pp Hh Dd => k1_pay7 (k1_pay2 C) X (vBlkJ i Vv)
def newH_B : Upd F (Vec F S1280x128 .f32) := fun i S B Wv C X Vv Pp Hh Dd => k1_pay3 X (k1_pay1 B) (sBlk i S)
def newD_B : Upd F (Vec F S1280x1280 .f32) := fun i S B Wv C X Vv Pp Hh Dd => Dd

set_option maxHeartbeats 1000000 in
theorem run_B (c : Dev nD) (E : Set ℕ) (i : grid1.Coords) (h0 : 0 < (i 0).val) (h1 : (i 1).val = 0) :
    Spec (F := F) c E i newV_B newP_B newH_B newD_B := by
  intro arg2 harg2 arg3 harg3 arg4 harg4 arg5 harg5 arg6 harg6 arg7 harg7 arg8 harg8 arg9 harg9 arg10 harg10 X S B Wv C Vv Pp Hh Dd K
  have hi0 : (i 0).val < 8 := (i 0).isLt
  have hi1 : (i 1).val < 8 := (i 1).isLt
  have c1 := (cond1_iff i).2 (by omega)
  have c2 := (cond2_iff i).2 (by omega)
  have c3 := mt (cond3_iff i).1 (by omega)
  have c4 := mt (cond4_iff i).1 (by omega)
  have c5 := mt (cond5_iff i).1 (by omega)
  have c6 := (cond6_iff i).2 (by omega)
  have c7 := mt (cond7_iff i).1 (by omega)
  simp only [cc1_body_eq_skeleton]; unfold cc1_body_skel owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  subst hf2 hf3 hf4 hf5 hf6 hf7 hf8 hf9 hf10
  sl_exec (disch := first | sl_exact c4 | sl_exact c5)
  sl_step
  iapply Hk
  iapply hand_back c rfl ?_ ?_ rfl
  rotate_left 2
  · iframe
  · refine (read_last_whole _ _ zz _ _ _).trans ?_
    unfold newP_B vBlkJ
    sl_unfold_run_names
    exact congr3 k1_pay7 ((View.readCov_unit_zero _ zz _ _).trans (congrArg k1_pay2 (View.ld_unit_zero (S := S1x1) zz _ _))) (View.ld_unit_zero (S := S1280x1280) zz _ _) (ld_off_congr _ (k1_off3_eq i) _ _ _)
  · refine (read_last_whole _ _ zz _ _ _).trans ?_
    unfold newH_B sBlk
    sl_unfold_run_names
    exact congr3 k1_pay3 (View.ld_unit_zero (S := S1280x1280) zz _ _) ((View.readCov_unit_zero _ zz _ _).trans (congrArg k1_pay1 (View.ld_unit_zero (S := S1x128) zz _ _))) (ld_off_congr _ (k1_off1_eq i) _ _ _)

end Cert.Kernel.Body1

end
-- ==== Proof.K.Body1C.lean ====
import proofs.«161930_g22909355557424_cont_8to1_1761_12_alg».proof.Proof.K.Body1Base

noncomputable section

namespace Cert.Kernel.Body1

open Cert.Kernel Cert.Kernel.Gen Cert.Kernel.Frag
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ UU ℕ

def newV_C : Upd F (Vec F S10240x1 .f32) := fun i S B Wv C X Vv Pp Hh Dd => Vv
def newP_C : Upd F (Vec F S1280x1 .f32) := fun i S B Wv C X Vv Pp Hh Dd => k1_pay7 Pp X (vBlkJ i Vv)
def newH_C : Upd F (Vec F S1280x128 .f32) := fun i S B Wv C X Vv Pp Hh Dd => k1_pay3 X Hh (sBlk i S)
def newD_C : Upd F (Vec F S1280x1280 .f32) := fun i S B Wv C X Vv Pp Hh Dd => Dd

set_option maxHeartbeats 1000000 in
theorem run_C (c : Dev nD) (E : Set ℕ) (i : grid1.Coords) (h0 : 0 < (i 1).val) (h1 : (i 1).val < (i 0).val) :
    Spec (F := F) c E i newV_C newP_C newH_C newD_C := by
  intro arg2 harg2 arg3 harg3 arg4 harg4 arg5 harg5 arg6 harg6 arg7 harg7 arg8 harg8 arg9 harg9 arg10 harg10 X S B Wv C Vv Pp Hh Dd K
  have hi0 : (i 0).val < 8 := (i 0).isLt
  have hi1 : (i 1).val < 8 := (i 1).isLt
  have c1 := mt (cond1_iff i).1 (by omega)
  have c2 := (cond2_iff i).2 (by omega)
  have c3 := mt (cond3_iff i).1 (by omega)
  have c4 := mt (cond4_iff i).1 (by omega)
  have c5 := mt (cond5_iff i).1 (by omega)
  have c6 := (cond6_iff i).2 (by omega)
  have c7 := mt (cond7_iff i).1 (by omega)
  simp only [cc1_body_eq_skeleton]; unfold cc1_body_skel owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  subst hf2 hf3 hf4 hf5 hf6 hf7 hf8 hf9 hf10
  sl_exec (disch := first | sl_exact c4 | sl_exact c5)
  sl_step
  iapply Hk
  iapply hand_back c rfl ?_ ?_ rfl
  rotate_left 2
  · iframe
  · refine (read_last_whole _ _ zz _ _ _).trans ?_
    unfold newP_C vBlkJ
    sl_unfold_run_names
    exact congr3 k1_pay7 (View.ld_unit_zero (S := S1280x1) zz _ _) (View.ld_unit_zero (S := S1280x1280) zz _ _) (ld_off_congr _ (k1_off3_eq i) _ _ _)
  · refine (read_last_whole _ _ zz _ _ _).trans ?_
    unfold newH_C sBlk
    sl_unfold_run_names
    exact congr3 k1_pay3 (View.ld_unit_zero (S := S1280x1280) zz _ _) (View.ld_unit_zero (S := S1280x128) zz _ _) (ld_off_congr _ (k1_off1_eq i) _ _ _)

end Cert.Kernel.Body1

end
-- ==== Proof.K.Body1D.lean ====
import proofs.«161930_g22909355557424_cont_8to1_1761_12_alg».proof.Proof.K.Body1Base

noncomputable section

namespace Cert.Kernel.Body1

open Cert.Kernel Cert.Kernel.Gen Cert.Kernel.Frag
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ UU ℕ

def newV_D : Upd F (Vec F S10240x1 .f32) := fun i S B Wv C X Vv Pp Hh Dd => Vv
def newP_D : Upd F (Vec F S1280x1 .f32) := fun i S B Wv C X Vv Pp Hh Dd => Pp
def newH_D : Upd F (Vec F S1280x128 .f32) := fun i S B Wv C X Vv Pp Hh Dd => k1_pay3 X Hh (sBlk i S)
def newD_D : Upd F (Vec F S1280x1280 .f32) := fun i S B Wv C X Vv Pp Hh Dd => k1_pay5 X

set_option maxHeartbeats 1000000 in
theorem run_D (c : Dev nD) (E : Set ℕ) (i : grid1.Coords) (h0 : 0 < (i 1).val) (h1 : (i 1).val = (i 0).val) (h2 : (i 0).val < 7) :
    Spec (F := F) c E i newV_D newP_D newH_D newD_D := by
  intro arg2 harg2 arg3 harg3 arg4 harg4 arg5 harg5 arg6 harg6 arg7 harg7 arg8 harg8 arg9 harg9 arg10 harg10 X S B Wv C Vv Pp Hh Dd K
  have hi0 : (i 0).val < 8 := (i 0).isLt
  have hi1 : (i 1).val < 8 := (i 1).isLt
  have c1 := mt (cond1_iff i).1 (by omega)
  have c2 := (cond2_iff i).2 (by omega)
  have c3 := mt (cond3_iff i).1 (by omega)
  have c4 := (cond4_iff i).2 ⟨by omega, by omega⟩
  have c5 := mt (cond5_iff i).1 (by omega)
  have c6 := mt (cond6_iff i).1 (by omega)
  have c7 := mt (cond7_iff i).1 (by omega)
  simp only [cc1_body_eq_skeleton]; unfold cc1_body_skel owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  subst hf2 hf3 hf4 hf5 hf6 hf7 hf8 hf9 hf10
  sl_exec (disch := first | sl_exact c4 | sl_exact c5)
  sl_step
  iapply Hk
  iapply hand_back c rfl rfl ?_ ?_
  rotate_left 2
  · iframe
  · refine (read_last_whole _ _ zz _ _ _).trans ?_
    unfold newH_D sBlk
    sl_unfold_run_names
    exact congr3 k1_pay3 (View.ld_unit_zero (S := S1280x1280) zz _ _) (View.ld_unit_zero (S := S1280x128) zz _ _) (ld_off_congr _ (k1_off1_eq i) _ _ _)
  · refine (read_last_whole _ _ zz _ _ _).trans ?_
    unfold newD_D
    sl_unfold_run_names
    exact congrArg k1_pay5 (View.ld_unit_zero (S := S1280x1280) zz _ _)

end Cert.Kernel.Body1

end
-- ==== Proof.K.Body1E.lean ====
import proofs.«161930_g22909355557424_cont_8to1_1761_12_alg».proof.Proof.K.Body1Base

noncomputable section

namespace Cert.Kernel.Body1

open Cert.Kernel Cert.Kernel.Gen Cert.Kernel.Frag
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ UU ℕ

def newV_E : Upd F (Vec F S10240x1 .f32) := fun i S B Wv C X Vv Pp Hh Dd => Vv
def newP_E : Upd F (Vec F S1280x1 .f32) := fun i S B Wv C X Vv Pp Hh Dd => Pp
def newH_E : Upd F (Vec F S1280x128 .f32) := fun i S B Wv C X Vv Pp Hh Dd => k1_pay3 X Hh (sBlk i S)
def newD_E : Upd F (Vec F S1280x1280 .f32) := fun i S B Wv C X Vv Pp Hh Dd => Dd

set_option maxHeartbeats 1000000 in
theorem run_E (c : Dev nD) (E : Set ℕ) (i : grid1.Coords) (h0 : (i 0).val < (i 1).val) (h1 : (i 1).val < 7) :
    Spec (F := F) c E i newV_E newP_E newH_E newD_E := by
  intro arg2 harg2 arg3 harg3 arg4 harg4 arg5 harg5 arg6 harg6 arg7 harg7 arg8 harg8 arg9 harg9 arg10 harg10 X S B Wv C Vv Pp Hh Dd K
  have hi0 : (i 0).val < 8 := (i 0).isLt
  have hi1 : (i 1).val < 8 := (i 1).isLt
  have c1 := mt (cond1_iff i).1 (by omega)
  have c2 := (cond2_iff i).2 (by omega)
  have c3 := mt (cond3_iff i).1 (by omega)
  have c4 := mt (cond4_iff i).1 (by omega)
  have c5 := mt (cond5_iff i).1 (by omega)
  have c6 := mt (cond6_iff i).1 (by omega)
  have c7 := mt (cond7_iff i).1 (by omega)
  simp only [cc1_body_eq_skeleton]; unfold cc1_body_skel owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  subst hf2 hf3 hf4 hf5 hf6 hf7 hf8 hf9 hf10
  sl_exec (disch := first | sl_exact c4 | sl_exact c5)
  sl_step
  iapply Hk
  iapply hand_back c rfl rfl ?_ rfl
  rotate_left 1
  · iframe
  · refine (read_last_whole _ _ zz _ _ _).trans ?_
    unfold newH_E sBlk
    sl_unfold_run_names
    exact congr3 k1_pay3 (View.ld_unit_zero (S := S1280x1280) zz _ _) (View.ld_unit_zero (S := S1280x128) zz _ _) (ld_off_congr _ (k1_off1_eq i) _ _ _)

end Cert.Kernel.Body1

end
-- ==== Proof.K.Body1F.lean ====
import proofs.«161930_g22909355557424_cont_8to1_1761_12_alg».proof.Proof.K.Body1Base

noncomputable section

namespace Cert.Kernel.Body1

open Cert.Kernel Cert.Kernel.Gen Cert.Kernel.Frag
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ UU ℕ

def newV_F : Upd F (Vec F S10240x1 .f32) := fun i S B Wv C X Vv Pp Hh Dd => vPut i Vv (k1_pay8 i (k1_pay4 X Hh (sBlk i S)) Wv)
def newP_F : Upd F (Vec F S1280x1 .f32) := fun i S B Wv C X Vv Pp Hh Dd => k1_pay9 i (k1_pay4 X Hh (sBlk i S)) Wv Pp Dd
def newH_F : Upd F (Vec F S1280x128 .f32) := fun i S B Wv C X Vv Pp Hh Dd => k1_pay4 X Hh (sBlk i S)
def newD_F : Upd F (Vec F S1280x1280 .f32) := fun i S B Wv C X Vv Pp Hh Dd => Dd

set_option maxHeartbeats 1000000 in
theorem run_F (c : Dev nD) (E : Set ℕ) (i : grid1.Coords) (h0 : (i 0).val < 7) (h1 : (i 1).val = 7) :
    Spec (F := F) c E i newV_F newP_F newH_F newD_F := by
  intro arg2 harg2 arg3 harg3 arg4 harg4 arg5 harg5 arg6 harg6 arg7 harg7 arg8 harg8 arg9 harg9 arg10 harg10 X S B Wv C Vv Pp Hh Dd K
  have hi0 : (i 0).val < 8 := (i 0).isLt
  have hi1 : (i 1).val < 8 := (i 1).isLt
  have c1 := mt (cond1_iff i).1 (by omega)
  have c2 := mt (cond2_iff i).1 (by omega)
  have c3 := (cond3_iff i).2 (by omega)
  have c4 := mt (cond4_iff i).1 (by omega)
  have c5 := mt (cond5_iff i).1 (by omega)
  have c6 := mt (cond6_iff i).1 (by omega)
  have c7 := (cond7_iff i).2 (by omega)
  simp only [cc1_body_eq_skeleton]; unfold cc1_body_skel owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  subst hf2 hf3 hf4 hf5 hf6 hf7 hf8 hf9 hf10
  sl_exec (disch := first | sl_exact c4 | sl_exact c5)
  sl_step
  iapply Hk
  iapply hand_back c ?_ ?_ ?_ rfl
  rotate_left 3
  · iframe
  · refine (read_writes_one _ _ _ _).trans ?_
    unfold newV_F vPut sBlk
    sl_unfold_run_names
    refine (overlay_off_congr _ (k1_off4_eq i) _ _ (rows_inb1 (i 0)) _).trans ?_
    exact congrArg (Rect.overlay _ _) (congrArg₂ (k1_pay8 i) ((View.readCov_unit_zero _ zz _ _).trans (congr3 k1_pay4 (View.ld_unit_zero (S := S1280x1280) zz _ _) (View.ld_unit_zero (S := S1280x128) zz _ _) (ld_off_congr _ (k1_off2_eq i) _ _ _))) (View.ld_unit_zero (S := S128x1) zz _ _))
  · refine (read_last_whole _ _ zz _ _ _).trans ?_
    unfold newP_F sBlk
    sl_unfold_run_names
    exact congr4 (k1_pay9 i) ((View.readCov_unit_zero _ zz _ _).trans (congr3 k1_pay4 (View.ld_unit_zero (S := S1280x1280) zz _ _) (View.ld_unit_zero (S := S1280x128) zz _ _) (ld_off_congr _ (k1_off2_eq i) _ _ _))) (View.ld_unit_zero (S := S128x1) zz _ _) (View.ld_unit_zero (S := S1280x1) zz _ _) (View.ld_unit_zero (S := S1280x1280) zz _ _)
  · refine (read_last_whole _ _ zz _ _ _).trans ?_
    unfold newH_F sBlk
    sl_unfold_run_names
    exact congr3 k1_pay4 (View.ld_unit_zero (S := S1280x1280) zz _ _) (View.ld_unit_zero (S := S1280x128) zz _ _) (ld_off_congr _ (k1_off2_eq i) _ _ _)

end Cert.Kernel.Body1

end
-- ==== Proof.K.Body1G.lean ====
import proofs.«161930_g22909355557424_cont_8to1_1761_12_alg».proof.Proof.K.Body1Base

noncomputable section

namespace Cert.Kernel.Body1

open Cert.Kernel Cert.Kernel.Gen Cert.Kernel.Frag
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ UU ℕ

def newV_G : Upd F (Vec F S10240x1 .f32) := fun i S B Wv C X Vv Pp Hh Dd => vPut i Vv (k1_pay8 i (k1_pay4 X Hh (sBlk i S)) Wv)
def newP_G : Upd F (Vec F S1280x1 .f32) := fun i S B Wv C X Vv Pp Hh Dd => k1_pay9 i (k1_pay4 X Hh (sBlk i S)) Wv Pp (k1_pay6 X)
def newH_G : Upd F (Vec F S1280x128 .f32) := fun i S B Wv C X Vv Pp Hh Dd => k1_pay4 X Hh (sBlk i S)
def newD_G : Upd F (Vec F S1280x1280 .f32) := fun i S B Wv C X Vv Pp Hh Dd => k1_pay6 X

set_option maxHeartbeats 1000000 in
theorem run_G (c : Dev nD) (E : Set ℕ) (i : grid1.Coords) (h0 : (i 0).val = 7) (h1 : (i 1).val = 7) :
    Spec (F := F) c E i newV_G newP_G newH_G newD_G := by
  intro arg2 harg2 arg3 harg3 arg4 harg4 arg5 harg5 arg6 harg6 arg7 harg7 arg8 harg8 arg9 harg9 arg10 harg10 X S B Wv C Vv Pp Hh Dd K
  have hi0 : (i 0).val < 8 := (i 0).isLt
  have hi1 : (i 1).val < 8 := (i 1).isLt
  have c1 := mt (cond1_iff i).1 (by omega)
  have c2 := mt (cond2_iff i).1 (by omega)
  have c3 := (cond3_iff i).2 (by omega)
  have c4 := mt (cond4_iff i).1 (by omega)
  have c5 := (cond5_iff i).2 ⟨by omega, by omega⟩
  have c6 := mt (cond6_iff i).1 (by omega)
  have c7 := (cond7_iff i).2 (by omega)
  simp only [cc1_body_eq_skeleton]; unfold cc1_body_skel owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  subst hf2 hf3 hf4 hf5 hf6 hf7 hf8 hf9 hf10
  sl_exec (disch := first | sl_exact c4 | sl_exact c5)
  sl_step
  iapply Hk
  iapply hand_back c ?_ ?_ ?_ ?_
  rotate_left 4
  · iframe
  · refine (read_writes_one _ _ _ _).trans ?_
    unfold newV_G vPut sBlk
    sl_unfold_run_names
    refine (overlay_off_congr _ (k1_off4_eq i) _ _ (rows_inb1 (i 0)) _).trans ?_
    exact congrArg (Rect.overlay _ _) (congrArg₂ (k1_pay8 i) ((View.readCov_unit_zero _ zz _ _).trans (congr3 k1_pay4 (View.ld_unit_zero (S := S1280x1280) zz _ _) (View.ld_unit_zero (S := S1280x128) zz _ _) (ld_off_congr _ (k1_off2_eq i) _ _ _))) (View.ld_unit_zero (S := S128x1) zz _ _))
  · refine (read_last_whole _ _ zz _ _ _).trans ?_
    unfold newP_G sBlk
    sl_unfold_run_names
    exact congr4 (k1_pay9 i) ((View.readCov_unit_zero _ zz _ _).trans (congr3 k1_pay4 (View.ld_unit_zero (S := S1280x1280) zz _ _) (View.ld_unit_zero (S := S1280x128) zz _ _) (ld_off_congr _ (k1_off2_eq i) _ _ _))) (View.ld_unit_zero (S := S128x1) zz _ _) (View.ld_unit_zero (S := S1280x1) zz _ _) ((View.readCov_unit_zero _ zz _ _).trans (congrArg k1_pay6 (View.ld_unit_zero (S := S1280x1280) zz _ _)))
  · refine (read_last_whole _ _ zz _ _ _).trans ?_
    unfold newH_G sBlk
    sl_unfold_run_names
    exact congr3 k1_pay4 (View.ld_unit_zero (S := S1280x1280) zz _ _) (View.ld_unit_zero (S := S1280x128) zz _ _) (ld_off_congr _ (k1_off2_eq i) _ _ _)
  · refine (read_last_whole _ _ zz _ _ _).trans ?_
    unfold newD_G
    sl_unfold_run_names
    exact congrArg k1_pay6 (View.ld_unit_zero (S := S1280x1280) zz _ _)

end Cert.Kernel.Body1

end
-- ==== Proof.K.Body1.lean ====
import proofs.«161930_g22909355557424_cont_8to1_1761_12_alg».proof.Proof.K.Body1A
import proofs.«161930_g22909355557424_cont_8to1_1761_12_alg».proof.Proof.K.Body1B
import proofs.«161930_g22909355557424_cont_8to1_1761_12_alg».proof.Proof.K.Body1C
import proofs.«161930_g22909355557424_cont_8to1_1761_12_alg».proof.Proof.K.Body1D
import proofs.«161930_g22909355557424_cont_8to1_1761_12_alg».proof.Proof.K.Body1E
import proofs.«161930_g22909355557424_cont_8to1_1761_12_alg».proof.Proof.K.Body1F
import proofs.«161930_g22909355557424_cont_8to1_1761_12_alg».proof.Proof.K.Body1G
-- ==== Proof.K.Region1.lean ====
import proofs.«161930_g22909355557424_cont_8to1_1761_12_alg».proof.Proof.K.Between
import proofs.«161930_g22909355557424_cont_8to1_1761_12_alg».proof.Proof.K.Body1
import proofs.«161930_g22909355557424_cont_8to1_1761_12_alg».proof.Proof.Gen.Kernel.Points

noncomputable section

namespace Cert.Kernel.Region1

open Cert.Kernel Cert.Kernel.Gen Cert.Kernel.Frag
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig Unit (Elt F) ℕ UU ℕ

def Found {c : Dev nD} (rd : RDat τ (Elt F) Unit ℕ UU ℕ cfg1 c) (t : Fin cfg1.N)
    (X : Vec F S1280x1280 .f32) (S : Vec F S10240x128 .bf16) (B : Vec F S1x128 .f32) (Wv : Vec F S128x1 .f32) (C : Vec F S1x1 .f32)
    (Vv : Vec F S10240x1 .f32) (Pp : Vec F S1280x1 .f32) : Prop :=
  rd.Finds 0 t X ∧ rd.Finds 1 t S ∧ rd.Finds 2 t B ∧ rd.Finds 3 t Wv ∧ rd.Finds 4 t C ∧ rd.Finds 5 t Vv ∧ rd.Finds 6 t Pp

section Data

variable (m : (ℓ : Loc nD τ sig) → Buf (Elt F) ℓ) (o : Outs (F := F)) (c : Dev nD)
  (invH : Fin (cfg1.N + 1) → Vec F S1280x128 .f32 → Prop) (invD : Fin (cfg1.N + 1) → Vec F S1280x1280 .f32 → Prop)
  (relV : Fin cfg1.N → (Y X : Vec F S10240x1 .f32) → Prop) (relP : Fin cfg1.N → (Y X : Vec F S1280x1 .f32) → Prop)

/-- The invariant between points: the two scratch buffers hold contents of which the two predicates hold. -/
def inv1 (t : Fin (cfg1.N + 1)) : sProp 𝕄 :=
  iprop(∃ h d, ⌜invH t h ∧ invD t d⌝ ∗ owns (c : Thread nD τ) (Memref.whole cc1_scratch0) fullShare h
    ∗ owns (c : Thread nD τ) (Memref.whole cc1_scratch1) fullShare d
    ∗ Pipeline.scopedRestBut (Ix := Unit) (Name := ℕ) (U := UU) (Lvl := ℕ) (Val := Elt F) spec1 c [cc1_scratch0, cc1_scratch1]
    ∗ ∃ r, prngReg c r)

/-- The region's proof data over predicates still to be chosen. -/
def rd1 : RDat τ (Elt F) Unit ℕ UU ℕ cfg1 c where
  A w := V3 m o c (Pipeline.arrRef spec1 w)
  after w t := match w with
    | ⟨0, _⟩ => fun _ _ => True
    | ⟨1, _⟩ => fun Y X => X = Y
    | ⟨2, _⟩ => fun Y X => X = Y
    | ⟨3, _⟩ => fun Y X => X = Y
    | ⟨4, _⟩ => fun Y X => X = Y
    | ⟨5, _⟩ => relV t
    | ⟨6, _⟩ => relP t
  Φ := inv1 c invH invD
  q _ := fullShare
  owed _ := 0

/-- A control case's step at point `t`: whatever the body was handed, its results keep the two invariants and stand in the two relations. -/
def StepOk (t : Fin cfg1.N) (nH : Body1.Upd F (Vec F S1280x128 .f32)) (nD : Body1.Upd F (Vec F S1280x1280 .f32))
    (nV : Body1.Upd F (Vec F S10240x1 .f32)) (nP : Body1.Upd F (Vec F S1280x1 .f32)) : Prop :=
  ∀ X S B Wv C Vv Pp Hh Dd, Found (rd1 m o c invH invD relV relP) t X S B Wv C Vv Pp → invH t.castSucc Hh → invD t.castSucc Dd →
    invH t.succ (nH (grid1.coords t) S B Wv C X Vv Pp Hh Dd) ∧ invD t.succ (nD (grid1.coords t) S B Wv C X Vv Pp Hh Dd)
      ∧ relV t Vv (nV (grid1.coords t) S B Wv C X Vv Pp Hh Dd) ∧ relP t Pp (nP (grid1.coords t) S B Wv C X Vv Pp Hh Dd)

end Data

def outsWith (o : Outs (F := F)) (c : Dev nD) (vv : Buf (Elt F) ((c : Thread nD τ).loc main_v4_0))
    (pp : Buf (Elt F) ((c : Thread nD τ).loc main_v4_1)) : Outs (F := F) :=
  Function.update o 4 (Function.update (Function.update (o 4) main_v4_0 (Function.update (o 4 main_v4_0) c vv))
    main_v4_1 (Function.update (o 4 main_v4_1) c pp))

/-- The per-point predicates and what must be known of them: one step per control case of the body, and a closing fact about the two results. -/
structure Steps (m : (ℓ : Loc nD τ sig) → Buf (Elt F) ℓ) (P : Between.Leaves (F := F) m) (o : Outs (F := F)) (c : Dev nD) where
  invH : Fin (cfg1.N + 1) → Vec F S1280x128 .f32 → Prop
  invD : Fin (cfg1.N + 1) → Vec F S1280x1280 .f32 → Prop
  relV : Fin cfg1.N → (Y X : Vec F S10240x1 .f32) → Prop
  relP : Fin cfg1.N → (Y X : Vec F S1280x1 .f32) → Prop
  invH0 : ∀ h, invH 0 h
  invD0 : ∀ d, invD 0 d
  stepA : ∀ t : Fin cfg1.N, ((grid1.coords t) 0).val = 0 → ((grid1.coords t) 1).val = 0 →
      StepOk m o c invH invD relV relP t Body1.newH_A Body1.newD_A Body1.newV_A Body1.newP_A
  stepB : ∀ t : Fin cfg1.N, 0 < ((grid1.coords t) 0).val → ((grid1.coords t) 1).val = 0 →
      StepOk m o c invH invD relV relP t Body1.newH_B Body1.newD_B Body1.newV_B Body1.newP_B
  stepC : ∀ t : Fin cfg1.N, 0 < ((grid1.coords t) 1).val → ((grid1.coords t) 1).val < ((grid1.coords t) 0).val →
      StepOk m o c invH invD relV relP t Body1.newH_C Body1.newD_C Body1.newV_C Body1.newP_C
  stepD : ∀ t : Fin cfg1.N, 0 < ((grid1.coords t) 1).val → ((grid1.coords t) 1).val = ((grid1.coords t) 0).val → ((grid1.coords t) 0).val < 7 →
      StepOk m o c invH invD relV relP t Body1.newH_D Body1.newD_D Body1.newV_D Body1.newP_D
  stepE : ∀ t : Fin cfg1.N, ((grid1.coords t) 0).val < ((grid1.coords t) 1).val → ((grid1.coords t) 1).val < 7 →
      StepOk m o c invH invD relV relP t Body1.newH_E Body1.newD_E Body1.newV_E Body1.newP_E
  stepF : ∀ t : Fin cfg1.N, ((grid1.coords t) 0).val < 7 → ((grid1.coords t) 1).val = 7 →
      StepOk m o c invH invD relV relP t Body1.newH_F Body1.newD_F Body1.newV_F Body1.newP_F
  stepG : ∀ t : Fin cfg1.N, ((grid1.coords t) 0).val = 7 → ((grid1.coords t) 1).val = 7 →
      StepOk m o c invH invD relV relP t Body1.newH_G Body1.newD_G Body1.newV_G Body1.newP_G
  final : ∀ (vv : Buf (Elt F) ((c : Thread nD τ).loc main_v4_0)) (pp : Buf (Elt F) ((c : Thread nD τ).loc main_v4_1)),
      (rd1 m o c invH invD relV relP).ArrAt 5 cfg1.N vv → (rd1 m o c invH invD relV relP).ArrAt 6 cfg1.N pp →
      P.after1 (outsWith o c vv pp) c

def Steps.trivial (m : (ℓ : Loc nD τ sig) → Buf (Elt F) ℓ) (o : Outs (F := F)) (c : Dev nD) : Steps m (Between.Leaves.nothing m) o c where
  invH _ _ := True
  invD _ _ := True
  relV _ _ _ := True
  relP _ _ _ := True
  invH0 _ := ⟨⟩
  invD0 _ := ⟨⟩
  stepA _ _ _ _ _ _ _ _ _ _ _ _ _ _ _ := ⟨⟨⟩, ⟨⟩, ⟨⟩, ⟨⟩⟩
  stepB _ _ _ _ _ _ _ _ _ _ _ _ _ _ _ := ⟨⟨⟩, ⟨⟩, ⟨⟩, ⟨⟩⟩
  stepC _ _ _ _ _ _ _ _ _ _ _ _ _ _ _ := ⟨⟨⟩, ⟨⟩, ⟨⟩, ⟨⟩⟩
  stepD _ _ _ _ _ _ _ _ _ _ _ _ _ _ _ _ := ⟨⟨⟩, ⟨⟩, ⟨⟩, ⟨⟩⟩
  stepE _ _ _ _ _ _ _ _ _ _ _ _ _ _ _ := ⟨⟨⟩, ⟨⟩, ⟨⟩, ⟨⟩⟩
  stepF _ _ _ _ _ _ _ _ _ _ _ _ _ _ _ := ⟨⟨⟩, ⟨⟩, ⟨⟩, ⟨⟩⟩
  stepG _ _ _ _ _ _ _ _ _ _ _ _ _ _ _ := ⟨⟨⟩, ⟨⟩, ⟨⟩, ⟨⟩⟩
  final _ _ _ _ := ⟨⟩

variable (m : (ℓ : Loc nD τ sig) → Buf (Elt F) ℓ) (P : Between.Leaves (F := F) m) (o : Outs (F := F))

def rd (S : ∀ c, Steps m P o c) : (p : Fin 3) → (c : Dev nD) → RDat τ (Elt F) Unit ℕ UU ℕ (Pipeline.pin (pcfgs (F := F)) adm p) c
  | ⟨0, _⟩ => fun c => { A := fun w => V1 m c (Pipeline.arrRef spec0 w), after := fun _ _ _ _ => True, Φ := fun _ => iprop(emp), q := fun _ => fullShare, owed := fun _ => 0 }
  | ⟨1, _⟩ => fun c => rd1 m o c (S c).invH (S c).invD (S c).relV (S c).relP
  | ⟨2, _⟩ => fun c => { A := fun w => V4 m o c (Pipeline.arrRef spec2 w), after := fun _ _ _ _ => True, Φ := fun _ => iprop(emp), q := fun _ => fullShare, owed := fun _ => 0 }

section Body

variable (S : ∀ c, Steps m P o c)

abbrev rdc (c : Dev nD) : RDat τ (Elt F) Unit ℕ UU ℕ cfg1 c := rd1 m o c (S c).invH (S c).invD (S c).relV (S c).relP

theorem cases7 (a b : ℕ) (ha : a < 8) (hb : b < 8) :
    (a = 0 ∧ b = 0) ∨ (0 < a ∧ b = 0) ∨ (0 < b ∧ b < a) ∨ (0 < b ∧ b = a ∧ a < 7) ∨ (a < b ∧ b < 7) ∨ (a < 7 ∧ b = 7)
      ∨ (a = 7 ∧ b = 7) := by omega

/-- Every point is in one of the body's seven control cases: the case's step holds of its results, and its run takes the nine buffers to them. -/
theorem body_case (c : Dev nD) (t : Fin cfg1.N) :
    ∃ nH nD nV nP, StepOk m o c (S c).invH (S c).invD (S c).relV (S c).relP t nH nD nV nP
      ∧ Body1.Spec (F := F) c Set.univ (grid1.coords t) nV nP nH nD := by
  rcases cases7 _ _ ((grid1.coords t) 0).isLt ((grid1.coords t) 1).isLt with
    ⟨h0, h1⟩ | ⟨h0, h1⟩ | ⟨h0, h1⟩ | ⟨h0, h1, h2⟩ | ⟨h0, h1⟩ | ⟨h0, h1⟩ | ⟨h0, h1⟩
  · exact ⟨_, _, _, _, (S c).stepA t h0 h1, Body1.run_A c _ _ h0 h1⟩
  · exact ⟨_, _, _, _, (S c).stepB t h0 h1, Body1.run_B c _ _ h0 h1⟩
  · exact ⟨_, _, _, _, (S c).stepC t h0 h1, Body1.run_C c _ _ h0 h1⟩
  · exact ⟨_, _, _, _, (S c).stepD t h0 h1 h2, Body1.run_D c _ _ h0 h1 h2⟩
  · exact ⟨_, _, _, _, (S c).stepE t h0 h1, Body1.run_E c _ _ h0 h1⟩
  · exact ⟨_, _, _, _, (S c).stepF t h0 h1, Body1.run_F c _ _ h0 h1⟩
  · exact ⟨_, _, _, _, (S c).stepG t h0 h1, Body1.run_G c _ _ h0 h1⟩

theorem body_obligation (c : Dev nD) : (rd m P o S 1 c).BodyObligation (defs₀ (F := F)) 𝒱₀ () Set.univ := fun t Y hY => by
  rw [bigSep_W1, bigSep_W1]
  show iprop(inv1 c (S c).invH (S c).invD t.castSucc ∗ _) ⊢ wp frame _ Set.univ (bodyAt1 t) fun _ =>
    iprop(inv1 c (S c).invH (S c).invD t.succ ∗ _)
  unfold inv1
  iintro ⟨⟨%h, %d, %hinv, Hh, Hd, Hr, Hp⟩, Ho, H0, H1, H2, H3, H4, H5, H6⟩
  obtain ⟨nH, nD, nV, nP, hs, hrun⟩ := body_case m P o S c t
  obtain ⟨hH, hD, hV, hP⟩ := hs _ _ _ _ _ _ _ _ _ ⟨hY 0, hY 1, hY 2, hY 3, hY 4, hY 5, hY 6⟩ hinv.1 hinv.2
  iapply hrun (st1_0 t) _ (st1_1 t) _ (st1_2 t) _ (st1_3 t) _ (st1_4 t) _ (st1_5 t) _ (st1_6 t) _ (Memref.whole cc1_scratch0) _ (Memref.whole cc1_scratch1)
  iframe H0 H1 H2 H3 H4 H5 H6 Hh Hd
  iintro ⟨H0, H1, H2, H3, H4, H5, H6, Hh, Hd⟩
  isplitl [Hh Hd Hr Hp]
  · iexists _, _; iframe; ipureintro; exact ⟨hH, hD⟩
  isplitl [Ho]; · iexact Ho
  isplitl [H0]; · iexists _; iframe; ipureintro; exact ⟨⟩
  isplitl [H1]; · iexists _; iframe; ipureintro; exact rfl
  isplitl [H2]; · iexists _; iframe; ipureintro; exact rfl
  isplitl [H3]; · iexists _; iframe; ipureintro; exact rfl
  isplitl [H4]; · iexists _; iframe; ipureintro; exact rfl
  isplitl [H5]; · iexists _; iframe; ipureintro; exact hV
  iexists _; iframe; ipureintro; exact hP

end Body

section Record

variable (S : ∀ c, Steps m P o c)

theorem scoped_owns (c : Dev nD) :
    (Pipeline.scopedRest (Ix := Unit) (Name := ℕ) (U := UU) (Lvl := ℕ) (Val := Elt F) spec1 c : sProp 𝕄)
      = iprop(((∃ X, owns (c : Thread nD τ) (Memref.whole cc1_scratch0) fullShare X) ∗ (∃ X, owns (c : Thread nD τ) (Memref.whole cc1_scratch1) fullShare X))
        ∗ Pipeline.scopedRestBut (Ix := Unit) (Name := ℕ) (U := UU) (Lvl := ℕ) (Val := Elt F) spec1 c [cc1_scratch0, cc1_scratch1]) := by
  rw [(Memref.isWhole_whole cc1_scratch0).exists_owns_eq (c := (c : Thread nD τ)) fullShare,
    (Memref.isWhole_whole cc1_scratch1).exists_owns_eq (c := (c : Thread nD τ)) fullShare]
  exact Pipeline.scopedRest_split_of_list spec1 c [cc1_scratch0, cc1_scratch1] (by decide) (by decide)

theorem outsWith_of_ne (c : Dev nD) (vv pp) {J : ℕ} (hJ : J ≠ 4) : outsWith o c vv pp J = o J := by
  unfold outsWith; exact Function.update_of_ne hJ _ _
theorem outsWith_v (c : Dev nD) (vv pp) : outsWith o c vv pp 4 main_v4_0 c = vv := by
  unfold outsWith
  rw [Function.update_self, Function.update_of_ne (by decide : main_v4_0 ≠ main_v4_1), Function.update_self, Function.update_self]
theorem outsWith_p (c : Dev nD) (vv pp) : outsWith o c vv pp 4 main_v4_1 c = pp := by
  unfold outsWith
  rw [Function.update_self, Function.update_self, Function.update_self]

theorem V3_outsWith (c : Dev nD) (vv pp) : V3 m (outsWith o c vv pp) c = V3 m o c := by
  unfold V3 V2
  rw [outsWith_of_ne o c vv pp (by decide : (2 : ℕ) ≠ 4)]

/-- Both predicates hold of anything at the first point. -/
theorem inv_in (c : Dev nD) (Fr : sProp 𝕄) :
    iprop((∃ r, prngReg c r) ∗ Fr ∗ Pipeline.scopedRest (Ix := Unit) (Name := ℕ) (U := UU) (Lvl := ℕ) (Val := Elt F) spec1 c)
      ⊢ inv1 c (S c).invH (S c).invD 0 := by
  unfold inv1
  rw [scoped_owns c]
  iintro ⟨Hp, -, ⟨⟨%h, Hh⟩, ⟨%d, Hd⟩⟩, Hr⟩
  iexists h, d
  iframe
  ipureintro; exact ⟨(S c).invH0 h, (S c).invD0 d⟩

theorem inv_out (c : Dev nD) (t : Fin (cfg1.N + 1)) :
    inv1 c (S c).invH (S c).invD t
      ⊢ iprop((∃ r, prngReg c r) ∗ emp ∗ Pipeline.scopedRest (Ix := Unit) (Name := ℕ) (U := UU) (Lvl := ℕ) (Val := Elt F) spec1 c) := by
  unfold inv1
  rw [scoped_owns c]
  iintro ⟨%h, %d, -, Hh, Hd, Hr, Hp⟩
  iframe Hp Hr
  isplitl [Hh]
  · iexists h; iexact Hh
  iexists d; iexact Hd

end Record

section Exit

variable (S : ∀ c, Steps m P o c)

theorem exit_arr (c : Dev nD) (A : (w : Fin cfg1.W) → Buf (Elt F) ((cfg1.win w).arr.view.loc (c : Thread nD τ)))
    (hA : ∀ w, (rdc m P o S c).ArrAt w cfg1.N (A w)) (w : Fin cfg1.W) :
    A w = V4 m (outsWith o c (A 5) (A 6)) c (Pipeline.arrRef spec1 w) := by
  have hin : ∀ w' : Fin cfg1.W, (cfg1.win w').isOut = false → A w' = V3 m o c (Pipeline.arrRef spec1 w') := fun w' hw' => by
    have h := hA w'
    rw [(rdc m P o S c).ArrAt_in w' hw'] at h
    exact h
  have hV4 : ∀ b : Ref sig .tc, b ∉ ([main_v4_0, main_v4_1] : List (Ref sig .tc)) →
      V4 m (outsWith o c (A 5) (A 6)) c b = V3 m o c b := fun b hb => by
    rw [V4_of m (outsWith o c (A 5) (A 6)) c b hb, V3_outsWith]
  match w with
  | ⟨0, _⟩ | ⟨1, _⟩ | ⟨2, _⟩ | ⟨3, _⟩ | ⟨4, _⟩ => exact (hin _ rfl).trans (hV4 _ (by decide +revert)).symm
  | ⟨5, _⟩ =>
    show A 5 = V4 m (outsWith o c (A 5) (A 6)) c main_v4_0
    unfold V4
    rw [Function.update_of_ne (StableHlo.devRef_ne_of_ne (by decide) : (Proc.devRef .tc main_v4_0 : DevRef τ sig) ≠ Proc.devRef .tc main_v4_1),
      Function.update_self, outsWith_v]
  | ⟨6, _⟩ =>
    show A 6 = V4 m (outsWith o c (A 5) (A 6)) c main_v4_1
    unfold V4
    rw [Function.update_self, outsWith_p]

theorem exit_rest (c : Dev nD) (vv pp) (b : Ref sig .tc) (hb : b ∉ Finset.univ.image (Pipeline.arrRef spec1)) :
    V4 m (outsWith o c vv pp) c b = V3 m o c b := by
  rw [V4_of m (outsWith o c vv pp) c b (fun h => hb ?_), V3_outsWith]
  rcases List.mem_cons.mp h with rfl | h
  · exact Finset.mem_image.mpr ⟨5, Finset.mem_univ _, rfl⟩
  · rcases List.mem_cons.mp h with rfl | h
    · exact Finset.mem_image.mpr ⟨6, Finset.mem_univ _, rfl⟩
    · exact absurd h (List.not_mem_nil)

set_option backward.isDefEq.respectTransparency.types false in
theorem exit_held (c : Dev nD) :
    iprop((rdc m P o S c).arraysAt cfg1.N
        ∗ Pipeline.unscopedRest (Ix := Unit) (Name := ℕ) (U := UU) (Lvl := ℕ) spec1 c (fun b => V3 m o c b))
      ⊢ iprop(∃ (vv : Buf (Elt F) ((c : Thread nD τ).loc main_v4_0)) (pp : Buf (Elt F) ((c : Thread nD τ).loc main_v4_1)),
          ⌜(rdc m P o S c).ArrAt 5 cfg1.N vv ∧ (rdc m P o S c).ArrAt 6 cfg1.N pp⌝
          ∗ StableHlo.held (c : Thread nD τ) (Pipeline.ucRefs τ sig) (V4 m (outsWith o c vv pp) c)) := by
  unfold RDat.arraysAt
  iintro ⟨Ha, Hrest⟩
  ihave Ha' := (BI.bigSep_exists_pi Finset.univ _) $$ Ha
  icases Ha' with ⟨%A, Ha⟩
  ihave Ha2 := (BI.bigSep_pure_sep Finset.univ _ _) $$ Ha
  icases Ha2 with ⟨%hA', Ha⟩
  have hA : ∀ w, (rdc m P o S c).ArrAt w cfg1.N (A w) := fun w => hA' w (Finset.mem_univ w)
  iexists (A 5), (A 6)
  isplitr; · ipureintro; exact ⟨hA 5, hA 6⟩
  rw [← Pipeline.unscopedBufs_held (Ix := Unit) (Name := ℕ) (U := UU) (Lvl := ℕ) c (V4 m (outsWith o c (A 5) (A 6)) c),
    Pipeline.unscopedBufs_split (Pipeline.pin (pcfgs (F := F)) adm) 1 launch1.win.arr_unscoped launch1.win.arr_inj c
      (fun b => V4 m (outsWith o c (A 5) (A 6)) c b)]
  have hw : ∀ w : Fin cfg1.W,
      ((cfg1.win w).arr.view.loc (c : Thread nD τ) ↦[(cfg1.win w).arr.view.set]{(rdc m P o S c).share w} A w : sProp 𝕄)
        = (((c : Thread nD τ).loc (Pipeline.arrRef spec1 w)) ↦{fullShare} V4 m (outsWith o c (A 5) (A 6)) c (Pipeline.arrRef spec1 w)) := fun w => by
    have e1 : (cfg1.win w).arr.view.set = Finset.univ := (launch1.arr_whole w).set_eq_univ
    have e2 : (rdc m P o S c).share w = fullShare := (rdc m P o S c).share_full (fun _ => rfl) w
    rw [e1, e2, ← exit_arr m P o S c A hA w]
  have hr : ∀ b : Ref sig .tc, b ∉ Finset.univ.image (Pipeline.arrRef spec1) →
      ((((c : Thread nD τ).loc b) ↦{fullShare} V3 m o c b) : sProp 𝕄)
        = (((c : Thread nD τ).loc b) ↦{fullShare} V4 m (outsWith o c (A 5) (A 6)) c b) := fun b hb => by
    rw [exit_rest m o c (A 5) (A 6) b hb]
  isplitl [Ha]
  · iapply (Entails.of_eq (bigSep_congr fun w _ => hw w)); iexact Ha
  · unfold Pipeline.unscopedRest
    iapply (Entails.of_eq (bigSep_congr fun b hb => hr b (Finset.mem_sdiff.mp hb).2)); iexact Hrest

end Exit

section TheRecord

variable (S : ∀ c, Steps m P o c)

set_option backward.isDefEq.respectTransparency.types false in
def R1 : Pipeline.RDat.RegionSeg (pcfgs (F := F)) adm (rd m P o S) () defs₀ 𝒱₀ L lv 1 where
  win := launch1.win.to₀
  block_pos := launch1.block_pos
  stage_whole := launch1.stage_whole
  K := PEmpty
  osem k := k.elim
  ho := Pipeline.OwnSemFacts.none _
  hbody c := body_obligation m P o S c
  hwaits := Pipeline.RDat.hwaits_of_owed_zero _ _ _ _ L lv 1 fun _ _ => rfl
  pre c := Between.T3 m o c
  post c := Between.T4 m P o c
  X c := iprop(∃ r, prngReg c r)
  Y c := iprop(∃ r, prngReg c r)
  Z c := Pipeline.unscopedRest (Ix := Unit) (Name := ℕ) (U := UU) (Lvl := ℕ) spec1 c (fun b => V3 m o c b)
  hentry c := by
    rw [Pipeline.ownSems0_none]
    have hsplit := Pipeline.RDat.arrays_of_unscopedBufs (p := 1) (pcfgs (F := F)) adm (rd m P o S) launch1.win launch1.arr_whole c
      ((rd m P o S 1 c).share_full fun _ => rfl) (fun b => V3 m o c b) fun _ => rfl
    rw [Pipeline.unscopedBufs_held] at hsplit
    iintro ⟨⟨Hub, Hp, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    unfold Pipeline.RDat.owesAt Pipeline.owesWithin
    icases HO with ⟨%W, HO⟩; iexists W; isplitr; · ipureintro; exact fun _ _ => Or.inl trivial
    iexact HO
  hin c := inv_in m P o S c _
  hout c := by rw [Pipeline.ownSems0_none]; exact inv_out m P o S c _
  hexit c := by
    show iprop((rdc m P o S c).arraysAt cfg1.N ∗ (rdc m P o S c).owesAt () (Fin.last cfg1.N) ∗ (∃ r, prngReg c r)
        ∗ Pipeline.unscopedRest (Ix := Unit) (Name := ℕ) (U := UU) (Lvl := ℕ) spec1 c (fun b => V3 m o c b))
      ⊢ |={Set.univ}=> Between.T4 m P o c
    iintro ⟨Ha, HO, HY, Hrest⟩
    ihave H := (exit_held m P o S c) $$ [Ha Hrest]
    · isplitl [Ha] <;> iassumption
    icases H with ⟨%vv, %pp, %hvp, Hh⟩
    imodintro
    iexists (outsWith o c vv pp)
    isplitr
    · ipureintro
      exact ⟨outsWith_of_ne o c vv pp (by decide), (S c).final vv pp hvp.1 hvp.2⟩
    isplitl [Hh]; · iexact Hh
    isplitl [HY]; · iexact HY
    unfold Pipeline.RDat.owesAt Pipeline.owesWithin
    icases HO with ⟨%W, -, HO⟩; iexists W; iexact HO

theorem R1_pre (c : Dev nD) : (R1 m P o S).pre c = Between.T3 m o c := rfl
theorem R1_post (c : Dev nD) : (R1 m P o S).post c = Between.T4 m P o c := rfl

end TheRecord

end Cert.Kernel.Region1

end
-- ==== Proof.K.Body2.lean ====
import proofs.«161930_g22909355557424_cont_8to1_1761_12_alg».proof.Proof.K.RegionFragment
import proofs.«161930_g22909355557424_cont_8to1_1761_12_alg».proof.Proof.Gen.Kernel.Skeleton
import Idealize.ShloMosaic.Lib.Pipeline.Value
import Idealize.ShloMosaic.Lib.Tactic

noncomputable section

namespace Cert.Kernel.Body2

open Cert.Kernel Cert.Kernel.Gen Cert.Kernel.Frag
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem cond1_iff : ∀ i : grid2.Coords, k2_cond1 i = 1#1 ↔ (i 1).val = 0 := by decide +kernel
theorem cond2_iff : ∀ i : grid2.Coords, k2_cond2 i = 1#1 ↔ ((i 0).val < (i 1).val ∧ (i 1).val < 7) := by decide +kernel
theorem cond3_iff : ∀ i : grid2.Coords, k2_cond3 i = 1#1 ↔ ((i 0).val < (i 1).val ∧ (i 1).val = 7) := by decide +kernel

-- At most one of the three conditions holds at a point.
theorem kinds (i : grid2.Coords) :
    (k2_cond1 i = 1#1 ∧ ¬ k2_cond2 i = 1#1 ∧ ¬ k2_cond3 i = 1#1) ∨ (¬ k2_cond1 i = 1#1 ∧ k2_cond2 i = 1#1 ∧ ¬ k2_cond3 i = 1#1)
      ∨ (¬ k2_cond1 i = 1#1 ∧ ¬ k2_cond2 i = 1#1 ∧ k2_cond3 i = 1#1) ∨ (¬ k2_cond1 i = 1#1 ∧ ¬ k2_cond2 i = 1#1 ∧ ¬ k2_cond3 i = 1#1) := by
  rw [cond1_iff, cond2_iff, cond3_iff]; omega

theorem off_zero : (![0, 0] : Fin 2 → Nat) = fun _ => 0 := by
  funext a; fin_cases a <;> rfl

section Whole
variable {sg : RefSig} {κ : Kind} {sp : Space} {S : Shape} {e : EltTy}

theorem load_whole (v : View sg κ sp S e) (f : v.ty.Contents (Elt F)) {off : Fin S.rank → Nat} (h : off = fun _ => 0)
    (inb : ∀ a, off a + S.size a ≤ S.size a) :
    v.readAt (Elt F) (Rect.unit off S.size inb).toLoadRect f = v.read (Elt F) f :=
  (View.readAt_eq_ld v f _).trans (View.ld_unit_zero h inb _)

theorem read_store_whole (v : View sg κ sp S e) (f : v.ty.Contents (Elt F)) {off : Fin S.rank → Nat} (h : off = fun _ => 0)
    (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon v f _ (fun y => ⟨_, List.mem_singleton_self _, View.mem_set_unit_zero h inb y⟩),
    View.canon_unit_zero h]

end Whole

-- What the body leaves in the output block: a copy of the partial result's block, the block plus adjacency times vector, or the block as found.
def newO (i : grid2.Coords) (X : Vec F S1280x1280 .f32) (Vb Pb Ob : Vec F S1280x1 .f32) : Vec F S1280x1 .f32 :=
  if k2_cond1 i = 1#1 then k2_pay1 Pb else if k2_cond2 i = 1#1 then k2_pay2 X Ob Vb
  else if k2_cond3 i = 1#1 then k2_pay3 X Ob Vb else Ob

set_option maxHeartbeats 1000000 in
theorem run (c : Dev nD) (E : Set ℕ) (i : grid2.Coords)
    (arg2 : Memref sig .tc .vmem S1280x1280 .f32) (harg2 : arg2.IsWhole) (arg3 : Memref sig .tc .vmem S1280x1 .f32) (harg3 : arg3.IsWhole)
    (arg4 : Memref sig .tc .vmem S1280x1 .f32) (harg4 : arg4.IsWhole) (arg5 : Memref sig .tc .vmem S1280x1 .f32) (harg5 : arg5.IsWhole)
    (X : Vec F S1280x1280 .f32) (Vb Pb Ob : Vec F S1280x1 .f32) (K : PUnit → sProp 𝕄) :
    iprop(owns (c : Thread nD τ) arg2 fullShare X ∗ owns (c : Thread nD τ) arg3 fullShare Vb ∗ owns (c : Thread nD τ) arg4 fullShare Pb
        ∗ owns (c : Thread nD τ) arg5 fullShare Ob
        ∗ (iprop(owns (c : Thread nD τ) arg2 fullShare X ∗ owns (c : Thread nD τ) arg3 fullShare Vb ∗ owns (c : Thread nD τ) arg4 fullShare Pb
            ∗ owns (c : Thread nD τ) arg5 fullShare (newO i X Vb Pb Ob)) -∗ K ⟨⟩))
      ⊢ wp frame (wpE (defs₀ (F := F)) Variants.none (c : Thread nD τ) none) E (cc2_body i arg2 harg2 arg3 harg3 arg4 harg4 arg5 harg5) K := by
  simp only [cc2_body_eq_skeleton]; unfold cc2_body_skel owns
  iintro ⟨⟨%f2, %hf2, H2⟩, ⟨%f3, %hf3, H3⟩, ⟨%f4, %hf4, H4⟩, ⟨%f5, %hf5, H5⟩, Hk⟩
  subst hf2 hf3 hf4 hf5
  rcases kinds i with ⟨hc1, hc2, hc3⟩ | ⟨hc1, hc2, hc3⟩ | ⟨hc1, hc2, hc3⟩ | ⟨hc1, hc2, hc3⟩ <;>
  · sl_exec
    sl_step
    iapply Hk
    isplitl [H2]; · iexists f2; isplitr; · ipureintro; rfl
                    iexact H2
    isplitl [H3]; · iexists f3; isplitr; · ipureintro; rfl
                    iexact H3
    isplitl [H4]; · iexists f4; isplitr; · ipureintro; rfl
                    iexact H4
    iexists _; isplitr
    swap; · iexact H5
    ipureintro
    simp only [newO, hc1, hc2, hc3, ↓reduceIte, read_store_whole arg5.view _ off_zero, load_whole arg2.view _ off_zero,
      load_whole arg3.view _ off_zero, load_whole arg4.view _ off_zero, load_whole arg5.view _ off_zero]

end Cert.Kernel.Body2

end
-- ==== Proof.K.Region2.lean ====
import proofs.«161930_g22909355557424_cont_8to1_1761_12_alg».proof.Proof.K.Between
import proofs.«161930_g22909355557424_cont_8to1_1761_12_alg».proof.Proof.K.Body2
import proofs.«161930_g22909355557424_cont_8to1_1761_12_alg».proof.Proof.Gen.Kernel.Launch
import proofs.«161930_g22909355557424_cont_8to1_1761_12_alg».proof.Proof.Gen.Kernel.Points
import proofs.«161930_g22909355557424_cont_8to1_1761_12_alg».proof.Proof.Gen.Kernel.Skeleton
import Idealize.ShloMosaic.Lib.Pipeline.Frame
import Idealize.ShloMosaic.Lib.Pipeline.Regions
import Idealize.ShloMosaic.Lib.Pipeline.FrameBody
import Idealize.ShloMosaic.Lib.Tactic

noncomputable section

namespace Cert.Kernel.Region2

open Cert.Kernel Cert.Kernel.Gen Cert.Kernel.Frag
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig Unit (Elt F) ℕ UU ℕ

variable (m : (ℓ : Loc nD τ sig) → Buf (Elt F) ℓ)

abbrev Vin (o : Outs (F := F)) (c : Dev nD) : (b : Ref sig .tc) → Buf (Elt F) ((c : Thread nD τ).loc b) := fun b => V4 m o c b

def dat (o : Outs (F := F)) (c : Dev nD) (relO : Fin cfg2.N → (Y X : Vec F S1280x1 .f32) → Prop) :
    RDat τ (Elt F) Unit ℕ UU ℕ cfg2 c where
  A w := Vin m o c (Pipeline.arrRef spec2 w)
  after w t := match w with
    | ⟨0, _⟩ => fun Y X => X = Y
    | ⟨1, _⟩ => fun Y X => X = Y
    | ⟨2, _⟩ => fun Y X => X = Y
    | ⟨3, _⟩ => fun Y X => relO t Y X
  Φ _ := Pipeline.ΦA spec2 c
  q _ := fullShare
  owed _ := 0

section Dat
variable (o : Outs (F := F)) (c : Dev nD) (relO : Fin cfg2.N → (Y X : Vec F S1280x1 .f32) → Prop)

theorem dat_A (w : Fin cfg2.W) : (dat m o c relO).A w = Vin m o c (Pipeline.arrRef spec2 w) := by dsimp only [dat]
theorem after_0 (t : Fin cfg2.N) : (dat m o c relO).after 0 t = fun Y X => X = Y := by dsimp only [dat]
theorem after_1 (t : Fin cfg2.N) : (dat m o c relO).after 1 t = fun Y X => X = Y := by dsimp only [dat]
theorem after_2 (t : Fin cfg2.N) : (dat m o c relO).after 2 t = fun Y X => X = Y := by dsimp only [dat]
theorem after_3 (t : Fin cfg2.N) : (dat m o c relO).after 3 t = fun Y X => relO t Y X := by dsimp only [dat]; rfl

end Dat

def adjAt (o : Outs (F := F)) (c : Dev nD) (t : Fin cfg2.N) (d : Vec F S1280x1280 .f32) : Vec F S1280x1280 .f32 :=
  (dat m o c fun _ _ _ => True).fetched 0 t d

def vAt (o : Outs (F := F)) (c : Dev nD) (t : Fin cfg2.N) : Vec F S1280x1 .f32 :=
  (dat m o c fun _ _ _ => True).blockOf 1 t

def pAt (o : Outs (F := F)) (c : Dev nD) (t : Fin cfg2.N) : Vec F S1280x1 .f32 :=
  (dat m o c fun _ _ _ => True).blockOf 2 t

section Finds
variable (o : Outs (F := F)) (c : Dev nD) (relO : Fin cfg2.N → (Y X : Vec F S1280x1 .f32) → Prop)

theorem finds_0 (t : Fin cfg2.N) (X : Vec F S1280x1280 .f32) (h : (dat m o c relO).Finds 0 t X) : ∃ d, X = adjAt m o c t d :=
  Pipeline.RDat.finds_in_eq_fetched (dat m o c relO) 0 rfl
    (fun t t' h => by
      funext a
      show Pipeline.Clip.of (cc2_transform_0 (grid2.coords t) a) _ _ = Pipeline.Clip.of (cc2_transform_0 (grid2.coords t') a) _ _
      rw [show cc2_transform_0 (grid2.coords t) = cc2_transform_0 (grid2.coords t') from h])
    (fun t Y X h => by rw [after_0] at h; exact h) t X h

theorem finds_1 (t : Fin cfg2.N) (X : Vec F S1280x1 .f32) (h : (dat m o c relO).Finds 1 t X) : X = vAt m o c t := by
  obtain ⟨d, hd⟩ := Pipeline.RDat.finds_in_eq_fetched (dat m o c relO) 1 rfl (fun _ _ _ => rfl)
    (fun t Y X h => by rw [after_1] at h; exact h) t X h
  exact hd

theorem finds_2 (t : Fin cfg2.N) (X : Vec F S1280x1 .f32) (h : (dat m o c relO).Finds 2 t X) : X = pAt m o c t := by
  obtain ⟨d, hd⟩ := Pipeline.RDat.finds_in_eq_fetched (dat m o c relO) 2 rfl (fun _ _ _ => rfl)
    (fun t Y X h => by rw [after_2] at h; exact h) t X h
  exact hd

end Finds

structure Steps (P : Between.Leaves (F := F) m) (o : Outs (F := F)) (c : Dev nD) where
  relO : Fin cfg2.N → (Y X : Vec F S1280x1 .f32) → Prop
  stepZ : ∀ (t : Fin cfg2.N), ((grid2.coords t) 1).val = 0 → ∀ (d : Vec F S1280x1280 .f32) (Y : Vec F S1280x1 .f32),
    relO t Y (k2_pay1 (pAt m o c t))
  stepU : ∀ (t : Fin cfg2.N), ((grid2.coords t) 0).val < ((grid2.coords t) 1).val → ((grid2.coords t) 1).val < 7 →
    ∀ (d : Vec F S1280x1280 .f32) (Y : Vec F S1280x1 .f32),
    relO t Y (k2_pay2 (adjAt m o c t d) Y (vAt m o c t))
  stepW : ∀ (t : Fin cfg2.N), ((grid2.coords t) 0).val < ((grid2.coords t) 1).val → ((grid2.coords t) 1).val = 7 →
    ∀ (d : Vec F S1280x1280 .f32) (Y : Vec F S1280x1 .f32),
    relO t Y (k2_pay3 (adjAt m o c t d) Y (vAt m o c t))
  stepN : ∀ (t : Fin cfg2.N), 0 < ((grid2.coords t) 1).val → ((grid2.coords t) 1).val ≤ ((grid2.coords t) 0).val →
    ∀ (Y : Vec F S1280x1 .f32), relO t Y Y
  final : ∀ (oo : Buf (Elt F) ((c : Thread nD τ).loc main_v5)), (dat m o c relO).ArrAt 3 cfg2.N oo →
    ∀ o' : Outs (F := F), o' 2 = o 2 → o' 4 = o 4 → o' 5 main_v5 c = oo → P.after2 o' c

def Steps.trivial (o : Outs (F := F)) (c : Dev nD) : Steps m (Between.Leaves.nothing m) o c where
  relO _ _ _ := True
  stepZ _ _ _ _ := True.intro
  stepU _ _ _ _ _ := True.intro
  stepW _ _ _ _ _ := True.intro
  stepN _ _ _ _ := True.intro
  final _ _ _ _ _ _ := True.intro

section Body
variable {P : Between.Leaves (F := F) m} {o : Outs (F := F)} {c : Dev nD} (S : Steps m P o c)

-- The four facts asked of the relation, as one: it holds of what the body leaves at any point.
theorem Steps.rel (t : Fin cfg2.N) (d : Vec F S1280x1280 .f32) (Y : Vec F S1280x1 .f32) :
    S.relO t Y (Body2.newO (grid2.coords t) (adjAt m o c t d) (vAt m o c t) (pAt m o c t) Y) := by
  unfold Body2.newO
  split_ifs with h1 h2 h3
  · exact S.stepZ t ((Body2.cond1_iff _).1 h1) d Y
  · exact S.stepU t ((Body2.cond2_iff _).1 h2).1 ((Body2.cond2_iff _).1 h2).2 d Y
  · exact S.stepW t ((Body2.cond3_iff _).1 h3).1 ((Body2.cond3_iff _).1 h3).2 d Y
  · rw [Body2.cond1_iff] at h1; rw [Body2.cond2_iff] at h2; rw [Body2.cond3_iff] at h3
    have := ((grid2.coords t) 1).isLt
    have hb : grid2.bound 1 = 8 := rfl
    exact S.stepN t (by omega) (by omega) Y

theorem body_obligation : (dat m o c S.relO).BodyObligation (defs₀ (F := F)) Variants.none () Set.univ := fun t Y hY => by
  obtain ⟨d, h0⟩ := finds_0 m o c S.relO t (Y 0) (hY 0)
  have h1 := finds_1 m o c S.relO t (Y 1) (hY 1)
  have h2 := finds_2 m o c S.relO t (Y 2) (hY 2)
  rw [bigSep_W2, bigSep_W2, h0, h1, h2, after_0, after_1, after_2, after_3,
    show (dat m o c S.relO).Φ t.succ = (dat m o c S.relO).Φ t.castSucc from rfl,
    show (dat m o c S.relO).owesAt () t.succ = (dat m o c S.relO).owesAt () t.castSucc from rfl]
  show _ ⊢ wp _ _ _ (bodyAt2 t) _
  iintro ⟨HΦ, Ho, H0, H1, H2, H3⟩
  iapply (Body2.run c Set.univ (grid2.coords t) _ _ _ _ _ _ _ _ (adjAt m o c t d) (vAt m o c t) (pAt m o c t) (Y 3) _)
  iframe H0 H1 H2 H3
  iintro ⟨H0, H1, H2, H3⟩
  iframe HΦ Ho
  isplitl [H0]; · iexists _; isplitr; · ipureintro; rfl
                  iexact H0
  isplitl [H1]; · iexists _; isplitr; · ipureintro; rfl
                  iexact H1
  isplitl [H2]; · iexists _; isplitr; · ipureintro; rfl
                  iexact H2
  iexists _; isplitr; · ipureintro; exact S.rel m t d (Y 3)
  iexact H3

end Body

def withOut (o : Outs (F := F)) (c : Dev nD) (oo : Buf (Elt F) ((c : Thread nD τ).loc main_v5)) : Outs (F := F) :=
  fun j r c' => if h : j = 5 ∧ r = main_v5 ∧ c' = c then cast (by rw [h.2.1, h.2.2]) oo else o j r c'

theorem withOut_five (o : Outs (F := F)) (c : Dev nD) (oo : Buf (Elt F) ((c : Thread nD τ).loc main_v5)) :
    withOut o c oo 5 main_v5 c = oo := by
  unfold withOut; rw [dif_pos ⟨rfl, rfl, rfl⟩]; rfl

theorem withOut_of_ne (o : Outs (F := F)) (c : Dev nD) (oo : Buf (Elt F) ((c : Thread nD τ).loc main_v5)) {j : ℕ} (hj : j ≠ 5) :
    withOut o c oo j = o j := by
  funext r c'; unfold withOut; rw [dif_neg fun h => hj h.1]

theorem V4_congr (o o' : Outs (F := F)) (h2 : o' 2 = o 2) (h4 : o' 4 = o 4) (c : Dev nD) : V4 m o' c = V4 m o c := by
  simp only [V4, V3, V2, h2, h4]

section Exit
variable (o : Outs (F := F)) (c : Dev nD) (oo : Buf (Elt F) ((c : Thread nD τ).loc main_v5))

theorem V5_withOut_self : V5 m (withOut o c oo) c main_v5 = oo := by
  simp only [V5, Function.update_self, withOut_five]

theorem V5_withOut_of_ne (b : Ref sig .tc) (hb : b ≠ main_v5) : V5 m (withOut o c oo) c b = V4 m o c b := by
  simp only [V5, Function.update_of_ne (StableHlo.devRef_ne_of_ne hb : (Proc.devRef .tc b : DevRef τ sig) ≠ Proc.devRef .tc main_v5)]
  rw [V4_congr m o (withOut o c oo) (withOut_of_ne o c oo (by decide)) (withOut_of_ne o c oo (by decide)) c]

end Exit

theorem bufs_of_arrays (c : Dev nD) (V V' : (b : Ref sig .tc) → Buf (Elt F) ((c : Thread nD τ).loc b))
    (A : (w : Fin cfg2.W) → Buf (Elt F) ((c : Thread nD τ).loc (Pipeline.arrRef spec2 w)))
    (hA : ∀ w, A w = V' (Pipeline.arrRef spec2 w))
    (hrest : ∀ b, b ∉ Finset.univ.image (Pipeline.arrRef spec2) → V' b = V b) :
    iprop((bigSep Finset.univ fun w : Fin cfg2.W => (((c : Thread nD τ).loc (Pipeline.arrRef spec2 w)) ↦{fullShare} A w : sProp 𝕄))
        ∗ Pipeline.unscopedRest (Ix := Unit) (Name := ℕ) (U := UU) (Lvl := ℕ) spec2 c V)
      ⊢ (unscopedBufs (Ix := Unit) (Name := ℕ) (U := UU) (Lvl := ℕ) c V' : sProp 𝕄) := by
  rw [Pipeline.unscopedBufs_split cfgs 2 launch2.win.arr_unscoped launch2.win.arr_inj c V']
  refine sep_mono (Entails.of_eq (bigSep_congr fun w _ => by rw [hA]; rfl)) (Entails.of_eq ?_)
  unfold Pipeline.unscopedRest
  exact bigSep_congr fun b hb => by rw [hrest b (Finset.mem_sdiff.mp hb).2]

theorem exit_bufs (o : Outs (F := F)) (c : Dev nD) (relO : Fin cfg2.N → (Y X : Vec F S1280x1 .f32) → Prop) :
    iprop((dat m o c relO).arraysAt cfg2.N ∗ Pipeline.unscopedRest (Ix := Unit) (Name := ℕ) (U := UU) (Lvl := ℕ) spec2 c (Vin m o c))
      ⊢ (iprop(∃ oo, ⌜(dat m o c relO).ArrAt 3 cfg2.N oo⌝
          ∗ StableHlo.held (c : Thread nD τ) (Pipeline.ucRefs τ sig) (V5 m (withOut o c oo) c)) : sProp 𝕄) := by
  unfold RDat.arraysAt
  iintro ⟨Ha, Hrest⟩
  ihave Ha' := (BI.bigSep_exists_pi Finset.univ (fun w F => iprop(⌜(dat m o c relO).ArrAt w cfg2.N F⌝
      ∗ (cfg2.win w).arr.view.loc (c.tc : Thread nD τ) ↦[(cfg2.win w).arr.view.set]{(dat m o c relO).share w} F))) $$ Ha
  icases Ha' with ⟨%A, Ha⟩
  ihave Ha2 := (BI.bigSep_pure_sep Finset.univ (fun w => (dat m o c relO).ArrAt w cfg2.N (A w))
      (fun w => (cfg2.win w).arr.view.loc (c.tc : Thread nD τ) ↦[(cfg2.win w).arr.view.set]{(dat m o c relO).share w} A w)) $$ Ha
  icases Ha2 with ⟨%hA', Ha⟩
  have hA : ∀ w, (dat m o c relO).ArrAt w cfg2.N (A w) := fun w => hA' w (Finset.mem_univ w)
  have hin : ∀ w : Fin cfg2.W, (cfg2.win w).isOut = false → A w = Vin m o c (Pipeline.arrRef spec2 w) := fun w hw => by
    have := hA w; rw [(dat m o c relO).ArrAt_in w hw] at this; rw [this, dat_A]

  have hAw : ∀ w : Fin cfg2.W, A w = (fun b => V5 m (withOut o c (A 3)) c b : (b : Ref sig .tc) → Buf (Elt F) ((c : Thread nD τ).loc b)) (Pipeline.arrRef spec2 w) := fun w =>
    match w with
    | ⟨0, _⟩ => (hin 0 rfl).trans (V5_withOut_of_ne m o c (A 3) main_arg0 (by decide)).symm
    | ⟨1, _⟩ => (hin 1 rfl).trans (V5_withOut_of_ne m o c (A 3) main_v4_0 (by decide)).symm
    | ⟨2, _⟩ => (hin 2 rfl).trans (V5_withOut_of_ne m o c (A 3) main_v4_1 (by decide)).symm
    | ⟨3, _⟩ => (V5_withOut_self m o c (A 3)).symm
  have hrest : ∀ b, b ∉ Finset.univ.image (Pipeline.arrRef spec2) →
      (fun b => V5 m (withOut o c (A 3)) c b : (b : Ref sig .tc) → Buf (Elt F) ((c : Thread nD τ).loc b)) b = Vin m o c b := fun b hb =>
    V5_withOut_of_ne m o c (A 3) b fun e => hb (Finset.mem_image.mpr ⟨3, Finset.mem_univ _, e.symm⟩)
  have hjoin := bufs_of_arrays c (Vin m o c) (fun b => V5 m (withOut o c (A 3)) c b) A hAw hrest
  rw [Pipeline.unscopedBufs_held] at hjoin
  iexists (A 3); isplitr; · ipureintro; exact hA 3
  iapply hjoin
  iframe Hrest
  · iapply (Entails.of_eq (bigSep_congr (fun w _ => by
        have hs : (cfg2.win w).arr.view.set = Finset.univ := (arr_whole2 w).set_eq_univ
        rw [hs, (dat m o c relO).share_full (fun _ => rfl) w]) :
      (bigSep Finset.univ fun w => ((cfg2.win w).arr.view.loc (c.tc : Thread nD τ) ↦[(cfg2.win w).arr.view.set]{(dat m o c relO).share w} A w : sProp 𝕄))
        = bigSep Finset.univ fun w => (((c.tc : Thread nD τ).loc (Pipeline.arrRef spec2 w)) ↦{fullShare} A w : sProp 𝕄)))
    iexact Ha

section Final
variable (o : Outs (F := F)) (c : Dev nD) (relO : Fin cfg2.N → (Y X : Vec F S1280x1 .f32) → Prop)

def pt (ib : Fin 8) (k : Nat) (hk : k < 8) : Fin cfg2.N :=
  ⟨8 * ib.val + k, by have := ib.isLt; rw [show cfg2.N = 64 from N_2]; omega⟩

abbrev rowEnd (ib : Fin 8) : Fin cfg2.N := pt ib 7 (by decide)

-- What the body leaves at point k of a block row ends a chain of the relation along the row's points 0 … k, begun at arbitrary contents.
theorem row_chain (ib : Fin 8) : ∀ (k : Nat) (hk : k < 8) (X : Vec F S1280x1 .f32), (dat m o c relO).Leaves 3 (pt ib k hk) X →
    ∃ Z : Nat → Vec F S1280x1 .f32, Z (k + 1) = X ∧ ∀ (j : Nat) (hj : j ≤ k), relO (pt ib j (by omega)) (Z j) (Z (j + 1))
  | 0, hk, X, h => by
    obtain ⟨Y, -, hR⟩ := h
    rw [after_3] at hR
    refine ⟨fun j => if j = 0 then Y else X, by simp, fun j hj => ?_⟩
    obtain rfl : j = 0 := Nat.le_zero.mp hj
    simpa using hR
  | k + 1, hk, X, h => by
    obtain ⟨Y, hY, hR⟩ := h
    rw [after_3] at hR
    rw [(dat m o c relO).finds_of_pos (t := pt ib (k + 1) hk) (Pipeline.Window.fetch_out _ rfl _)
      (by show 8 * ib.val + (k + 1) ≠ 0; omega)] at hY
    have hY' := hY.resolve_left fun hfl => absurd ((flush2_3 _).mp hfl) (by show ¬ (8 * ib.val + (k + 1) - 1) % 8 = 7; omega)
    rw [show (⟨(pt ib (k + 1) hk).val - 1, Nat.lt_of_le_of_lt (Nat.sub_le _ _) (pt ib (k + 1) hk).isLt⟩ : Fin cfg2.N) = pt ib k (by omega) from
      Fin.ext (by show 8 * ib.val + (k + 1) - 1 = 8 * ib.val + k; omega)] at hY'
    obtain ⟨Z, hZ, hch⟩ := row_chain ib k (by omega) Y hY'
    refine ⟨Function.update Z (k + 2) X, Function.update_self _ _ _, fun j hj => ?_⟩
    rcases Nat.lt_or_ge j (k + 1) with hlt | hge
    · rw [Function.update_of_ne (by omega), Function.update_of_ne (by omega)]
      exact hch j (by omega)
    · obtain rfl : j = k + 1 := by omega
      rw [Function.update_of_ne (by omega), Function.update_self, hZ]
      exact hR

theorem index3_ne : ∀ (ib : Fin 8) (n : Fin grid2.N), 8 * ib.val + 7 < n.val → n.val % 8 = 7 →
    win2_3.index (rowEnd ib) ≠ win2_3.index n := by
  decide +kernel

theorem arrAt_rows_aux : ∀ (n : Nat), n ≤ cfg2.N → ∀ G, (dat m o c relO).ArrAt 3 n G →
    ∀ ib : Fin 8, 8 * ib.val + 7 < n →
      (dat m o c relO).Leaves 3 (rowEnd ib) (((cfg2.win 3).blk (rowEnd ib)).view.read (Elt F) G)
  | 0, _, _, _, ib, h => absurd h (Nat.not_lt_zero _)
  | n + 1, hn, G, hG, ib, hib => by
    have hlt : n < cfg2.N := hn
    have hG' := (congrFun ((dat m o c relO).ArrAt_succ 3 ⟨n, hlt⟩) G).mp hG
    by_cases hfl : (cfg2.win 3).flush ⟨n, hlt⟩ = true
    · rw [if_pos hfl] at hG'
      obtain ⟨G₀, X, hG₀, hX, rfl⟩ := hG'
      have h7 : n % 8 = 7 := (flush2_3 ⟨n, hlt⟩).mp hfl
      by_cases he : 8 * ib.val + 7 = n
      · have e : rowEnd ib = ⟨n, hlt⟩ := Fin.ext he
        rw [e, View.read_write_univ]
        exact hX
      · have hlt' : 8 * ib.val + 7 < n := by omega
        have hdis := Pipeline.Window.disjoint_blk (cfg2.win 3) (index3_ne ib ⟨n, hlt⟩ hlt' h7)
        rw [show ((cfg2.win 3).blk (rowEnd ib)).view.read (Elt F)
              (((cfg2.win 3).blk ⟨n, hlt⟩).view.write (Elt F) G₀ ((cfg2.win 3).cut (cfg2.grid.coords ⟨n, hlt⟩) X) Finset.univ)
            = ((cfg2.win 3).blk (rowEnd ib)).view.read (Elt F) G₀ from
          View.read_congr fun i hi => View.write_of_not_mem _ _ _ (Finset.disjoint_left.mp hdis hi)]
        exact arrAt_rows_aux n (Nat.le_of_lt hlt) G₀ hG₀ ib hlt'
    · rw [if_neg hfl] at hG'
      have h7 : ¬ n % 8 = 7 := fun h => hfl ((flush2_3 ⟨n, hlt⟩).mpr h)
      exact arrAt_rows_aux n (Nat.le_of_lt hlt) G hG' ib (by omega)

theorem arrAt_rows (oo : Buf (Elt F) ((c : Thread nD τ).loc main_v5)) (h : (dat m o c relO).ArrAt 3 cfg2.N oo) (ib : Fin 8) :
    (dat m o c relO).Leaves 3 (rowEnd ib) (((cfg2.win 3).blk (rowEnd ib)).view.read (Elt F) oo) :=
  arrAt_rows_aux m o c relO cfg2.N (Nat.le_refl _) oo h ib (by have := ib.isLt; rw [show cfg2.N = 64 from N_2]; omega)

theorem arrAt_row_chain (oo : Buf (Elt F) ((c : Thread nD τ).loc main_v5)) (h : (dat m o c relO).ArrAt 3 cfg2.N oo) (ib : Fin 8) :
    ∃ Z : Nat → Vec F S1280x1 .f32, Z 8 = ((cfg2.win 3).blk (rowEnd ib)).view.read (Elt F) oo
      ∧ ∀ (j : Nat) (hj : j ≤ 7), relO (pt ib j (by omega)) (Z j) (Z (j + 1)) :=
  row_chain m o c relO ib 7 (by decide) _ (arrAt_rows m o c relO oo h ib)

end Final

def rd (P : Between.Leaves (F := F) m) (o : Outs (F := F)) (S : ∀ c, Steps m P o c) :
    (p : Fin 3) → (c : Dev nD) → RDat τ (Elt F) Unit ℕ UU ℕ (Pipeline.pin (pcfgs (F := F)) adm p) c
  | ⟨0, _⟩ => fun c => { A := fun w => Vin m o c (Pipeline.arrRef spec0 w), after := fun _ _ _ _ => True, Φ := fun _ => iprop(emp), q := fun _ => fullShare, owed := fun _ => 0 }
  | ⟨1, _⟩ => fun c => { A := fun w => Vin m o c (Pipeline.arrRef spec1 w), after := fun _ _ _ _ => True, Φ := fun _ => iprop(emp), q := fun _ => fullShare, owed := fun _ => 0 }
  | ⟨2, _⟩ => fun c => dat m o c (S c).relO

set_option backward.isDefEq.respectTransparency.types false in
def R2 (P : Between.Leaves (F := F) m) (o : Outs (F := F)) (S : ∀ c, Steps m P o c) :
    Pipeline.RDat.RegionSeg (pcfgs (F := F)) adm (rd m P o S) () defs₀ 𝒱₀ L lv 2 where
  win := launch2.win.to₀
  block_pos := launch2.block_pos
  stage_whole := launch2.stage_whole
  K := PEmpty
  osem k := k.elim
  ho := Pipeline.OwnSemFacts.none _
  hbody c := body_obligation m (S c)
  hwaits := Pipeline.RDat.hwaits_of_owed_zero _ _ _ _ L lv 2 fun _ _ => rfl
  pre c := Between.T4at m o c
  post c := Between.T5 m P o c
  X c := iprop(∃ r, prngReg c r)
  Y c := iprop(∃ r, prngReg c r)
  Z c := Pipeline.unscopedRest (Ix := Unit) (Name := ℕ) (U := UU) (Lvl := ℕ) spec2 c (Vin m o c)
  hentry c := by
    rw [Pipeline.ownSems0_none]
    have hsplit := Pipeline.RDat.arrays_of_unscopedBufs (p := 2) (pcfgs (F := F)) adm (rd m P o S) launch2.win launch2.arr_whole c
      ((rd m P o S 2 c).share_full fun _ => rfl) (Vin m o c) fun _ => rfl
    rw [Pipeline.unscopedBufs_held] at hsplit
    iintro ⟨⟨Hub, Hp, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    unfold Pipeline.RDat.owesAt Pipeline.owesWithin
    icases HO with ⟨%W, HO⟩; iexists W; isplitr; · ipureintro; exact fun _ _ => Or.inl trivial
    iexact HO
  hin c := by
    rw [show (rd m P o S 2 c).Φ 0 = Pipeline.ΦA spec2 c from rfl]; unfold Pipeline.ΦA
    iintro ⟨Hp, -, Hr⟩
    iframe
  hout c := by
    rw [Pipeline.ownSems0_none, show (rd m P o S 2 c).Φ (Fin.last _) = Pipeline.ΦA spec2 c from rfl]; unfold Pipeline.ΦA
    iintro ⟨Hr, Hp⟩
    iframe
    iempintro
  hexit c := by
    have hx : iprop((rd m P o S 2 c).arraysAt (Pipeline.pin (pcfgs (F := F)) adm 2).N
          ∗ Pipeline.unscopedRest (Ix := Unit) (Name := ℕ) (U := UU) (Lvl := ℕ) spec2 c (Vin m o c))
        ⊢ (iprop(∃ oo, ⌜(dat m o c (S c).relO).ArrAt 3 cfg2.N oo⌝
            ∗ StableHlo.held (c : Thread nD τ) (Pipeline.ucRefs τ sig) (V5 m (withOut o c oo) c)) : sProp 𝕄) :=
      exit_bufs m o c (S c).relO
    iintro ⟨Ha, HO, HY, Hrest⟩
    ihave H := hx $$ [Ha Hrest]
    · iframe
    icases H with ⟨%oo, %hoo, Hh⟩
    imodintro
    iexists (withOut o c oo)
    isplitr
    · ipureintro
      exact ⟨withOut_of_ne o c oo (by decide), withOut_of_ne o c oo (by decide),
        (S c).final oo hoo _ (withOut_of_ne o c oo (by decide)) (withOut_of_ne o c oo (by decide)) (withOut_five o c oo)⟩
    isplitl [Hh]; · iexact Hh
    isplitl [HY]; · iexact HY
    unfold Pipeline.RDat.owesAt Pipeline.owesWithin
    icases HO with ⟨%W, -, HO⟩; iexists W; iexact HO

theorem R2_pre (P : Between.Leaves (F := F) m) (o : Outs (F := F)) (S : ∀ c, Steps m P o c) (c : Dev nD) :
    (R2 m P o S).pre c = Between.T4at m o c := rfl
theorem R2_post (P : Between.Leaves (F := F) m) (o : Outs (F := F)) (S : ∀ c, Steps m P o c) (c : Dev nD) :
    (R2 m P o S).post c = Between.T5 m P o c := rfl

end Cert.Kernel.Region2

end
-- ==== Proof.K.Frames.lean ====
import proofs.«161930_g22909355557424_cont_8to1_1761_12_alg».proof.Proof.K.Whole
import proofs.«161930_g22909355557424_cont_8to1_1761_12_alg».proof.Proof.K.Region0
import proofs.«161930_g22909355557424_cont_8to1_1761_12_alg».proof.Proof.K.Region1
import proofs.«161930_g22909355557424_cont_8to1_1761_12_alg».proof.Proof.K.Region2

noncomputable section

namespace Cert.Kernel.Frames

open Cert.Kernel Cert.Kernel.Gen Cert.Kernel.Frag Cert.Kernel.Between
open Idealize.ShloMosaic Idealize.ShloMosaic.TcCoe
open Idealize.SL Idealize.SL.RA Idealize.SL.BI
open scoped Idealize.SL.BI
open Idealize.SL.BI.BIBase Idealize.SL.BI.Laws Idealize.SL.Sem

variable {F : FTy → Type} [FloatOps F]

-- The run of the whole host program with nothing claimed of what the regions leave.
theorem frame (m : (ℓ : Loc nD τ sig) → Buf (Elt F) ℓ) (ρ : Dev nD → PrngReg) :
    θ_run defs (onTc (τ := τ) (main (F := F))) ⟨m, fun _ => 0, ρ⟩ (fun r => ∀ c : Dev nD, Whole.argsKept m r.2.mem c) :=
  let N := Leaves.nothing m
  let S1 := fun o c => Region1.Steps.trivial m o c
  let S2 := fun o c => Region2.Steps.trivial m o c
  (θ_run defs _ _).mono (fun _ h c => (h c).2)
    (Whole.run m N (Region0.rd m) (Region0.R0 m N fun _ => trivial)
      (fun o => Region1.rd m N o (S1 o)) (fun o => Region1.R1 m N o (S1 o))
      (fun o => Region2.rd m N o (S2 o)) (fun o => Region2.R2 m N o (S2 o)) ρ
      (Region0.pre_eq m N fun _ => trivial) (Region0.post_eq m N fun _ => trivial)
      (fun o => Region1.R1_pre m N o (S1 o)) (fun o => Region1.R1_post m N o (S1 o))
      (fun o => Region2.R2_pre m N o (S2 o)) (fun o => Region2.R2_post m N o (S2 o)))

end Cert.Kernel.Frames

end
-- ==== Proof.SpecAlgebra.lean ====
import Mathlib.Algebra.BigOperators.Intervals
import Mathlib.Algebra.BigOperators.Ring.Finset
import Mathlib.Data.EReal.Operations
import Mathlib.Tactic.Ring

noncomputable section

namespace Cert.KernelIdeal.Spec

open scoped BigOperators

section Head

variable {ν φ κ π : Type*} [Fintype ν] [Fintype φ] [Fintype κ] [Fintype π]

-- The reference at node i: two convolutions with A (the first followed by ρ), then the head (Wl, bl).
def refOut (ρ : ℝ → ℝ) (A : ν → ν → ℝ) (X : ν → φ → ℝ) (W1 : φ → κ → ℝ) (b1 : κ → ℝ)
    (W2 : κ → π → ℝ) (b2 : π → ℝ) (Wl : π → ℝ) (bl : ℝ) (i : ν) : ℝ :=
  (∑ p, ((∑ j, A i j * (∑ k, ρ ((∑ l, A j l * (∑ f, X l f * W1 f k)) + b1 k) * W2 k p)) + b2 p) * Wl p)
    + bl

-- The head commutes with the second convolution: finite sums may be taken in any order.
theorem head_fold (a : ν → ℝ) (H : ν → κ → ℝ) (W2 : κ → π → ℝ) (b2 Wl : π → ℝ) (bl : ℝ) :
    ((∑ p, b2 p * Wl p) + bl) + ∑ j, a j * (∑ k, H j k * (∑ p, W2 k p * Wl p))
      = (∑ p, ((∑ j, a j * (∑ k, H j k * W2 k p)) + b2 p) * Wl p) + bl := by
  have key : ∑ p, (∑ j, a j * (∑ k, H j k * W2 k p)) * Wl p
      = ∑ j, a j * (∑ k, H j k * (∑ p, W2 k p * Wl p)) := by
    simp only [Finset.mul_sum, Finset.sum_mul]
    rw [Finset.sum_comm]
    refine Finset.sum_congr rfl fun j _ => ?_
    rw [Finset.sum_comm]
    exact Finset.sum_congr rfl fun k _ => Finset.sum_congr rfl fun p _ => by ring
  simp only [add_mul, Finset.sum_add_distrib, key]
  ring

-- The form with the head folded into the second layer's weights and bias is the reference's.
theorem kernel_eq_reference (ρ : ℝ → ℝ) (A : ν → ν → ℝ) (X : ν → φ → ℝ) (W1 : φ → κ → ℝ)
    (b1 : κ → ℝ) (W2 : κ → π → ℝ) (b2 : π → ℝ) (Wl : π → ℝ) (bl : ℝ) (i : ν) :
    ((∑ p, b2 p * Wl p) + bl)
        + ∑ j, A i j * ∑ k, ρ (b1 k + ∑ l, A j l * ∑ f, X l f * W1 f k) * ∑ p, W2 k p * Wl p
      = refOut ρ A X W1 b1 W2 b2 Wl bl i := by
  have e : ∀ j k, ρ ((∑ l, A j l * (∑ f, X l f * W1 f k)) + b1 k)
      = ρ (b1 k + ∑ l, A j l * (∑ f, X l f * W1 f k)) := fun j k => congrArg ρ (add_comm _ _)
  simp only [refOut, e]
  exact head_fold (A i) _ W2 b2 Wl bl

end Head

section Blocks

variable {M : Type*} [AddCommMonoid M]

-- J whole blocks of B positions are the first B·J positions.
theorem sum_blocks_whole (B : ℕ) (h : ℕ → M) (J : ℕ) :
    ∑ jb ∈ Finset.range J, ∑ q ∈ Finset.range B, h (B * jb + q) = ∑ j ∈ Finset.range (B * J), h j := by
  induction J with
  | zero => simp
  | succ J ih => rw [Finset.sum_range_succ, ih, mul_add_one, Finset.sum_range_add]

-- Zeroing the positions at or past n cuts the range at n.
theorem sum_range_cut (n N : ℕ) (g : ℕ → M) :
    ∑ j ∈ Finset.range N, (if j < n then g j else 0) = ∑ j ∈ Finset.range (min N n), g j := by
  rw [← Finset.sum_filter]
  congr 1
  ext j
  simp only [Finset.mem_filter, Finset.mem_range, lt_min_iff]

theorem sum_blocks_split (f : ℕ → M) {nb ib : ℕ} (h : ib < nb) :
    ∑ jb ∈ Finset.range nb, f jb
      = ∑ jb ∈ Finset.range (ib + 1), f jb + ∑ jb ∈ Finset.Ico (ib + 1) nb, f jb :=
  (Finset.sum_range_add_sum_Ico f (Nat.succ_le_of_lt h)).symm

theorem sum_guard_upper (f : ℕ → M) (nb ib : ℕ) :
    ∑ jb ∈ Finset.range nb, (if ib < jb then f jb else 0) = ∑ jb ∈ Finset.Ico (ib + 1) nb, f jb := by
  rw [← Finset.sum_filter]
  congr 1
  ext jb
  simp only [Finset.mem_filter, Finset.mem_range, Finset.mem_Ico, Nat.succ_le_iff]
  exact and_comm

end Blocks

section Coe

-- The inclusion of ℝ in the extended reals is additive, so it commutes with finite sums.
theorem coe_sum {ι : Type*} (s : Finset ι) (a : ι → ℝ) :
    ((∑ k ∈ s, a k : ℝ) : EReal) = ∑ k ∈ s, (a k : EReal) := by
  classical
  induction s using Finset.induction_on with
  | empty => rw [Finset.sum_empty, Finset.sum_empty, EReal.coe_zero]
  | insert k s hk ih => rw [Finset.sum_insert hk, Finset.sum_insert hk, EReal.coe_add, ih]

theorem coe_add (a b : ℝ) : ((a + b : ℝ) : EReal) = (a : EReal) + (b : EReal) := EReal.coe_add a b

theorem coe_sum_mul {ι : Type*} (s : Finset ι) (a b : ι → ℝ) :
    ((∑ k ∈ s, a k * b k : ℝ) : EReal) = ∑ k ∈ s, (a k : EReal) * (b k : EReal) := by
  rw [coe_sum]
  exact Finset.sum_congr rfl fun k _ => EReal.coe_mul (a k) (b k)

-- The inclusion is monotone, so it commutes with max.
theorem coe_relu (a : ℝ) : max (a : EReal) 0 = ((max a 0 : ℝ) : EReal) := by
  rw [EReal.coe_strictMono.monotone.map_max, EReal.coe_zero]

end Coe

end Cert.KernelIdeal.Spec

end
-- ==== Proof.Reals.lean ====
import proofs.«161930_g22909355557424_cont_8to1_1761_12_alg».proof.Proof.Whole
import proofs.«161930_g22909355557424_cont_8to1_1761_12_alg».proof.Proof.SpecAlgebra
import Idealize.ShloMosaic.Lib.ValueIdx
import Idealize.ShloMosaic.PureOps.Ideal

noncomputable section

namespace Cert.KernelIdeal.Reals

open Cert.KernelIdeal Cert.KernelIdeal.Gen Cert.KernelIdeal.Between
open Idealize.ShloMosaic Idealize.ShloMosaic.TcCoe Idealize.ShloMosaic.ValueIdx
open Finset

-- The eight argument arrays as real families.
structure Data where
  A : Fin 10000 → Fin 10000 → ℝ
  X : Fin 10000 → Fin 128 → ℝ
  W1 : Fin 128 → Fin 128 → ℝ
  b1 : Fin 128 → ℝ
  W2 : Fin 128 → Fin 128 → ℝ
  b2 : Fin 128 → ℝ
  Wl : Fin 128 → ℝ
  bl : ℝ

variable (D : Data)

-- What the regions compute over the reals; Az and vz extend by zero past the graph's nodes.
def s1 (l : Fin 10000) (k : Fin 128) : ℝ := ∑ f, D.X l f * D.W1 f k
def wv (k : Fin 128) : ℝ := ∑ p, D.W2 k p * D.Wl p
def c0 : ℝ := (∑ p, D.b2 p * D.Wl p) + D.bl
def v (j : Fin 10000) : ℝ := ∑ k, max (D.b1 k + ∑ l, D.A j l * s1 D l k) 0 * wv D k
def Az (i : Fin 10000) (j : ℕ) : ℝ := if h : j < 10000 then D.A i ⟨j, h⟩ else 0
def vz (j : ℕ) : ℝ := if h : j < 10000 then v D ⟨j, h⟩ else 0
-- The sum over the column blocks up to and including i's diagonal block, and over all of them.
def part (i : Fin 10000) : ℝ := c0 D + ∑ j ∈ range (min (1280 * (i.val / 1280 + 1)) 10000), Az D i j * vz D j
def out (i : Fin 10000) : ℝ := c0 D + ∑ j, D.A i j * v D j

variable (m : (ℓ : Loc nD τ sig) → Buf (Elt Ideal) ℓ)

def Holds (c : Dev nD) : Prop :=
  (∀ i j, (m ((c.tc : Thread nD τ).loc main_arg0) : Vec Ideal S10000x10000 .f32) (ix2 i j) = (D.A i j : EReal))
  ∧ (∀ l f, (m ((c.tc : Thread nD τ).loc main_arg1) : Vec Ideal S10000x128 .f32) (ix2 l f) = (D.X l f : EReal))
  ∧ (∀ f k, (m ((c.tc : Thread nD τ).loc main_arg2) : Vec Ideal S128x128 .f32) (ix2 f k) = (D.W1 f k : EReal))
  ∧ (∀ k, (m ((c.tc : Thread nD τ).loc main_arg3) : Vec Ideal S128 .f32) (ix1 k) = (D.b1 k : EReal))
  ∧ (∀ k p, (m ((c.tc : Thread nD τ).loc main_arg4) : Vec Ideal S128x128 .f32) (ix2 k p) = (D.W2 k p : EReal))
  ∧ (∀ p, (m ((c.tc : Thread nD τ).loc main_arg5) : Vec Ideal S128 .f32) (ix1 p) = (D.b2 p : EReal))
  ∧ (∀ p, (m ((c.tc : Thread nD τ).loc main_arg6) : Vec Ideal S128x1 .f32) (ix2 p (0 : Fin 1)) = (D.Wl p : EReal))
  ∧ (m ((c.tc : Thread nD τ).loc main_arg7) : Vec Ideal S1 .f32) (ix1 (0 : Fin 1)) = (D.bl : EReal)

def goodS1 (s : Vec Ideal S10240x128 .bf16) : Prop :=
  (∀ (l : Fin 10000) (k : Fin 128), s (ix2 (⟨l.val, by omega⟩ : Fin 10240) k) = (s1 D l k : EReal))
  ∧ (∀ (l : Fin 10240) (k : Fin 128), 10000 ≤ l.val → s (ix2 l k) = 0)
def goodWv (w : Vec Ideal S128x1 .f32) : Prop := ∀ k : Fin 128, w (ix2 k (0 : Fin 1)) = (wv D k : EReal)
def goodC (cc : Vec Ideal S1x1 .f32) : Prop := cc (ix2 (0 : Fin 1) (0 : Fin 1)) = (c0 D : EReal)
def goodV (vv : Vec Ideal S10240x1 .f32) : Prop :=
  (∀ j : Fin 10000, vv (ix2 (⟨j.val, by omega⟩ : Fin 10240) (0 : Fin 1)) = (v D j : EReal))
  ∧ (∀ j : Fin 10240, 10000 ≤ j.val → vv (ix2 j (0 : Fin 1)) = 0)
def goodP (pp : Vec Ideal S10240x1 .f32) : Prop :=
  ∀ i : Fin 10000, pp (ix2 (⟨i.val, by omega⟩ : Fin 10240) (0 : Fin 1)) = (part D i : EReal)
def goodO (oo : Vec Ideal S10240x1 .f32) : Prop :=
  ∀ i : Fin 10000, oo (ix2 (⟨i.val, by omega⟩ : Fin 10240) (0 : Fin 1)) = (out D i : EReal)

def G0 (o : Outs (F := Ideal)) (c : Dev nD) : Prop :=
  goodS1 D (o 2 main_v2_0 c) ∧ goodWv D (o 2 main_v2_1 c) ∧ goodC D (o 2 main_v2_2 c)
def G1 (o : Outs (F := Ideal)) (c : Dev nD) : Prop := goodV D (o 4 main_v4_0 c) ∧ goodP D (o 4 main_v4_1 c)
def G2 (o : Outs (F := Ideal)) (c : Dev nD) : Prop := goodO D (o 5 main_v5 c)

-- Each region's claim is made under the claims about the earlier regions' results.
def claims : Leaves (F := Ideal) m where
  after0 o c := Holds D m c → G0 D o c
  after1 o c := Holds D m c → G0 D o c → G1 D o c
  after2 o c := Holds D m c → G0 D o c → G1 D o c → G2 D o c

theorem G0_congr {o o' : Outs (F := Ideal)} (h : o' 2 = o 2) (c : Dev nD) : G0 D o c → G0 D o' c := by
  unfold G0; rw [h]; exact id
theorem G1_congr {o o' : Outs (F := Ideal)} (h : o' 4 = o 4) (c : Dev nD) : G1 D o c → G1 D o' c := by
  unfold G1; rw [h]; exact id

theorem good_of_known5 (c : Dev nD) (hm : Holds D m c) (o : Outs (F := Ideal))
    (h : Cert.KernelIdeal.Whole.known5 m (claims D m) o c) : goodO D (o 5 main_v5 c) := by
  obtain ⟨o₁, ⟨o₀, h0, e20, h1⟩, e2, e4, h2⟩ := h
  have g0 := G0_congr D e20 c (h0 hm)
  exact h2 hm (G0_congr D e2 c g0) (G1_congr D e4 c (h1 hm g0))

end Cert.KernelIdeal.Reals

end
-- ==== Proof.FiniteInputs.lean ====
import proofs.«161930_g22909355557424_cont_8to1_1761_12_alg».proof.Proof.Gen.Pre_finite_inputs
import Idealize.ShloMosaic.Lib.ReduceAll
import Idealize.ShloMosaic.PureOps.Ideal

noncomputable section

namespace Cert.KernelIdeal.Finite

open Idealize.ShloMosaic
open Cert.Pre_finite_inputs (S10000x10000 S10000x128 S128x128 S128 S128x1 S1 S_)

-- Every entry is a real number.
def IsReal {ι : Type} (a : ι → EReal) : Prop := ∃ f : ι → ℝ, ∀ i, a i = (f i : EReal)

theorem inf_pattern_eq_top : Ideal.ofBits .f32 0x7F800000#32 = (⊤ : EReal) := by
  simp [Ideal.ofBits, Ideal.ieee]

-- +∞ fails the test itself and -∞ fails it through its negation.
theorem real_of_abs_lt_top (t : EReal) (ht : max t (-t) < ⊤) : ∃ r : ℝ, t = (r : EReal) := by
  induction t using EReal.rec with
  | bot => simp at ht
  | coe r => exact ⟨r, rfl⟩
  | top => simp at ht

-- If the conjunction over all entries of |v i| < +∞ came out true, every entry of v is a real number.
theorem real_entries_of_all_lt_inf {s : Shape} {axes : List (Fin s.rank)} (v : FVec Ideal s .f32)
    (hb : S_.BroadcastsInDim s (![] : Fin 0 → Fin s.rank)) (hr : s.ReducesTo axes S_) (hu : 0 < S_.numel) (j : S_.Idx)
    (e : Host.reduce IntOp.andi
          (cmpf .olt (Host.absf v) (broadcastInDim s ![] hb (constant (F := Ideal) S_ .f32 0x7F800000#32)))
          (constantI S_ 1 1#1) hr hu j = 1#1) : IsReal v := by
  have h : ∀ i, ∃ r : ℝ, v i = (r : EReal) := fun i => by
    have hi : BitVec.ofBool (decide (max (v i) (-(v i)) < Ideal.ofBits .f32 0x7F800000#32)) = 1#1 :=
      Host.reduce_andi_all _ _ hr hu j e i
    refine real_of_abs_lt_top _ (inf_pattern_eq_top ▸ ?_)
    by_contra hn
    rw [decide_eq_false hn] at hi
    exact absurd hi (by decide)
  choose f hf using h
  exact ⟨f, hf⟩

-- The precondition is the conjunction of eight such tests, nested to the left.
theorem finite_of_pre
    (a : FVec Ideal S10000x10000 .f32) (x : FVec Ideal S10000x128 .f32)
    (w1 : FVec Ideal S128x128 .f32) (b1 : FVec Ideal S128 .f32)
    (w2 : FVec Ideal S128x128 .f32) (b2 : FVec Ideal S128 .f32)
    (wl : FVec Ideal S128x1 .f32) (bl : FVec Ideal S1 .f32)
    (h : Cert.Pre_finite_inputs.fn (F := Ideal) a x w1 b1 w2 b2 wl bl = fun _ => 1#1) :
    IsReal a ∧ IsReal x ∧ IsReal w1 ∧ IsReal b1 ∧ IsReal w2 ∧ IsReal b2 ∧ IsReal wl ∧ IsReal bl := by
  have h0 := congrFun h fun d => d.elim0
  dsimp only [Cert.Pre_finite_inputs.fn, Cert.Pre_finite_inputs.fn_part1, Cert.Pre_finite_inputs.fn_part2, andi] at h0
  simp only [IntOp.andi_eq_one] at h0
  obtain ⟨⟨⟨⟨⟨⟨⟨ha, hx⟩, hw1⟩, hb1⟩, hw2⟩, hb2⟩, hwl⟩, hbl⟩ := h0
  exact ⟨real_entries_of_all_lt_inf a _ _ _ _ ha, real_entries_of_all_lt_inf x _ _ _ _ hx,
    real_entries_of_all_lt_inf w1 _ _ _ _ hw1, real_entries_of_all_lt_inf b1 _ _ _ _ hb1,
    real_entries_of_all_lt_inf w2 _ _ _ _ hw2, real_entries_of_all_lt_inf b2 _ _ _ _ hb2,
    real_entries_of_all_lt_inf wl _ _ _ _ hwl, real_entries_of_all_lt_inf bl _ _ _ _ hbl⟩

end Cert.KernelIdeal.Finite
-- ==== Proof.FinalPrep.lean ====
import proofs.«161930_g22909355557424_cont_8to1_1761_12_alg».proof.Proof.Reals
import proofs.«161930_g22909355557424_cont_8to1_1761_12_alg».proof.Proof.FiniteInputs
import proofs.«161930_g22909355557424_cont_8to1_1761_12_alg».proof.Defs

noncomputable section

namespace Cert.KernelIdeal.FinalPrep

open Cert.KernelIdeal Cert.KernelIdeal.Gen
open Idealize.ShloMosaic Idealize.ShloMosaic.TcCoe Idealize.ShloMosaic.ValueIdx

-- Under the precondition every entry of every argument array is a real number.
theorem data_of_pre [hP : Cert.Pre_finite_inputs.Facts] (m : (ℓ : Loc nD τ sig) → Buf (Elt Ideal) ℓ) (h : Cert.Pre_KernelIdeal m) :
    ∃ D : Reals.Data, ∀ c : Dev nD, Reals.Holds D m c := by
  obtain ⟨⟨A, hA⟩, ⟨X, hX⟩, ⟨W1, hW1⟩, ⟨B1, hB1⟩, ⟨W2, hW2⟩, ⟨B2, hB2⟩, ⟨WL, hWL⟩, BL, hBL⟩ :=
    Cert.KernelIdeal.Finite.finite_of_pre _ _ _ _ _ _ _ _ (h 0)
  refine ⟨⟨fun i j => A (ix2 i j), fun l f => X (ix2 l f), fun f k => W1 (ix2 f k), fun k => B1 (ix1 k),
    fun k p => W2 (ix2 k p), fun p => B2 (ix1 p), fun p => WL (ix2 p (0 : Fin 1)), BL (ix1 (0 : Fin 1))⟩, fun c => ?_⟩
  obtain rfl : c = 0 := Subsingleton.elim _ _
  exact ⟨fun i j => hA _, fun l f => hX _, fun f k => hW1 _, fun k => hB1 _, fun k p => hW2 _, fun p => hB2 _, fun p => hWL _, hBL _⟩

-- The kernel's real result is the folded-head formula, so it is the reference's.
theorem out_eq_refOut (D : Reals.Data) (i : Fin 10000) :
    Reals.out D i = Cert.KernelIdeal.Spec.refOut (fun y => max y 0) D.A D.X D.W1 D.b1 D.W2 D.b2 D.Wl D.bl i :=
  Cert.KernelIdeal.Spec.kernel_eq_reference (fun y => max y 0) D.A D.X D.W1 D.b1 D.W2 D.b2 D.Wl D.bl i

end Cert.KernelIdeal.FinalPrep

end
-- ==== Proof.ResultRead.lean ====
import proofs.«161930_g22909355557424_cont_8to1_1761_12_alg».proof.Proof.Gen.KernelIdeal.Regions
import Idealize.ShloMosaic.Lib.StableHlo.Run
import Idealize.ShloMosaic.Lib.Pipeline.Value
import Idealize.ShloMosaic.Lib.ValueIdx

noncomputable section

namespace Cert.KernelIdeal.ResultRead

open Cert.KernelIdeal Cert.KernelIdeal.Gen
open Idealize.ShloMosaic Idealize.ShloMosaic.TcCoe Idealize.ShloMosaic.ValueIdx Idealize.ShloMosaic.StableHlo

variable {F : FTy → Type} [FloatOps F]

-- The last host stretch slices rows 0 … 9999 out of region 2's 10240-row result.
theorem result_eq (m : (ℓ : Loc nD τ sig) → Buf (Elt F) ℓ) (o : Outs (F := F)) (c : Dev nD) :
    (V6 m o c main_v6 : Vec F S10000x1 .f32)
      = extractStridedSlice S10000x1 ![0, 0] (o 5 main_v5 c : Vec F S10240x1 .f32) slices_S10240x1_S10000x1_0_0 := by
  show StableHlo.after hostOps3 (V5 m o c) (Proc.devRef .tc main_v6) = _
  after_results
  simp only [V5, Function.update_self]

theorem result_at (m : (ℓ : Loc nD τ sig) → Buf (Elt F) ℓ) (o : Outs (F := F)) (c : Dev nD) (i : Fin 10000) :
    (V6 m o c main_v6 : Vec F S10000x1 .f32) (ix2 i (0 : Fin 1))
      = (o 5 main_v5 c : Vec F S10240x1 .f32) (ix2 (⟨i.val, by omega⟩ : Fin 10240) (0 : Fin 1)) := by
  rw [result_eq]
  exact extractStridedSlice_apply _ _ _ _ _ fun a => by match a with | ⟨0, _⟩ => simp | ⟨1, _⟩ => simp

end Cert.KernelIdeal.ResultRead

end
-- ==== Proof.RefValue.lean ====
import proofs.«161930_g22909355557424_cont_8to1_1761_12_alg».proof.Proof.Gen.ReferenceIdeal.Run
import proofs.«161930_g22909355557424_cont_8to1_1761_12_alg».proof.Proof.Gen.ReferenceIdeal.Read
import proofs.«161930_g22909355557424_cont_8to1_1761_12_alg».proof.Proof.SpecAlgebra
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.ValueIdx
open Cert.KernelIdeal
open scoped BigOperators

-- A real matrix and a real vector as arrays of extended reals: a coordinate of a composed index computes.
def mat {n0 n1 : ℕ} (X : Fin n0 → Fin n1 → ℝ) : (⟨2, ![n0, n1]⟩ : Shape).Idx → EReal := fun j => X (j 0) (j 1)
def vec {n : ℕ} (b : Fin n → ℝ) : (⟨1, ![n]⟩ : Shape).Idx → EReal := fun j => b (j 0)

theorem eq_mat {n0 n1 : ℕ} {a : (⟨2, ![n0, n1]⟩ : Shape).Idx → EReal} {A : Fin n0 → Fin n1 → ℝ}
    (h : ∀ i j, a (ix2 i j) = (A i j : EReal)) : a = mat A := funext fun j => by rw [eq_ix2 j]; exact h _ _
theorem eq_vec {n : ℕ} {a : (⟨1, ![n]⟩ : Shape).Idx → EReal} {b : Fin n → ℝ}
    (h : ∀ k, a (ix1 k) = (b k : EReal)) : a = vec b := funext fun j => by rw [eq_ix1 j]; exact h _

variable (A : Fin 10000 → Fin 10000 → ℝ) (X : Fin 10000 → Fin 128 → ℝ) (W1 W2 : Fin 128 → Fin 128 → ℝ)
  (b1 b2 Wl : Fin 128 → ℝ) (bl : ℝ)

-- The hidden activations: the first convolution plus its bias, under y ↦ max y 0.
theorem hidden_at (j : S10000x128.Idx) :
    Read.val_main_v5 (F := Ideal) (mat A) (mat X) (mat W1) (vec b1) j
      = ((max ((∑ l, A (j 0) l * ∑ f, X l f * W1 f (j 1)) + b1 (j 1)) 0 : ℝ) : EReal) := by
  rewrite [Read.val_main_v5_apply, Read.val_main_v4_apply, Read.val_main_v1_apply, Read.val_main_v3_apply,
    Read.val_main_v2_apply, Ideal.addf_def, Read.val_main_call0_v0_apply, Read.val_main_call0_cst_apply, Ideal.ofBits_def,
    Ideal.ofBits_zero_f32, Ideal.maximumf_def, ← Spec.coe_relu, Spec.coe_add, Spec.coe_sum_mul]
  simp only [Read.val_main_v0_apply, Spec.coe_sum_mul]
  rfl

-- The second layer: the second convolution of the hidden activations plus its bias.
theorem layer2_at (i : S10000x128.Idx) :
    Read.val_main_v10 (F := Ideal) (mat A) (mat X) (mat W1) (vec b1) (mat W2) (vec b2) i
      = (((∑ j, A (i 0) j * ∑ k, max ((∑ l, A j l * ∑ f, X l f * W1 f k) + b1 k) 0 * W2 k (i 1)) + b2 (i 1) : ℝ)
          : EReal) := by
  rewrite [Read.val_main_v10_apply, Read.val_main_v7_apply, Read.val_main_v9_apply, Read.val_main_v8_apply,
    Ideal.addf_def, Spec.coe_add, Spec.coe_sum_mul]
  simp only [Read.val_main_v6_apply, hidden_at, Spec.coe_sum_mul]
  rfl

-- Entry i of the reference's result is the real formula of the two-layer convolution with its head at node i.
theorem reference_at (a : S10000x10000.Idx → EReal) (x : S10000x128.Idx → EReal) (w1 w2 : S128x128.Idx → EReal)
    (vb1 vb2 : S128.Idx → EReal) (wl : S128x1.Idx → EReal) (vbl : S1.Idx → EReal)
    (ha : ∀ i j, a (ix2 i j) = (A i j : EReal)) (hx : ∀ l f, x (ix2 l f) = (X l f : EReal))
    (hw1 : ∀ f k, w1 (ix2 f k) = (W1 f k : EReal)) (hb1 : ∀ k, vb1 (ix1 k) = (b1 k : EReal))
    (hw2 : ∀ k p, w2 (ix2 k p) = (W2 k p : EReal)) (hb2 : ∀ p, vb2 (ix1 p) = (b2 p : EReal))
    (hwl : ∀ p, wl (ix2 p (0 : Fin 1)) = (Wl p : EReal)) (hbl : vbl (ix1 (0 : Fin 1)) = (bl : EReal))
    (i : S10000x1.Idx) :
    Read.val_main_v14 (F := Ideal) a x w1 vb1 w2 vb2 wl vbl i
      = ((Spec.refOut (fun y => max y 0) A X W1 b1 W2 b2 Wl bl (i 0) : ℝ) : EReal) := by
  rewrite [eq_mat ha, eq_mat hx, eq_mat hw1, eq_vec hb1, eq_mat hw2, eq_vec hb2,
    (eq_mat fun p q => Fin.fin_one_eq_zero q ▸ hwl p : wl = mat fun p _ => Wl p),
    (eq_vec fun k => Fin.fin_one_eq_zero k ▸ hbl : vbl = vec fun _ => bl),
    Read.val_main_v14_apply, Read.val_main_v11_apply, Read.val_main_v13_apply, Read.val_main_v12_apply,
    Ideal.addf_def]
  unfold Spec.refOut
  rewrite [Spec.coe_add, Spec.coe_sum_mul]
  simp only [layer2_at]
  rfl

end Cert.ReferenceIdeal.RefValue

end
-- ==== Proof.Value0.lean ====
import proofs.«161930_g22909355557424_cont_8to1_1761_12_alg».proof.Proof.Reals
import proofs.«161930_g22909355557424_cont_8to1_1761_12_alg».proof.Proof.Body0
import proofs.«161930_g22909355557424_cont_8to1_1761_12_alg».proof.Proof.Region0
import Idealize.ShloMosaic.PureOps.Ideal.Laws
import Idealize.ShloMosaic.Lib.ValueIdx
import Idealize.ShloMosaic.Lib.IdealHost
import Idealize.ShloMosaic.Lib.Pipeline.Value
import Idealize.ShloMosaic.Lib.StableHlo.Run

noncomputable section

namespace Cert.KernelIdeal.Value0

open Cert.KernelIdeal Cert.KernelIdeal.Gen Cert.KernelIdeal.Frag
open Idealize.ShloMosaic Idealize.ShloMosaic.TcCoe Idealize.ShloMosaic.ValueIdx
open Finset

-- An M x K by K x N product accumulated into zeros, at entry (l, k): row l times column k.
theorem plain_apply {M K N : ℕ} (x : FVec Ideal ⟨2, ![M, K]⟩ .f32) (w : FVec Ideal ⟨2, ![K, N]⟩ .f32) (l : Fin M) (k : Fin N) :
    FloatOps.matmul (DotDims.plain M K N) none x w (constant (F := Ideal) _ .f32 0x00000000#32) (ix2 l k)
      = ∑ f : Fin K, x (ix2 l f) * w (ix2 f k) := by
  rw [Ideal.matmul_constant_zero_apply, ← Equiv.sum_comp (contrEquiv1 (DotDims.plain M K N) K rfl rfl).symm]
  refine Finset.sum_congr rfl fun f _ => ?_
  have hf := contrEquiv1_symm_val (DotDims.plain M K N) K rfl rfl f
  congr 2 <;> funext a <;> refine Fin.ext ?_ <;> match a with
    | ⟨0, _⟩ => first | rfl | exact hf
    | ⟨1, _⟩ => first | rfl | exact hf

-- Over real factors the entry is the real dot product: the inclusion of ℝ commutes with finite sums of products.
theorem plain_real {M K N : ℕ} {x : FVec Ideal ⟨2, ![M, K]⟩ .f32} {w : FVec Ideal ⟨2, ![K, N]⟩ .f32} {l : Fin M} {k : Fin N}
    {a b : Fin K → ℝ} (hx : ∀ f, x (ix2 l f) = (a f : EReal)) (hw : ∀ f, w (ix2 f k) = (b f : EReal)) :
    FloatOps.matmul (DotDims.plain M K N) none x w (constant (F := Ideal) _ .f32 0x00000000#32) (ix2 l k)
      = ((∑ f, a f * b f : ℝ) : EReal) := by
  rw [plain_apply, Spec.coe_sum_mul]
  exact Finset.sum_congr rfl fun f _ => by rw [hx, hw]

theorem ix_eq_ix2 {a b : ℕ} (r : Fin a) (k : Fin b) : Body0.ix r k = ix2 r k := by
  funext d; match d with | ⟨0, _⟩ => rfl | ⟨1, _⟩ => rfl

-- The call's three results, from operands that hold the real families.
theorem good0 (D : Reals.Data) {x : Vec Ideal S10000x128 .f32} {w1 w2 : Vec Ideal S128x128 .f32} {wl : Vec Ideal S128x1 .f32}
    {b2 : Vec Ideal S1x128 .f32} {bl : Vec Ideal S1x1 .f32}
    (hx : ∀ l f, x (ix2 l f) = (D.X l f : EReal)) (hw1 : ∀ f k, w1 (ix2 f k) = (D.W1 f k : EReal))
    (hw2 : ∀ k p, w2 (ix2 k p) = (D.W2 k p : EReal)) (hwl : ∀ p, wl (ix2 p (0 : Fin 1)) = (D.Wl p : EReal))
    (hb2 : ∀ p, b2 (ix2 (0 : Fin 1) p) = (D.b2 p : EReal)) (hbl : bl (ix2 (0 : Fin 1) (0 : Fin 1)) = (D.bl : EReal)) :
    Reals.goodS1 D (Body0.s1Of x w1) ∧ Reals.goodWv D (k0_pay3 w2 wl) ∧ Reals.goodC D (k0_pay4 b2 wl bl) := by
  refine ⟨⟨fun l k => ?_, fun l k hl => ?_⟩, fun k => plain_real (hw2 k) hwl, ?_⟩
  · rw [← ix_eq_ix2, Body0.s1Of_row_lt x w1 l.val l.isLt k, ix_eq_ix2]
    exact plain_real (hx l) fun f => hw1 f k
  · rw [← ix_eq_ix2, Body0.s1Of_row_ge x w1 l.val hl l.isLt k]
    exact Ideal.ofBits_zero_bf16
  · unfold Reals.goodC k0_pay4
    simp only [shapeCast_self]
    exact (congrArg₂ (· + ·) (plain_real hb2 hwl) hbl).trans (Spec.coe_add _ _).symm

-- A vector reshaped to one row: entry (0, p) is the vector's entry p.
theorem row_at {n : ℕ} (y : (⟨1, ![n]⟩ : Shape).Idx → EReal) (h : (⟨1, ![n]⟩ : Shape).ShapeCasts ⟨2, ![1, n]⟩) (p : Fin n) :
    shapeCast ⟨2, ![1, n]⟩ y h (ix2 (0 : Fin 1) p) = y (ix1 p) :=
  (shapeCast_addUnit_apply ![n] y h _).trans (congrArg y (funext fun a => by match a with | ⟨0, _⟩ => rfl))

variable (m : (ℓ : Loc nD τ sig) → Buf (Elt Ideal) ℓ)

theorem V1_v0_at (c : Dev nD) (p : Fin 128) :
    (V1 m c main_v0 : S1x128.Idx → EReal) (ix2 (0 : Fin 1) p) = (m ((c : Thread nD τ).loc main_arg5) : S128.Idx → EReal) (ix1 p) := by
  refine Eq.trans (congrFun ?_ _) (row_at _ shapeCasts_S128_S1x128 p)
  show StableHlo.after hostOps0 (V0 m c) (Proc.devRef .tc main_v0) = _
  after_results
  rfl

theorem V1_v1_at (c : Dev nD) :
    (V1 m c main_v1 : S1x1.Idx → EReal) (ix2 (0 : Fin 1) (0 : Fin 1)) = (m ((c : Thread nD τ).loc main_arg7) : S1.Idx → EReal) (ix1 (0 : Fin 1)) := by
  refine Eq.trans (congrFun ?_ _) (row_at _ shapeCasts_S1_S1x1 0)
  show StableHlo.after hostOps0 (V0 m c) (Proc.devRef .tc main_v1) = _
  after_results
  rfl

-- Before the call only b2 and blin are reshaped, to 1 x 128 and 1 x 1; every other operand is as given.
theorem after0_holds (D : Reals.Data) : ∀ c, (Reals.claims D m).after0 (Region0.outs0 m) c := by
  rintro c ⟨-, hX, hW1, -, hW2, hb2, hWl, hbl⟩
  show Reals.goodS1 D (Region0.outs0 m 2 main_v2_0 c) ∧ Reals.goodWv D (Region0.outs0 m 2 main_v2_1 c) ∧ Reals.goodC D (Region0.outs0 m 2 main_v2_2 c)
  rw [Region0.outs0_v2_0, Region0.outs0_v2_1, Region0.outs0_v2_2]
  refine good0 D ?_ ?_ ?_ ?_ (fun p => (V1_v0_at m c p).trans (hb2 p)) ((V1_v1_at m c).trans hbl)
  · show ∀ l f, (V1 m c main_arg1 : Vec Ideal S10000x128 .f32) (ix2 l f) = _
    rw [V1_of m c main_arg1 (by decide)]; exact hX
  · show ∀ f k, (V1 m c main_arg2 : Vec Ideal S128x128 .f32) (ix2 f k) = _
    rw [V1_of m c main_arg2 (by decide)]; exact hW1
  · show ∀ k p, (V1 m c main_arg4 : Vec Ideal S128x128 .f32) (ix2 k p) = _
    rw [V1_of m c main_arg4 (by decide)]; exact hW2
  · show ∀ p, (V1 m c main_arg6 : Vec Ideal S128x1 .f32) (ix2 p (0 : Fin 1)) = _
    rw [V1_of m c main_arg6 (by decide)]; exact hWl

end Cert.KernelIdeal.Value0

end
-- ==== Proof.Value1Pay.lean ====
import proofs.«161930_g22909355557424_cont_8to1_1761_12_alg».proof.Proof.Gen.KernelIdeal.Skeleton
import Idealize.ShloMosaic.Lib.ValueLayout
import Idealize.ShloMosaic.Lib.StableHlo.Predicate
import Idealize.ShloMosaic.Lib.StackMember

noncomputable section

namespace Cert.KernelIdeal.Value1

open Cert.KernelIdeal Cert.KernelIdeal.Gen
open Idealize.ShloMosaic Idealize.ShloMosaic.TcCoe Idealize.ShloMosaic.ValueIdx Idealize.ShloMosaic.StackMember
open Finset

-- An m × k block times a k × n block into the zero splat: entry (a, b) is row a against column b.
theorem mm_apply {m k n : ℕ} {φ₁ φ₂ : FTy} (d : DotDims ⟨2, ![m, k]⟩ ⟨2, ![k, n]⟩ ⟨2, ![m, n]⟩) (hd : d = DotDims.plain m k n)
    (L : FVec Ideal ⟨2, ![m, k]⟩ φ₁) (R : FVec Ideal ⟨2, ![k, n]⟩ φ₂) (a : Fin m) (b : Fin n) :
    matmul d none L R (constant ⟨2, ![m, n]⟩ .f32 0x00000000#32) (ix2 a b) = ∑ c : Fin k, L (ix2 a c) * R (ix2 c b) := by
  subst hd
  rw [matmul_zero_eq_dotGeneral]
  exact dotGeneral_plain_apply none L R a b

theorem addmm_apply {m k n : ℕ} {φ₁ φ₂ : FTy} (d : DotDims ⟨2, ![m, k]⟩ ⟨2, ![k, n]⟩ ⟨2, ![m, n]⟩) (hd : d = DotDims.plain m k n)
    (acc : FVec Ideal ⟨2, ![m, n]⟩ .f32) (L : FVec Ideal ⟨2, ![m, k]⟩ φ₁) (R : FVec Ideal ⟨2, ![k, n]⟩ φ₂) (a : Fin m) (b : Fin n) :
    addf acc (matmul d none L R (constant ⟨2, ![m, n]⟩ .f32 0x00000000#32)) (ix2 a b)
      = acc (ix2 a b) + ∑ c : Fin k, L (ix2 a c) * R (ix2 c b) :=
  congrArg (acc (ix2 a b) + ·) (mm_apply d hd L R a b)

-- A select between x and zero on the signed test "coordinate a of the index, the natural n, is below the word w".
theorem select_lt_apply {s : Shape} (a : Fin s.rank) (hi : s.Iotas .tc 32 [a]) (w : BitVec 32) (x : FVec Ideal s .f32) (j : s.Idx)
    (n : ℕ) (hn : (j a).val = n) {P : Prop} [Decidable P] (h : IntOp.cmpi .slt (BitVec.ofNat 32 n) w = 1#1 ↔ P) :
    select (cmpi .slt (iota .tc s 32 [a] hi) (broadcast s w)) x (broadcast s (Scalar.ofBits (F := Ideal) .f32 0x00000000#32)) j
      = if P then x j else 0 := by
  refine (select_apply _ _ _ _).trans ?_
  show Scalar.select (IntOp.cmpi .slt (iota .tc s 32 [a] hi j) w) (x j) (Ideal.ofBits .f32 0x00000000#32) = _
  rw [iota_single_apply, hn, Ideal.ofBits_zero_f32]
  exact if_congr h rfl rfl

theorem word_val (q : ℕ) (hq : q < 1280) : (BitVec.ofNat 32 q).toNat = q := by
  rw [BitVec.toNat_ofNat]; exact Nat.mod_eq_of_lt (by omega)

-- The last column block has 1040 lanes inside the adjacency: 8960 + 1040 = 10000.
theorem lane_test (q : Fin 1280) : IntOp.cmpi .slt (BitVec.ofNat 32 q.val) 1040#32 = 1#1 ↔ q.val < 1040 := by
  have hq := word_val q.val q.isLt
  have h1 : (1040#32 : BitVec 32).toNat = 1040 := by decide
  rw [StableHlo.Predicate.slt_iff_toNat (by rw [hq]; have := q.isLt; omega) (by rw [h1]; decide), hq, h1]

theorem rows_word : ∀ ib : Fin 8, (Scalar.subi 10000#32 (Scalar.muli (BitVec.ofNat 32 ib.val) 1280#32)).toNat = 10000 - 1280 * ib.val := by
  decide +kernel

-- Block row ib has 10000 − 1280·ib rows that are nodes.
theorem row_test (ib : Fin 8) (r : Fin 1280) :
    IntOp.cmpi .slt (BitVec.ofNat 32 r.val) (Scalar.subi 10000#32 (Scalar.muli (BitVec.ofNat 32 ib.val) 1280#32)) = 1#1
      ↔ 1280 * ib.val + r.val < 10000 := by
  have hr := word_val r.val r.isLt
  have hb := rows_word ib
  rw [StableHlo.Predicate.slt_iff_toNat (by rw [hr]; have := r.isLt; omega) (by rw [hb]; omega), hr, hb]
  have := ib.isLt
  omega

theorem pay1_apply (B : FVec Ideal S1x128 .f32) (r : Fin 1280) (k : Fin 128) : k1_pay1 B (ix2 r k) = B (ix2 (0 : Fin 1) k) := by
  unfold k1_pay1
  simp only [shapeCast_self]
  exact broadcastTo_1b_ab_apply B broadcasts_S1x128_S1280x128 r k

theorem pay2_apply (C : FVec Ideal S1x1 .f32) (r : Fin 1280) (z : Fin 1) : k1_pay2 C (ix2 r z) = C (ix2 (0 : Fin 1) z) := by
  unfold k1_pay2
  simp only [shapeCast_self]
  exact broadcastTo_1b_ab_apply C broadcasts_S1x1_S1280x1 r z

theorem pay3_apply (X : FVec Ideal S1280x1280 .f32) (h : FVec Ideal S1280x128 .f32) (s : FVec Ideal S1280x128 .bf16) (r : Fin 1280) (k : Fin 128) :
    k1_pay3 X h s (ix2 r k) = h (ix2 r k) + ∑ q : Fin 1280, X (ix2 r q) * s (ix2 q k) := by
  unfold k1_pay3
  simp only [shapeCast_self]
  exact addmm_apply _ rfl h (truncf .bf16 X bitsLt_bf16_f32) s r k

theorem pay4_apply (X : FVec Ideal S1280x1280 .f32) (h : FVec Ideal S1280x128 .f32) (s : FVec Ideal S1280x128 .bf16) (r : Fin 1280) (k : Fin 128) :
    k1_pay4 X h s (ix2 r k) = h (ix2 r k) + ∑ q : Fin 1280, (if q.val < 1040 then X (ix2 r q) else 0) * s (ix2 q k) := by
  unfold k1_pay4
  simp only [shapeCast_self]
  refine (addmm_apply _ rfl h _ s r k).trans (congrArg (h (ix2 r k) + ·) (Finset.sum_congr rfl fun q _ => ?_))
  exact congrArg (· * s (ix2 q k)) (select_lt_apply (s := S1280x1280) 1 _ _ X (ix2 r q) q.val rfl (lane_test q))

theorem pay5_eq (X : FVec Ideal S1280x1280 .f32) : k1_pay5 X = X := shapeCast_self _ _

theorem pay6_apply (X : FVec Ideal S1280x1280 .f32) (r q : Fin 1280) :
    k1_pay6 X (ix2 r q) = if q.val < 1040 then X (ix2 r q) else 0 := by
  unfold k1_pay6
  simp only [shapeCast_self]
  exact select_lt_apply (s := S1280x1280) 1 _ _ X (ix2 r q) q.val rfl (lane_test q)

theorem pay7_apply (p : FVec Ideal S1280x1 .f32) (X : FVec Ideal S1280x1280 .f32) (vb : FVec Ideal S1280x1 .f32) (r : Fin 1280) (z : Fin 1) :
    k1_pay7 p X vb (ix2 r z) = p (ix2 r z) + ∑ q : Fin 1280, X (ix2 r q) * vb (ix2 q z) := by
  unfold k1_pay7
  simp only [shapeCast_self]
  exact addmm_apply _ rfl p X vb r z

theorem pay8_apply (i : grid1.Coords) (h : FVec Ideal S1280x128 .f32) (wv : FVec Ideal S128x1 .f32) (r : Fin 1280) (z : Fin 1) :
    k1_pay8 i h wv (ix2 r z)
      = if 1280 * (i 0).val + r.val < 10000 then ∑ k : Fin 128, max (h (ix2 r k)) 0 * wv (ix2 k z) else 0 := by
  unfold k1_pay8
  simp only [shapeCast_self]
  refine (select_lt_apply (s := S1280x1) 0 _ _ _ (ix2 r z) r.val rfl (row_test (i 0) r)).trans (if_congr Iff.rfl ?_ rfl)
  refine (mm_apply _ rfl _ wv r z).trans (Finset.sum_congr rfl fun k _ => congrArg (· * wv (ix2 k z)) ?_)
  show max (h (ix2 r k)) (Ideal.ofBits .f32 0x00000000#32) = _
  rw [Ideal.ofBits_zero_f32]

theorem pay9_apply (i : grid1.Coords) (h : FVec Ideal S1280x128 .f32) (wv : FVec Ideal S128x1 .f32) (p : FVec Ideal S1280x1 .f32)
    (d : FVec Ideal S1280x1280 .f32) (r : Fin 1280) (z : Fin 1) :
    k1_pay9 i h wv p d (ix2 r z) = p (ix2 r z) + ∑ q : Fin 1280, d (ix2 r q) * k1_pay8 i h wv (ix2 q z) := by
  unfold k1_pay9
  simp only [shapeCast_self]
  exact addmm_apply _ rfl p d (k1_pay8 i h wv) r z

end Cert.KernelIdeal.Value1

end
-- ==== Proof.Value1Defs.lean ====
import proofs.«161930_g22909355557424_cont_8to1_1761_12_alg».proof.Proof.Reals
import proofs.«161930_g22909355557424_cont_8to1_1761_12_alg».proof.Proof.Gen.KernelIdeal.Skeleton

noncomputable section

namespace Cert.KernelIdeal.Value1

open Cert.KernelIdeal Cert.KernelIdeal.Gen Cert.KernelIdeal.Between Cert.KernelIdeal.Reals
open Idealize.ShloMosaic Idealize.ShloMosaic.TcCoe Idealize.ShloMosaic.ValueIdx
open Finset

variable (D : Reals.Data)

-- The adjacency and the feature product over ℕ, zero past the 10000 nodes.
def An (i j : ℕ) : ℝ := if h : i < 10000 then Az D ⟨i, h⟩ j else 0

def sn (l : ℕ) (k : Fin 128) : ℝ := if h : l < 10000 then s1 D ⟨l, h⟩ k else 0

-- A running sum over column blocks of 1280 terms, cut at the nodes' end.
def run (b : ℝ) (g : ℕ → ℝ) (J : ℕ) : ℝ := b + ∑ l ∈ range (min (1280 * J) 10000), g l

-- Row i's hidden sum, and its partial result, after J column blocks.
def hid (i : ℕ) (k : Fin 128) (J : ℕ) : ℝ := run (D.b1 k) (fun l => An D i l * sn D l k) J

def psum (i J : ℕ) : ℝ := run (c0 D) (fun l => An D i l * vz D l) J

-- What the row accumulator, the kept block, the long vector, the partial-sum block and the adjacency block hold.
def accH (ib J : ℕ) (h : Vec Ideal S1280x128 .f32) : Prop :=
  ∀ (r : Fin 1280) (k : Fin 128), 1280 * ib + r.val < 10000 → h (ix2 r k) = (hid D (1280 * ib + r.val) k J : EReal)

def diagD (ib : ℕ) (d : Vec Ideal S1280x1280 .f32) : Prop :=
  ∀ r q : Fin 1280, d (ix2 r q) = (An D (1280 * ib + r.val) (1280 * ib + q.val) : EReal)

def goodVupto (J : ℕ) (y : Vec Ideal S10240x1 .f32) : Prop :=
  ∀ j : Fin 10240, j.val < 1280 * J → y (ix2 j (0 : Fin 1)) = (vz D j.val : EReal)

def sumP (ib J : ℕ) (y : Vec Ideal S1280x1 .f32) : Prop :=
  ∀ r : Fin 1280, 1280 * ib + r.val < 10000 → y (ix2 r (0 : Fin 1)) = (psum D (1280 * ib + r.val) J : EReal)

def blockA (ib jb : ℕ) (X : Vec Ideal S1280x1280 .f32) : Prop :=
  ∀ r q : Fin 1280, 1280 * ib + r.val < 10000 → 1280 * jb + q.val < 10000 →
    X (ix2 r q) = (An D (1280 * ib + r.val) (1280 * jb + q.val) : EReal)

variable (m : (ℓ : Loc nD τ sig) → Buf (Elt Ideal) ℓ) (o : Outs (F := Ideal)) (c : Dev nD)

-- Before point n = 8·ib + jb: the accumulator after jb blocks (jb ≠ 0); the diagonal block kept (ib < jb).
def invH (n : Fin (cfg1.N + 1)) (h : Vec Ideal S1280x128 .f32) : Prop :=
  Holds D m c → G0 D o c → n.val % 8 ≠ 0 → accH D (n.val / 8) (n.val % 8) h

def invD (n : Fin (cfg1.N + 1)) (d : Vec Ideal S1280x1280 .f32) : Prop :=
  Holds D m c → G0 D o c → n.val / 8 < n.val % 8 → diagD D (n.val / 8) d

def relV (n : Fin cfg1.N) (Y X : Vec Ideal S10240x1 .f32) : Prop :=
  Holds D m c → G0 D o c → goodVupto D (n.val / 8) Y → goodVupto D ((n.val + 1) / 8) X

-- The partial-sum block before and after point n: the column blocks below both jb and the diagonal, then through the diagonal at jb = 7.
def foundP (n : ℕ) (y : Vec Ideal S1280x1 .f32) : Prop := n % 8 ≠ 0 → sumP D (n / 8) (min (n % 8) (n / 8)) y

def leftP (n : ℕ) (y : Vec Ideal S1280x1 .f32) : Prop :=
  if n % 8 = 7 then sumP D (n / 8) (n / 8 + 1) y else sumP D (n / 8) (min (n % 8 + 1) (n / 8)) y

def relP (n : Fin cfg1.N) (Y X : Vec Ideal S1280x1 .f32) : Prop :=
  Holds D m c → G0 D o c → foundP D n.val Y → leftP D n.val X

theorem points_eq : cfg1.N = 64 := by decide
theorem coords_eq : ∀ t : Fin cfg1.N, ((grid1.coords t) 0).val = t.val / 8 ∧ ((grid1.coords t) 1).val = t.val % 8 := by
  decide +kernel

end Cert.KernelIdeal.Value1

end
-- ==== Proof.Value1Alg.lean ====
import proofs.«161930_g22909355557424_cont_8to1_1761_12_alg».proof.Proof.Value1Defs

noncomputable section

namespace Cert.KernelIdeal.Value1

open Cert.KernelIdeal Cert.KernelIdeal.Gen Cert.KernelIdeal.Reals
open Idealize.ShloMosaic Idealize.ShloMosaic.TcCoe Idealize.ShloMosaic.ValueIdx
open Finset

variable (D : Reals.Data)

theorem sn_ge (l : ℕ) (k : Fin 128) (h : 10000 ≤ l) : sn D l k = 0 := dif_neg (by omega)
theorem sn_lt (l : ℕ) (k : Fin 128) (h : l < 10000) : sn D l k = s1 D ⟨l, h⟩ k := dif_pos h
theorem vz_ge (j : ℕ) (h : 10000 ≤ j) : vz D j = 0 := dif_neg (by omega)
theorem vz_lt (j : ℕ) (h : j < 10000) : vz D j = v D ⟨j, h⟩ := dif_pos h
theorem An_lt (i j : ℕ) (hi : i < 10000) (hj : j < 10000) : An D i j = D.A ⟨i, hi⟩ ⟨j, hj⟩ := by
  unfold An; rw [dif_pos hi]; unfold Az; rw [dif_pos hj]

theorem sum_min (g : ℕ → ℝ) (hg : ∀ l, 10000 ≤ l → g l = 0) (N : ℕ) :
    ∑ l ∈ range (min N 10000), g l = ∑ l ∈ range N, g l := by
  rw [← Spec.sum_range_cut 10000 N g]
  refine sum_congr rfl fun l _ => ?_
  by_cases h : l < 10000
  · rw [if_pos h]
  · rw [if_neg h, hg l (not_lt.mp h)]

theorem run_zero (b : ℝ) (g : ℕ → ℝ) : run b g 0 = b := by
  unfold run
  rw [Nat.mul_zero, Nat.zero_min, range_zero, sum_empty, add_zero]

-- One more column block: what holds the running sum after J blocks and gains block J's 1280 terms holds it after J + 1.
theorem run_step (b : ℝ) (g : ℕ → ℝ) (hg : ∀ l, 10000 ≤ l → g l = 0) (J : ℕ) (a0 : EReal) (x y : Fin 1280 → EReal)
    (ha : a0 = (run b g J : EReal)) (hxy : ∀ q : Fin 1280, x q * y q = ((g (1280 * J + q.val) : ℝ) : EReal)) :
    a0 + ∑ q, x q * y q = (run b g (J + 1) : EReal) := by
  have e1 : ∑ q : Fin 1280, x q * y q = ((∑ q ∈ range 1280, g (1280 * J + q) : ℝ) : EReal) := by
    rw [Finset.sum_range (fun q => g (1280 * J + q)), Spec.coe_sum]
    exact Finset.sum_congr rfl fun q _ => hxy q
  rw [ha, e1, ← EReal.coe_add]
  unfold run
  rw [sum_min _ hg, sum_min _ hg, mul_add_one, sum_range_add, add_assoc]

theorem hid_van (i : ℕ) (k : Fin 128) (l : ℕ) (h : 10000 ≤ l) : An D i l * sn D l k = 0 := by rw [sn_ge D l k h, mul_zero]
theorem psum_van (i l : ℕ) (h : 10000 ≤ l) : An D i l * vz D l = 0 := by rw [vz_ge D l h, mul_zero]

theorem hid_all (i : ℕ) (hi : i < 10000) (k : Fin 128) :
    hid D i k 8 = D.b1 k + ∑ l, D.A ⟨i, hi⟩ l * s1 D l k := by
  unfold hid run
  have hm : min (1280 * 8) 10000 = 10000 := by norm_num
  rw [hm, Finset.sum_range (fun l => An D i l * sn D l k)]
  refine congrArg (D.b1 k + ·) (Finset.sum_congr rfl fun l _ => ?_)
  rw [An_lt D i l.val hi l.isLt, sn_lt D l.val k l.isLt]

theorem vz_eq (i : ℕ) (hi : i < 10000) : vz D i = ∑ k, max (hid D i k 8) 0 * wv D k := by
  rw [vz_lt D i hi]
  unfold v
  exact Finset.sum_congr rfl fun k _ => by rw [hid_all D i hi k]

end Cert.KernelIdeal.Value1

end
-- ==== Proof.Value1Steps.lean ====
import proofs.«161930_g22909355557424_cont_8to1_1761_12_alg».proof.Proof.Value1Pay
import proofs.«161930_g22909355557424_cont_8to1_1761_12_alg».proof.Proof.Value1Alg

noncomputable section

namespace Cert.KernelIdeal.Value1

open Cert.KernelIdeal Cert.KernelIdeal.Gen Cert.KernelIdeal.Reals
open Idealize.ShloMosaic Idealize.ShloMosaic.TcCoe Idealize.ShloMosaic.ValueIdx
open Finset

variable (D : Reals.Data)

theorem S_entry {S : Vec Ideal S10240x128 .bf16} (hS : goodS1 D S) (l : Fin 10240) (k : Fin 128) :
    S (ix2 l k) = (sn D l.val k : EReal) := by
  by_cases h : l.val < 10000
  · rw [sn_lt D l.val k h]; exact hS.1 ⟨l.val, h⟩ k
  · rw [sn_ge D l.val k (not_lt.mp h), EReal.coe_zero]; exact hS.2 l k (not_lt.mp h)

theorem accH_bias (ib J : ℕ) (hJ : J = 0) (B : Vec Ideal S1x128 .f32) (hB : ∀ k : Fin 128, B (ix2 (0 : Fin 1) k) = (D.b1 k : EReal)) :
    accH D ib J (k1_pay1 B) := by
  subst hJ
  intro r k _
  rw [pay1_apply, hB k]
  exact congrArg _ (run_zero _ _).symm

theorem accH_add (ib jb : ℕ) (hjb : jb < 7) (X : Vec Ideal S1280x1280 .f32) (Hh : Vec Ideal S1280x128 .f32)
    (sb : Vec Ideal S1280x128 .bf16) (hX : blockA D ib jb X)
    (hsb : ∀ (q : Fin 1280) (k : Fin 128), sb (ix2 q k) = (sn D (1280 * jb + q.val) k : EReal))
    (hH : accH D ib jb Hh) : accH D ib (jb + 1) (k1_pay3 X Hh sb) := by
  intro r k hr
  rw [pay3_apply]
  refine run_step _ _ (hid_van D _ k) jb _ (fun q => X (ix2 r q)) (fun q => sb (ix2 q k)) (hH r k hr) (fun q => ?_)
  beta_reduce
  have hq := q.isLt
  rw [hX r q hr (by omega), hsb q k, ← EReal.coe_mul]

theorem accH_last (ib jb : ℕ) (hjb : jb = 7) (X : Vec Ideal S1280x1280 .f32) (Hh : Vec Ideal S1280x128 .f32)
    (sb : Vec Ideal S1280x128 .bf16) (hX : blockA D ib jb X)
    (hsb : ∀ (q : Fin 1280) (k : Fin 128), sb (ix2 q k) = (sn D (1280 * jb + q.val) k : EReal))
    (hH : accH D ib jb Hh) : accH D ib 8 (k1_pay4 X Hh sb) := by
  subst hjb
  intro r k hr
  rw [pay4_apply]
  refine run_step _ _ (hid_van D _ k) 7 _ (fun q => if q.val < 1040 then X (ix2 r q) else 0) (fun q => sb (ix2 q k)) (hH r k hr) (fun q => ?_)
  beta_reduce
  by_cases hq : q.val < 1040
  · rw [if_pos hq, hX r q hr (by omega), hsb q k, ← EReal.coe_mul]
  · rw [if_neg hq, zero_mul, sn_ge D _ k (by omega), mul_zero, EReal.coe_zero]

theorem diagD_keep (ib : ℕ) (hib : ib < 7) (X : Vec Ideal S1280x1280 .f32) (hX : blockA D ib ib X) : diagD D ib (k1_pay5 X) := by
  rw [pay5_eq]
  intro r q
  have hr := r.isLt
  have hq := q.isLt
  exact hX r q (by omega) (by omega)

theorem sumP_const (ib J : ℕ) (hJ : J = 0) (C : Vec Ideal S1x1 .f32) (hC : goodC D C) : sumP D ib J (k1_pay2 C) := by
  subst hJ
  intro r _
  rw [pay2_apply]
  exact hC.trans (congrArg _ (run_zero _ _).symm)

theorem sumP_add (ib jb : ℕ) (hjb : jb < 7) (p : Vec Ideal S1280x1 .f32) (X : Vec Ideal S1280x1280 .f32) (vb : Vec Ideal S1280x1 .f32)
    (hX : blockA D ib jb X) (hvb : ∀ q : Fin 1280, vb (ix2 q (0 : Fin 1)) = (vz D (1280 * jb + q.val) : EReal))
    (hP : sumP D ib jb p) : sumP D ib (jb + 1) (k1_pay7 p X vb) := by
  intro r hr
  rw [pay7_apply]
  refine run_step _ _ (psum_van D _) jb _ (fun q => X (ix2 r q)) (fun q => vb (ix2 q (0 : Fin 1))) (hP r hr) (fun q => ?_)
  beta_reduce
  have hq := q.isLt
  rw [hX r q hr (by omega), hvb q, ← EReal.coe_mul]

theorem sumP_diag (ib : ℕ) (p newP : Vec Ideal S1280x1 .f32) (d : Vec Ideal S1280x1280 .f32) (w : Vec Ideal S1280x1 .f32)
    (hd : ∀ r q : Fin 1280, 1280 * ib + r.val < 10000 →
      d (ix2 r q) * w (ix2 q (0 : Fin 1)) = ((An D (1280 * ib + r.val) (1280 * ib + q.val) * vz D (1280 * ib + q.val) : ℝ) : EReal))
    (hnew : ∀ r : Fin 1280, newP (ix2 r (0 : Fin 1)) = p (ix2 r (0 : Fin 1)) + ∑ q : Fin 1280, d (ix2 r q) * w (ix2 q (0 : Fin 1)))
    (hP : sumP D ib ib p) : sumP D ib (ib + 1) newP := by
  intro r hr
  rw [hnew r]
  exact run_step _ _ (psum_van D _) ib _ (fun q => d (ix2 r q)) (fun q => w (ix2 q (0 : Fin 1))) (hP r hr) (fun q => hd r q hr)

theorem pay8_val (i : grid1.Coords) (ib : ℕ) (hi : (i 0).val = ib) (h : Vec Ideal S1280x128 .f32) (wvv : Vec Ideal S128x1 .f32)
    (hH : accH D ib 8 h) (hW : goodWv D wvv) (r : Fin 1280) :
    k1_pay8 i h wvv (ix2 r (0 : Fin 1)) = (vz D (1280 * ib + r.val) : EReal) := by
  rw [pay8_apply, hi]
  by_cases hr : 1280 * ib + r.val < 10000
  · rw [if_pos hr, vz_eq D _ hr, Spec.coe_sum]
    refine Finset.sum_congr rfl fun k _ => ?_
    rw [hH r k hr, hW k, Spec.coe_relu, ← EReal.coe_mul]
  · rw [if_neg hr, vz_ge D _ (not_lt.mp hr), EReal.coe_zero]

theorem diag_terms (ib : ℕ) (d : Vec Ideal S1280x1280 .f32) (w : Vec Ideal S1280x1 .f32) (hd : diagD D ib d)
    (hw : ∀ q : Fin 1280, w (ix2 q (0 : Fin 1)) = (vz D (1280 * ib + q.val) : EReal)) (r q : Fin 1280)
    (hr : 1280 * ib + r.val < 10000) :
    d (ix2 r q) * w (ix2 q (0 : Fin 1)) = ((An D (1280 * ib + r.val) (1280 * ib + q.val) * vz D (1280 * ib + q.val) : ℝ) : EReal) := by
  rw [hd r q, hw q, ← EReal.coe_mul]

theorem diag_terms_last (ib : ℕ) (hib : ib = 7) (X : Vec Ideal S1280x1280 .f32) (w : Vec Ideal S1280x1 .f32) (hX : blockA D ib ib X)
    (hw : ∀ q : Fin 1280, w (ix2 q (0 : Fin 1)) = (vz D (1280 * ib + q.val) : EReal)) (r q : Fin 1280)
    (hr : 1280 * ib + r.val < 10000) :
    k1_pay6 X (ix2 r q) * w (ix2 q (0 : Fin 1)) = ((An D (1280 * ib + r.val) (1280 * ib + q.val) * vz D (1280 * ib + q.val) : ℝ) : EReal) := by
  subst hib
  rw [pay6_apply]
  by_cases hq : q.val < 1040
  · rw [if_pos hq, hX r q hr (by omega), hw q, ← EReal.coe_mul]
  · rw [if_neg hq, zero_mul, vz_ge D _ (by omega), mul_zero, EReal.coe_zero]

theorem goodV_put (ib : ℕ) (Vv newV : Vec Ideal S10240x1 .f32) (w : Vec Ideal S1280x1 .f32)
    (hV : goodVupto D ib Vv)
    (hin : ∀ (r : Fin 1280) (h : 1280 * ib + r.val < 10240), newV (ix2 (⟨1280 * ib + r.val, h⟩ : Fin 10240) (0 : Fin 1)) = w (ix2 r (0 : Fin 1)))
    (hout : ∀ q : Fin 10240, q.val < 1280 * ib → newV (ix2 q (0 : Fin 1)) = Vv (ix2 q (0 : Fin 1)))
    (hw : ∀ r : Fin 1280, w (ix2 r (0 : Fin 1)) = (vz D (1280 * ib + r.val) : EReal)) : goodVupto D (ib + 1) newV := by
  intro j hj
  by_cases hlow : j.val < 1280 * ib
  · rw [hout j hlow]; exact hV j hlow
  · obtain ⟨jv, hjv⟩ := j
    have hlow' : ¬ jv < 1280 * ib := hlow
    have hj' : jv < 1280 * (ib + 1) := hj
    have hr : jv - 1280 * ib < 1280 := by omega
    have hb : 1280 * ib + (jv - 1280 * ib) < 10240 := by omega
    have e : (⟨jv, hjv⟩ : Fin 10240) = ⟨1280 * ib + (jv - 1280 * ib), hb⟩ := by
      apply Fin.ext
      show jv = 1280 * ib + (jv - 1280 * ib)
      omega
    rw [e]
    refine (hin ⟨jv - 1280 * ib, hr⟩ _).trans ?_
    rw [hw]

end Cert.KernelIdeal.Value1

end
-- ==== Proof.Body1Index.lean ====
import proofs.«161930_g22909355557424_cont_8to1_1761_12_alg».proof.Proof.Body1Base

noncomputable section

namespace Cert.KernelIdeal.Body1

open Cert.KernelIdeal Cert.KernelIdeal.Gen Cert.KernelIdeal.Frag
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

theorem rows_lt (b : Fin 8) (r : Fin 1280) : 1280 * b.val + r.val < 10240 := by omega

theorem sBlk_apply (i : grid1.Coords) (S : Vec F S10240x128 .bf16) (r : Fin 1280) (k : Fin 128) :
    sBlk i S (ix2 r k) = S (ix2 ⟨1280 * (i 1).val + r.val, rows_lt (i 1) r⟩ k) := by
  unfold sBlk
  show S _ = S _
  congr 1
  funext a
  apply Fin.ext
  match a with
  | ⟨0, _⟩ => simp [LoadRect.idx]
  | ⟨1, _⟩ => simp [LoadRect.idx]

theorem vBlkJ_apply (i : grid1.Coords) (Vv : Vec F S10240x1 .f32) (r : Fin 1280) (z : Fin 1) :
    vBlkJ i Vv (ix2 r z) = Vv (ix2 ⟨1280 * (i 1).val + r.val, rows_lt (i 1) r⟩ z) := by
  unfold vBlkJ
  show Vv _ = Vv _
  congr 1
  funext a
  apply Fin.ext
  match a with
  | ⟨0, _⟩ => simp [LoadRect.idx]
  | ⟨1, _⟩ => simp [LoadRect.idx]

abbrev rowRect (i : grid1.Coords) : Rect S10240x1 :=
  Rect.unit (s := S10240x1) ![1280 * (i 0).val, 0] S1280x1.size (rows_inb1 (i 0))

theorem rowRect_emb (i : grid1.Coords) (r : Fin 1280) (z : Fin 1) :
    (ix2 ⟨1280 * (i 0).val + r.val, rows_lt (i 0) r⟩ z : S10240x1.Idx) = (rowRect i).emb (ix2 r z) := by
  funext a
  apply Fin.ext
  match a with
  | ⟨0, _⟩ => simp [Rect.emb_apply]
  | ⟨1, _⟩ => simp [Rect.emb_apply]

theorem vPut_in (i : grid1.Coords) (Vv : Vec F S10240x1 .f32) (w : Vec F S1280x1 .f32) (r : Fin 1280) (z : Fin 1) :
    vPut i Vv w (ix2 ⟨1280 * (i 0).val + r.val, rows_lt (i 0) r⟩ z) = w (ix2 r z) := by
  unfold vPut
  exact (congrArg ((rowRect i).overlay Vv w) (rowRect_emb i r z)).trans (Rect.overlay_emb (rowRect i) Vv w (ix2 r z))

theorem vPut_out (i : grid1.Coords) (Vv : Vec F S10240x1 .f32) (w : Vec F S1280x1 .f32) (q : Fin 10240) (z : Fin 1)
    (h : q.val < 1280 * (i 0).val ∨ 1280 * (i 0).val + 1280 ≤ q.val) :
    vPut i Vv w (ix2 q z) = Vv (ix2 q z) := by
  unfold vPut
  refine Rect.overlay_of_not_mem (rowRect i) Vv w (fun hm => ?_)
  have h0 : 1280 * (i 0).val ≤ q.val ∧ q.val < 1280 * (i 0).val + 1280 := (Rect.mem_set_unit.mp hm) 0
  omega

end Cert.KernelIdeal.Body1

end
-- ==== Proof.Region1Read.lean ====
import proofs.«161930_g22909355557424_cont_8to1_1761_12_alg».proof.Proof.Region1
import Idealize.ShloMosaic.Lib.Pipeline.Value

noncomputable section

namespace Cert.KernelIdeal.Region1

open Cert.KernelIdeal Cert.KernelIdeal.Gen Cert.KernelIdeal.Frag
open Idealize.ShloMosaic Idealize.ShloMosaic.TcCoe Idealize.ShloMosaic.ValueIdx
open Idealize.ShloMosaic.Pipeline (RDat)

variable {F : FTy → Type} [FloatOps F]

theorem lt64 (t : Fin cfg1.N) : t.val < 64 := lt_of_lt_of_eq t.isLt N_1

theorem read_blk_apply {Val : EltTy → Type} {G : Pipeline.Grid} (w : Pipeline.Window sig G) (t : Fin G.N) (f : w.arr.view.ty.Contents Val)
    (x : (w.xblock (G.coords t)).Idx) :
    (w.blk t).view.read Val f x = w.arr.view.read Val f ((w.rect t).emb x) := rfl

-- Five of the index maps are constantly 0, so for those arrays a block's coordinates are the array's.
theorem transforms_zero (i : grid1.Coords) (a : Fin 2) : cc1_transform_1 i a = 0 ∧ cc1_transform_2 i a = 0 ∧ cc1_transform_3 i a = 0
    ∧ cc1_transform_4 i a = 0 ∧ cc1_transform_5 i a = 0 := by
  fin_cases a <;> exact ⟨rfl, rfl, rfl, rfl, rfl⟩

theorem rect1_emb (t : Fin cfg1.N) (x : S10240x128.Idx) : (win1_1.rect t).emb x = x :=
  funext fun a => Fin.ext (win1_1.rect_emb_val_of_index_zero t a (transforms_zero (grid1.coords t) a).1 x)
theorem rect2_emb (t : Fin cfg1.N) (x : S1x128.Idx) : (win1_2.rect t).emb x = x :=
  funext fun a => Fin.ext (win1_2.rect_emb_val_of_index_zero t a (transforms_zero (grid1.coords t) a).2.1 x)
theorem rect3_emb (t : Fin cfg1.N) (x : S128x1.Idx) : (win1_3.rect t).emb x = x :=
  funext fun a => Fin.ext (win1_3.rect_emb_val_of_index_zero t a (transforms_zero (grid1.coords t) a).2.2.1 x)
theorem rect4_emb (t : Fin cfg1.N) (x : S1x1.Idx) : (win1_4.rect t).emb x = x :=
  funext fun a => Fin.ext (win1_4.rect_emb_val_of_index_zero t a (transforms_zero (grid1.coords t) a).2.2.2.1 x)
theorem rect5_emb (t : Fin cfg1.N) (x : S10240x1.Idx) : (win1_5.rect t).emb x = x :=
  funext fun a => Fin.ext (win1_5.rect_emb_val_of_index_zero t a (transforms_zero (grid1.coords t) a).2.2.2.2 x)

variable (m : (ℓ : Loc nD τ sig) → Buf (Elt F) ℓ) (o : Outs (F := F)) (c : Dev nD)
  (invH : Fin (cfg1.N + 1) → Vec F S1280x128 .f32 → Prop) (invD : Fin (cfg1.N + 1) → Vec F S1280x1280 .f32 → Prop)
  (relV : Fin cfg1.N → (Y X : Vec F S10240x1 .f32) → Prop) (relP : Fin cfg1.N → (Y X : Vec F S1280x1 .f32) → Prop)

-- What stands in v's block at a point is reached from anything at point 0 through the relations of the points before.
theorem finds5_ind (Q : Fin cfg1.N → Vec F S10240x1 .f32 → Prop)
    (h0 : ∀ (t : Fin cfg1.N) Y, t.val = 0 → Q t Y)
    (hs : ∀ (t t' : Fin cfg1.N) Y X, t'.val = t.val + 1 → Q t Y → relV t Y X → Q t' X) :
    ∀ t Y, (rd1 m o c invH invD relV relP).Finds 5 t Y → Q t Y := by
  suffices H : ∀ n (h : n < cfg1.N) Y, (rd1 m o c invH invD relV relP).Finds 5 ⟨n, h⟩ Y → Q ⟨n, h⟩ Y from fun t => H t.val t.isLt
  intro n
  induction n with
  | zero => exact fun h Y _ => h0 _ Y rfl
  | succ n ih =>
    intro h Y hY
    rcases ((rd1 m o c invH invD relV relP).finds_of_pos (w := 5) (t := ⟨n + 1, h⟩) rfl (Nat.succ_ne_zero n) Y).mp hY with hfl | ⟨Y', hY', hR⟩
    · have h64 := lt64 ⟨n + 1, h⟩
      have h63 := (flush1_5 _).mp hfl
      simp only at h63 h64
      omega
    · exact hs ⟨n, by omega⟩ ⟨n + 1, h⟩ Y' Y rfl (ih (by omega) Y' hY') hR

-- The partial result's block likewise, from anything at the first point of its block row.
theorem finds6_ind (Q : Fin cfg1.N → Vec F S1280x1 .f32 → Prop)
    (h0 : ∀ (t : Fin cfg1.N) Y, t.val % 8 = 0 → Q t Y)
    (hs : ∀ (t t' : Fin cfg1.N) Y X, t'.val = t.val + 1 → t'.val % 8 ≠ 0 → Q t Y → relP t Y X → Q t' X) :
    ∀ t Y, (rd1 m o c invH invD relV relP).Finds 6 t Y → Q t Y := by
  suffices H : ∀ n (h : n < cfg1.N) Y, (rd1 m o c invH invD relV relP).Finds 6 ⟨n, h⟩ Y → Q ⟨n, h⟩ Y from fun t => H t.val t.isLt
  intro n
  induction n with
  | zero => exact fun h Y _ => h0 _ Y rfl
  | succ n ih =>
    intro h Y hY
    by_cases ht : (n + 1) % 8 = 0
    · exact h0 _ Y ht
    · rcases ((rd1 m o c invH invD relV relP).finds_of_pos (w := 6) (t := ⟨n + 1, h⟩) rfl (Nat.succ_ne_zero n) Y).mp hY with hfl | ⟨Y', hY', hR⟩
      · have h7 := (flush1_6 _).mp hfl
        simp only at h7
        omega
      · exact hs ⟨n, by omega⟩ ⟨n + 1, h⟩ Y' Y rfl ht (ih (by omega) Y' hY') hR

theorem finds_X (t : Fin cfg1.N) (X : Vec F S1280x1280 .f32) :
    (rd1 m o c invH invD relV relP).Finds 0 t X ↔ ∃ d, X = (rd1 m o c invH invD relV relP).fetched 0 t d :=
  (rd1 m o c invH invD relV relP).finds_of_fetch (fetch1_0 t) X

-- A whole-array input is found, at every point, as the region was entered.
theorem finds_S (t : Fin cfg1.N) (Y : Vec F S10240x128 .bf16) (hY : (rd1 m o c invH invD relV relP).Finds 1 t Y) :
    Y = (V3 m o c main_v2_0 : Vec F S10240x128 .bf16) := by
  obtain ⟨d, rfl⟩ := (rd1 m o c invH invD relV relP).finds_in_eq_fetched 1 rfl (fun _ _ _ => rfl) (fun _ _ _ h => h) t Y hY
  funext x
  show (win1_1.blk t).view.read (Elt F) (V3 m o c main_v2_0) x = _
  rw [read_blk_apply, rect1_emb]; rfl
theorem finds_B (t : Fin cfg1.N) (Y : Vec F S1x128 .f32) (hY : (rd1 m o c invH invD relV relP).Finds 2 t Y) :
    Y = (V3 m o c main_v3 : Vec F S1x128 .f32) := by
  obtain ⟨d, rfl⟩ := (rd1 m o c invH invD relV relP).finds_in_eq_fetched 2 rfl (fun _ _ _ => rfl) (fun _ _ _ h => h) t Y hY
  funext x
  show (win1_2.blk t).view.read (Elt F) (V3 m o c main_v3) x = _
  rw [read_blk_apply, rect2_emb]; rfl
theorem finds_Wv (t : Fin cfg1.N) (Y : Vec F S128x1 .f32) (hY : (rd1 m o c invH invD relV relP).Finds 3 t Y) :
    Y = (V3 m o c main_v2_1 : Vec F S128x1 .f32) := by
  obtain ⟨d, rfl⟩ := (rd1 m o c invH invD relV relP).finds_in_eq_fetched 3 rfl (fun _ _ _ => rfl) (fun _ _ _ h => h) t Y hY
  funext x
  show (win1_3.blk t).view.read (Elt F) (V3 m o c main_v2_1) x = _
  rw [read_blk_apply, rect3_emb]; rfl
theorem finds_C (t : Fin cfg1.N) (Y : Vec F S1x1 .f32) (hY : (rd1 m o c invH invD relV relP).Finds 4 t Y) :
    Y = (V3 m o c main_v2_2 : Vec F S1x1 .f32) := by
  obtain ⟨d, rfl⟩ := (rd1 m o c invH invD relV relP).finds_in_eq_fetched 4 rfl (fun _ _ _ => rfl) (fun _ _ _ h => h) t Y hY
  funext x
  show (win1_4.blk t).view.read (Elt F) (V3 m o c main_v2_2) x = _
  rw [read_blk_apply, rect4_emb]; rfl

def tLast : Fin cfg1.N := ⟨63, by rw [show cfg1.N = 64 from N_1]; decide⟩

theorem arrAt5_below : ∀ n, n ≤ 63 → (rd1 m o c invH invD relV relP).ArrAt 5 n = fun G => G = (rd1 m o c invH invD relV relP).A 5
  | 0, _ => rfl
  | n + 1, h => by
    have hn : n < cfg1.N := by rw [show cfg1.N = 64 from N_1]; omega
    have hfl : ¬ (cfg1.win 5).flush ⟨n, hn⟩ = true := fun hfl => by
      have h63 := (flush1_5 ⟨n, hn⟩).mp hfl
      simp only at h63
      omega
    rw [show n + 1 = (⟨n, hn⟩ : Fin cfg1.N).val + 1 from rfl, (rd1 m o c invH invD relV relP).ArrAt_succ 5 ⟨n, hn⟩, if_neg hfl]
    exact arrAt5_below n (by omega)

theorem arrAt5 (vv : Buf (Elt F) ((c : Thread nD τ).loc main_v4_0)) (h : (rd1 m o c invH invD relV relP).ArrAt 5 cfg1.N vv) :
    ∃ X : Vec F S10240x1 .f32, (rd1 m o c invH invD relV relP).Leaves 5 tLast X ∧ (vv : Vec F S10240x1 .f32) = X := by
  rw [show cfg1.N = (tLast : Fin cfg1.N).val + 1 from N_1, (rd1 m o c invH invD relV relP).ArrAt_succ 5 tLast,
    if_pos ((flush1_5 tLast).mpr rfl)] at h
  obtain ⟨G₀, X, -, hX, rfl⟩ := h
  refine ⟨X, hX, funext fun y => ?_⟩
  have hw := View.write_emb_of_mem (v := (win1_5.blk tLast).view) G₀ (win1_5.cut (grid1.coords tLast) X) (Finset.mem_univ y)
  rw [show (win1_5.blk tLast).view.emb y = y from rect5_emb tLast y] at hw
  exact hw.trans (cast_eq _ _)

theorem coords_row : ∀ t : Fin cfg1.N, ((grid1.coords t) 0).val = t.val / 8 :=
  (by decide +kernel : ∀ t : Fin grid1.N, ((grid1.coords t) 0).val = t.val / 8)

theorem transform6_row : ∀ i : grid1.Coords, cc1_transform_6 i 0 = (i 0).val := by decide +kernel

def rowEnd (b : Fin 8) : Fin cfg1.N := ⟨8 * b.val + 7, by rw [show cfg1.N = 64 from N_1]; omega⟩

-- Row r of the partial result's block at point t is row 1280 (t / 8) + r of the array.
theorem rect6_emb (t : Fin cfg1.N) (r : Fin 1280) (h : 1280 * (t.val / 8) + r.val < 10240) :
    (win1_6.rect t).emb (ix2 r (0 : Fin 1)) = (ix2 ⟨1280 * (t.val / 8) + r.val, h⟩ (0 : Fin 1) : S10240x1.Idx) :=
  funext fun a => Fin.ext (by
    rw [Rect.emb_apply]
    match a with
    | ⟨0, _⟩ =>
      show cc1_transform_6 (grid1.coords t) 0 * 1280 + 1 * r.val = 1280 * (t.val / 8) + r.val
      rw [transform6_row, coords_row]; omega
    | ⟨1, _⟩ => rfl)

-- After the points below n, every block row already written holds what stood in the block at the row's last point.
theorem arrAt6_inv : ∀ n, n ≤ 64 → ∀ G : Buf (Elt F) ((c : Thread nD τ).loc main_v4_1),
    (rd1 m o c invH invD relV relP).ArrAt 6 n G → ∀ b : Fin 8, 8 * b.val + 7 < n →
      ∃ X : Vec F S1280x1 .f32, (rd1 m o c invH invD relV relP).Leaves 6 (rowEnd b) X
        ∧ ∀ r : Fin 1280, (G : Vec F S10240x1 .f32) (ix2 ⟨1280 * b.val + r.val, by have := b.isLt; have := r.isLt; omega⟩ (0 : Fin 1)) = X (ix2 r (0 : Fin 1))
  | 0, _, _, _, b, hb => absurd hb (by omega)
  | n + 1, hn, G, hG, b, hb => by
    have hn' : n < cfg1.N := by rw [show cfg1.N = 64 from N_1]; omega
    rw [show n + 1 = (⟨n, hn'⟩ : Fin cfg1.N).val + 1 from rfl, (rd1 m o c invH invD relV relP).ArrAt_succ 6 ⟨n, hn'⟩] at hG
    by_cases hfl : (cfg1.win 6).flush ⟨n, hn'⟩ = true
    · rw [if_pos hfl] at hG
      obtain ⟨G₀, X, hG₀, hX, rfl⟩ := hG
      have h7 : n % 8 = 7 := (flush1_6 ⟨n, hn'⟩).mp hfl
      by_cases hbn : 8 * b.val + 7 = n
      · have e : rowEnd b = ⟨n, hn'⟩ := Fin.ext hbn
        refine ⟨X, e ▸ hX, fun r => ?_⟩
        have hrow : 1280 * (n / 8) + r.val = 1280 * b.val + r.val := by omega
        have hlt : 1280 * (n / 8) + r.val < 10240 := by have := b.isLt; have := r.isLt; omega
        have hw := View.write_emb_of_mem (v := (win1_6.blk ⟨n, hn'⟩).view) G₀ (win1_6.cut (grid1.coords ⟨n, hn'⟩) X)
          (Finset.mem_univ (ix2 r (0 : Fin 1)))
        have hy : (win1_6.blk ⟨n, hn'⟩).view.emb (ix2 r (0 : Fin 1))
            = (ix2 ⟨1280 * b.val + r.val, by have := b.isLt; have := r.isLt; omega⟩ (0 : Fin 1) : S10240x1.Idx) :=
          (rect6_emb ⟨n, hn'⟩ r hlt).trans (by congr 1; exact Fin.ext hrow)
        rw [hy] at hw
        exact hw.trans (cast_eq _ _)
      · obtain ⟨X', hX', hr⟩ := arrAt6_inv n (by omega) G₀ hG₀ b (by omega)
        refine ⟨X', hX', fun r => ?_⟩
        rw [← hr r]
        refine View.write_of_not_mem _ _ _ (fun hmem => ?_)
        obtain ⟨x, -, hx⟩ := Finset.mem_map.mp hmem
        have h0 := congrArg (fun i : S10240x1.Idx => (i 0).val) hx
        have hx0 : ((win1_6.rect ⟨n, hn'⟩).emb x 0).val = cc1_transform_6 (grid1.coords ⟨n, hn'⟩) 0 * 1280 + 1 * (x 0).val := rfl
        have hxlt := (x 0).isLt
        change ((win1_6.rect ⟨n, hn'⟩).emb x 0).val = 1280 * b.val + r.val at h0
        rw [hx0, transform6_row, coords_row] at h0
        simp only at h0
        omega
    · rw [if_neg hfl] at hG
      have h7 : n % 8 ≠ 7 := fun h => hfl ((flush1_6 ⟨n, hn'⟩).mpr h)
      exact arrAt6_inv n (by omega) G hG b (by omega)

theorem arrAt6 (pp : Buf (Elt F) ((c : Thread nD τ).loc main_v4_1)) (h : (rd1 m o c invH invD relV relP).ArrAt 6 cfg1.N pp) (b : Fin 8) :
    ∃ X : Vec F S1280x1 .f32, (rd1 m o c invH invD relV relP).Leaves 6 (rowEnd b) X
      ∧ ∀ r : Fin 1280, (pp : Vec F S10240x1 .f32) (ix2 ⟨1280 * b.val + r.val, by have := b.isLt; have := r.isLt; omega⟩ (0 : Fin 1)) = X (ix2 r (0 : Fin 1)) :=
  arrAt6_inv m o c invH invD relV relP 64 le_rfl pp (by rw [show cfg1.N = 64 from N_1] at h; exact h) b (by have := b.isLt; omega)

end Cert.KernelIdeal.Region1

end
-- ==== Proof.Value1Final.lean ====
import proofs.«161930_g22909355557424_cont_8to1_1761_12_alg».proof.Proof.Value1Alg
import proofs.«161930_g22909355557424_cont_8to1_1761_12_alg».proof.Proof.Region1
import proofs.«161930_g22909355557424_cont_8to1_1761_12_alg».proof.Proof.Region1Read
import Idealize.ShloMosaic.Lib.ValueIdx
import Idealize.ShloMosaic.Lib.Pipeline.Value
import Idealize.ShloMosaic.Lib.StableHlo.Run

noncomputable section

namespace Cert.KernelIdeal.Value1

open Cert.KernelIdeal Cert.KernelIdeal.Gen Cert.KernelIdeal.Frag Cert.KernelIdeal.Between Cert.KernelIdeal.Reals
open Idealize.ShloMosaic Idealize.ShloMosaic.TcCoe Idealize.ShloMosaic.ValueIdx
open Idealize.ShloMosaic.Pipeline (RDat)
open Finset

variable (D : Reals.Data)
variable (m : (ℓ : Loc nD τ sig) → Buf (Elt Ideal) ℓ) (o : Outs (F := Ideal)) (c : Dev nD)

theorem V3_arg0 : V3 m o c main_arg0 = m ((c : Thread nD τ).loc main_arg0) :=
  (V3_of m o c main_arg0 (by decide)).trans ((V2_of m o c main_arg0 (by decide)).trans ((V1_of m c main_arg0 (by decide)).trans rfl))

theorem V3_s1 : V3 m o c main_v2_0 = o 2 main_v2_0 c := by
  refine (V3_of m o c main_v2_0 (by decide)).trans ?_
  show Function.update (Function.update (Function.update (V1 m c) main_v2_0 (o 2 main_v2_0 c)) main_v2_1 (o 2 main_v2_1 c)) main_v2_2 (o 2 main_v2_2 c) (Proc.devRef .tc main_v2_0) = _
  rw [Function.update_of_ne (StableHlo.devRef_ne_of_ne (by decide) : (Proc.devRef .tc main_v2_0 : DevRef τ sig) ≠ Proc.devRef .tc main_v2_2),
    Function.update_of_ne (StableHlo.devRef_ne_of_ne (by decide) : (Proc.devRef .tc main_v2_0 : DevRef τ sig) ≠ Proc.devRef .tc main_v2_1),
    Function.update_self]

theorem V3_wv : V3 m o c main_v2_1 = o 2 main_v2_1 c := by
  refine (V3_of m o c main_v2_1 (by decide)).trans ?_
  show Function.update (Function.update (Function.update (V1 m c) main_v2_0 (o 2 main_v2_0 c)) main_v2_1 (o 2 main_v2_1 c)) main_v2_2 (o 2 main_v2_2 c) (Proc.devRef .tc main_v2_1) = _
  rw [Function.update_of_ne (StableHlo.devRef_ne_of_ne (by decide) : (Proc.devRef .tc main_v2_1 : DevRef τ sig) ≠ Proc.devRef .tc main_v2_2),
    Function.update_self]

theorem V3_c0 : V3 m o c main_v2_2 = o 2 main_v2_2 c := by
  refine (V3_of m o c main_v2_2 (by decide)).trans ?_
  show Function.update (Function.update (Function.update (V1 m c) main_v2_0 (o 2 main_v2_0 c)) main_v2_1 (o 2 main_v2_1 c)) main_v2_2 (o 2 main_v2_2 c) (Proc.devRef .tc main_v2_2) = _
  rw [Function.update_self]

theorem V2_arg3 : V2 m o c main_arg3 = m ((c : Thread nD τ).loc main_arg3) :=
  (V2_of m o c main_arg3 (by decide)).trans ((V1_of m c main_arg3 (by decide)).trans rfl)

theorem V3_bias :
    (V3 m o c main_v3 : S1x128.Idx → EReal)
      = shapeCast S1x128 (m ((c : Thread nD τ).loc main_arg3) : S128.Idx → EReal) shapeCasts_S128_S1x128 := by
  show StableHlo.after hostOps1 (V2 m o c) (Proc.devRef .tc main_v3) = _
  after_results
  exact congrArg (fun x : S128.Idx → EReal => shapeCast S1x128 x shapeCasts_S128_S1x128) (V2_arg3 m o c)

theorem V3_bias_at (k : Fin 128) :
    (V3 m o c main_v3 : S1x128.Idx → EReal) (ix2 (0 : Fin 1) k) = (m ((c : Thread nD τ).loc main_arg3) : S128.Idx → EReal) (ix1 k) := by
  refine (congrFun (V3_bias m o c) (ix2 (0 : Fin 1) k)).trans ?_
  refine (shapeCast_addUnit_apply ![128] (m ((c : Thread nD τ).loc main_arg3) : S128.Idx → EReal) shapeCasts_S128_S1x128 (ix2 (0 : Fin 1) k)).trans ?_
  exact congrArg (m ((c : Thread nD τ).loc main_arg3) : S128.Idx → EReal) (funext fun a => by match a with | ⟨0, _⟩ => rfl)

abbrev rdV : RDat τ (Elt Ideal) Unit ℕ UU ℕ cfg1 c :=
  Region1.rd1 m o c (invH D m o c) (invD D m o c) (relV D m o c) (relP D m o c)

theorem adj_index : ∀ t : Fin cfg1.N, (win1_0.index t : Fin 2 → ℕ) 0 = t.val / 8 ∧ (win1_0.index t : Fin 2 → ℕ) 1 = t.val % 8 := by
  decide +kernel

theorem adj_extent : ∀ t : Fin cfg1.N,
    (win1_0.xsize (grid1.coords t) : Fin 2 → ℕ) 0 = (if t.val / 8 = 7 then 1040 else 1280)
      ∧ (win1_0.xsize (grid1.coords t) : Fin 2 → ℕ) 1 = (if t.val % 8 = 7 then 1040 else 1280) := by
  decide +kernel

theorem adj_moved (t : Fin cfg1.N) (r q : Fin 1280) (h0 : 1280 * (t.val / 8) + r.val < 10000) (h1 : 1280 * (t.val % 8) + q.val < 10000) :
    win1_0.moved (grid1.coords t) (ix2 r q) = true := by
  rw [Pipeline.Window.moved_iff]
  have hx := adj_extent t
  have h64 := Region1.lt64 t
  refine Fin.forall_fin_two.mpr ⟨?_, ?_⟩
  · show r.val < (win1_0.xsize (grid1.coords t) : Fin 2 → ℕ) 0
    rw [hx.1]; split <;> omega
  · show q.val < (win1_0.xsize (grid1.coords t) : Fin 2 → ℕ) 1
    rw [hx.2]; split <;> omega

theorem read_adj (t : Fin cfg1.N) (f : win1_0.arr.view.ty.Contents (Elt Ideal)) (x : (win1_0.xblock (grid1.coords t)).Idx) :
    (win1_0.blk t).view.read (Elt Ideal) f x = (f : S10000x10000.Idx → EReal) ((win1_0.rect t).emb x) := rfl

theorem fetched_adj (t : Fin cfg1.N) (d : Vec Ideal S1280x1280 .f32) (r q : Fin 1280)
    (h0 : 1280 * (t.val / 8) + r.val < 10000) (h1 : 1280 * (t.val % 8) + q.val < 10000) :
    (rdV D m o c).fetched 0 t d (ix2 r q)
      = (m ((c : Thread nD τ).loc main_arg0) : Vec Ideal S10000x10000 .f32) (ix2 ⟨1280 * (t.val / 8) + r.val, h0⟩ ⟨1280 * (t.val % 8) + q.val, h1⟩) := by
  unfold RDat.fetched
  show win1_0.fill (grid1.coords t) d ((rdV D m o c).blockOf 0 t) (ix2 r q) = _
  unfold Pipeline.Window.fill
  rw [dif_pos (adj_moved t r q h0 h1)]
  unfold RDat.blockOf
  refine (read_adj t _ _).trans ?_
  show (V3 m o c main_arg0 : S10000x10000.Idx → EReal) _ = _
  rw [V3_arg0]
  refine congrArg (m ((c : Thread nD τ).loc main_arg0) : S10000x10000.Idx → EReal) ?_
  have hi := adj_index t
  refine Shape.idx_ext₂ ?_ ?_
  · refine (Pipeline.Window.rect_emb_val win1_0 t _ 0).trans ?_
    show (win1_0.index t : Fin 2 → ℕ) 0 * 1280 + r.val = 1280 * (t.val / 8) + r.val
    rw [hi.1]; omega
  · refine (Pipeline.Window.rect_emb_val win1_0 t _ 1).trans ?_
    show (win1_0.index t : Fin 2 → ℕ) 1 * 1280 + q.val = 1280 * (t.val % 8) + q.val
    rw [hi.2]; omega

theorem psum_diag (i : Fin 10000) : psum D i.val (i.val / 1280 + 1) = part D i := by
  unfold psum run part
  refine congrArg (fun x => c0 D + x) (Finset.sum_congr rfl fun j _ => ?_)
  beta_reduce
  unfold An; rw [dif_pos i.isLt]

theorem goodV_of_upto {y : Vec Ideal S10240x1 .f32} (h : goodVupto D 8 y) : goodV D y := by
  refine ⟨fun j => ?_, fun j hj => ?_⟩
  · rw [h ⟨j.val, by have := j.isLt; omega⟩ (by have := j.isLt; show j.val < 1280 * 8; omega), vz_lt D _ j.isLt]
  · rw [h j (by have := j.isLt; omega), vz_ge D _ hj, EReal.coe_zero]

theorem finds5_good (hm : Holds D m c) (g0 : G0 D o c) (t : Fin cfg1.N) (Y : Vec Ideal S10240x1 .f32) (hY : (rdV D m o c).Finds 5 t Y) :
    goodVupto D (t.val / 8) Y := by
  refine Region1.finds5_ind m o c _ _ _ _ (fun t Y => goodVupto D (t.val / 8) Y) ?_ ?_ t Y hY
  · intro t Y ht j hj
    rw [ht] at hj; omega
  · intro t t' Y X ht' hQ hR
    have h := hR hm g0 hQ
    rw [← ht'] at h; exact h

theorem finds6_good (hm : Holds D m c) (g0 : G0 D o c) (t : Fin cfg1.N) (Y : Vec Ideal S1280x1 .f32) (hY : (rdV D m o c).Finds 6 t Y) :
    foundP D t.val Y := by
  refine Region1.finds6_ind m o c _ _ _ _ (fun t Y => foundP D t.val Y) ?_ ?_ t Y hY
  · intro t Y h0 hne
    exact absurd h0 hne
  · intro t t' Y X ht' hne hQ hR _
    have hL : leftP D t.val X := hR hm g0 hQ
    unfold leftP at hL
    rw [if_neg (by omega : ¬ t.val % 8 = 7)] at hL
    have e1 : t'.val / 8 = t.val / 8 := by omega
    have e2 : t'.val % 8 = t.val % 8 + 1 := by omega
    rw [e1, e2]; exact hL

theorem found_facts (t : Fin cfg1.N) (X : Vec Ideal S1280x1280 .f32) (S : Vec Ideal S10240x128 .bf16) (B : Vec Ideal S1x128 .f32)
    (Wv : Vec Ideal S128x1 .f32) (C : Vec Ideal S1x1 .f32) (Vv : Vec Ideal S10240x1 .f32) (Pp : Vec Ideal S1280x1 .f32)
    (hF : Region1.Found (rdV D m o c) t X S B Wv C Vv Pp)
    (hm : Holds D m c) (g0 : G0 D o c) :
    blockA D (t.val / 8) (t.val % 8) X ∧ goodS1 D S ∧ (∀ k : Fin 128, B (ix2 (0 : Fin 1) k) = (D.b1 k : EReal)) ∧ goodWv D Wv
      ∧ goodC D C ∧ goodVupto D (t.val / 8) Vv ∧ foundP D t.val Pp := by
  obtain ⟨hX, hS, hB, hW, hC, hV, hP⟩ := hF
  refine ⟨?_, ?_, ?_, ?_, ?_, finds5_good D m o c hm g0 t Vv hV, finds6_good D m o c hm g0 t Pp hP⟩
  · obtain ⟨d, rfl⟩ := (Region1.finds_X m o c _ _ _ _ t X).mp hX
    intro r q h0 h1
    rw [fetched_adj D m o c t d r q h0 h1, An_lt D _ _ h0 h1]
    exact hm.1 ⟨_, h0⟩ ⟨_, h1⟩
  · have e := Region1.finds_S m o c _ _ _ _ t S hS
    subst e
    exact (congrArg (goodS1 D) (V3_s1 m o c)).mpr g0.1
  · have e := Region1.finds_B m o c _ _ _ _ t B hB
    subst e
    intro k
    exact (V3_bias_at m o c k).trans (hm.2.2.2.1 k)
  · have e := Region1.finds_Wv m o c _ _ _ _ t Wv hW
    subst e
    exact (congrArg (goodWv D) (V3_wv m o c)).mpr g0.2.1
  · have e := Region1.finds_C m o c _ _ _ _ t C hC
    subst e
    exact (congrArg (goodC D) (V3_c0 m o c)).mpr g0.2.2

theorem final1 (vv : Buf (Elt Ideal) ((c : Thread nD τ).loc main_v4_0)) (pp : Buf (Elt Ideal) ((c : Thread nD τ).loc main_v4_1)) :
    (rdV D m o c).ArrAt 5 cfg1.N vv →
    (rdV D m o c).ArrAt 6 cfg1.N pp →
    (Reals.claims D m).after1 (Region1.outsWith o c vv pp) c := by
  intro h5 h6 hm g0'
  have g0 : G0 D o c := G0_congr D (o := Region1.outsWith o c vv pp) (o' := o)
    (Region1.outsWith_of_ne o c vv pp (by decide : (2 : ℕ) ≠ 4)).symm c g0'
  show goodV D (Region1.outsWith o c vv pp 4 main_v4_0 c) ∧ goodP D (Region1.outsWith o c vv pp 4 main_v4_1 c)
  rw [Region1.outsWith_v, Region1.outsWith_p]
  constructor
  · obtain ⟨X, ⟨Y, hY, hR⟩, e⟩ := Region1.arrAt5 m o c _ _ _ _ vv h5
    have hYg := finds5_good D m o c hm g0 Region1.tLast Y hY
    have hXg : goodVupto D ((Region1.tLast.val + 1) / 8) X := (hR : relV D m o c Region1.tLast Y X) hm g0 hYg
    have hv : goodV D X := goodV_of_upto D hXg
    exact (congrArg (goodV D) e).mpr hv
  · intro i
    have hi := i.isLt
    have hb : i.val / 1280 < 8 := by omega
    obtain ⟨X, ⟨Y, hY, hR⟩, e⟩ := Region1.arrAt6 m o c _ _ _ _ pp h6 ⟨i.val / 1280, hb⟩
    have hYg := finds6_good D m o c hm g0 (Region1.rowEnd ⟨i.val / 1280, hb⟩) Y hY
    have hL : leftP D (Region1.rowEnd ⟨i.val / 1280, hb⟩).val X := (hR : relP D m o c (Region1.rowEnd ⟨i.val / 1280, hb⟩) Y X) hm g0 hYg
    have hv : (Region1.rowEnd ⟨i.val / 1280, hb⟩).val = 8 * (i.val / 1280) + 7 := rfl
    have h7 : (Region1.rowEnd ⟨i.val / 1280, hb⟩).val % 8 = 7 := by rw [hv]; omega
    have hd : (Region1.rowEnd ⟨i.val / 1280, hb⟩).val / 8 = i.val / 1280 := by rw [hv]; omega
    unfold leftP at hL
    rw [if_pos h7, hd] at hL
    have hr : i.val % 1280 < 1280 := Nat.mod_lt _ (by decide)
    have hsum : 1280 * (i.val / 1280) + i.val % 1280 = i.val := Nat.div_add_mod _ _
    have hx := hL ⟨i.val % 1280, hr⟩ (by show 1280 * (i.val / 1280) + i.val % 1280 < 10000; omega)
    refine (congrArg (fun j : Fin 10240 => (pp : Vec Ideal S10240x1 .f32) (ix2 j (0 : Fin 1)))
      (Fin.ext hsum.symm : (⟨i.val, _⟩ : Fin 10240) = ⟨1280 * (i.val / 1280) + i.val % 1280, by omega⟩)).trans ?_
    refine (e ⟨i.val % 1280, hr⟩).trans ?_
    refine hx.trans ?_
    show ((psum D (1280 * (i.val / 1280) + i.val % 1280) (i.val / 1280 + 1) : ℝ) : EReal) = _
    rw [hsum, psum_diag]

end Cert.KernelIdeal.Value1

end
-- ==== Proof.Value1.lean ====
import proofs.«161930_g22909355557424_cont_8to1_1761_12_alg».proof.Proof.Value1Steps
import proofs.«161930_g22909355557424_cont_8to1_1761_12_alg».proof.Proof.Region1
import proofs.«161930_g22909355557424_cont_8to1_1761_12_alg».proof.Proof.Body1Index
import proofs.«161930_g22909355557424_cont_8to1_1761_12_alg».proof.Proof.Value1Final

noncomputable section

namespace Cert.KernelIdeal.Value1

open Cert.KernelIdeal Cert.KernelIdeal.Gen Cert.KernelIdeal.Between Cert.KernelIdeal.Reals
open Idealize.ShloMosaic Idealize.ShloMosaic.TcCoe Idealize.ShloMosaic.ValueIdx
open Finset

variable (D : Reals.Data)

theorem sBlk_entry {S : Vec Ideal S10240x128 .bf16} (hS : goodS1 D S) (i : grid1.Coords) (jb : ℕ) (e1 : (i 1).val = jb)
    (q : Fin 1280) (k : Fin 128) : Body1.sBlk i S (ix2 q k) = (sn D (1280 * jb + q.val) k : EReal) := by
  subst e1
  rw [Body1.sBlk_apply]
  exact S_entry D hS _ k

theorem vBlk_entry {Vv : Vec Ideal S10240x1 .f32} (ib : ℕ) (hV : goodVupto D ib Vv) (i : grid1.Coords) (jb : ℕ)
    (e1 : (i 1).val = jb) (hlt : jb < ib) (q : Fin 1280) :
    Body1.vBlkJ i Vv (ix2 q (0 : Fin 1)) = (vz D (1280 * jb + q.val) : EReal) := by
  subst e1
  rw [Body1.vBlkJ_apply]
  refine hV _ ?_
  show 1280 * (i 1).val + q.val < 1280 * ib
  have := q.isLt
  omega

theorem goodV_vPut (i : grid1.Coords) (ib : ℕ) (e0 : (i 0).val = ib) (Vv : Vec Ideal S10240x1 .f32) (w : Vec Ideal S1280x1 .f32)
    (hV : goodVupto D ib Vv) (hw : ∀ r : Fin 1280, w (ix2 r (0 : Fin 1)) = (vz D (1280 * ib + r.val) : EReal)) :
    goodVupto D (ib + 1) (Body1.vPut i Vv w) := by
  subst e0
  exact goodV_put D _ Vv _ w hV (fun r h => Body1.vPut_in i Vv w r 0) (fun q hq => Body1.vPut_out i Vv w q 0 (Or.inl hq)) hw

variable (X : Vec Ideal S1280x1280 .f32) (S : Vec Ideal S10240x128 .bf16) (B : Vec Ideal S1x128 .f32) (Wv : Vec Ideal S128x1 .f32)
  (C : Vec Ideal S1x1 .f32) (Vv : Vec Ideal S10240x1 .f32) (Pp : Vec Ideal S1280x1 .f32) (Hh : Vec Ideal S1280x128 .f32)
  (Dd : Vec Ideal S1280x1280 .f32)

-- What the body is handed at point t = 8·ib + jb, over the block coordinates (ib, jb) = (t / 8, t % 8).
structure Known (t : ℕ) (i : grid1.Coords) : Prop where
  e : (i 0).val = t / 8 ∧ (i 1).val = t % 8 ∧ t < 64
  hX : blockA D (t / 8) (t % 8) X
  hS : ∀ (q : Fin 1280) (k : Fin 128), Body1.sBlk i S (ix2 q k) = (sn D (1280 * (t % 8) + q.val) k : EReal)
  hB : ∀ k : Fin 128, B (ix2 (0 : Fin 1) k) = (D.b1 k : EReal)
  hW : goodWv D Wv
  hC : goodC D C
  hV : goodVupto D (t / 8) Vv
  hP : foundP D t Pp
  hH : t % 8 ≠ 0 → accH D (t / 8) (t % 8) Hh
  hD : t / 8 < t % 8 → diagD D (t / 8) Dd

variable {X S B Wv C Vv Pp Hh Dd} {t : ℕ} {i : grid1.Coords} (K : Known D X S B Wv C Vv Pp Hh Dd t i)
include K

-- Before a block row's last point the row accumulator takes one more column block, the long vector stays.
theorem Known.nextH (h7 : t % 8 < 7) {H0 : Vec Ideal S1280x128 .f32} (h : accH D (t / 8) (t % 8) H0) :
    accH D (t / 8) (t % 8 + 1) (k1_pay3 X H0 (Body1.sBlk i S)) := accH_add D _ _ h7 X H0 _ K.hX K.hS h

theorem Known.keepV (h7 : t % 8 < 7) : goodVupto D ((t + 1) / 8) Vv := by
  rw [show (t + 1) / 8 = t / 8 by omega]; exact K.hV

theorem Known.diag (e : t % 8 = t / 8) : blockA D (t / 8) (t / 8) X := by
  have h := K.hX; rwa [e] at h

theorem Known.found (h0 : t % 8 ≠ 0) {J : ℕ} (e : min (t % 8) (t / 8) = J) : sumP D (t / 8) J Pp := e ▸ K.hP h0

-- Below the diagonal the partial sum takes the block against the finished part of the long vector.
theorem Known.below (hlt : t % 8 < t / 8) {p : Vec Ideal S1280x1 .f32} (h : sumP D (t / 8) (t % 8) p) :
    leftP D t (k1_pay7 p X (Body1.vBlkJ i Vv)) := by
  have e := K.e
  refine (if_neg (by omega)).mpr ?_
  rw [show min (t % 8 + 1) (t / 8) = t % 8 + 1 by omega]
  exact sumP_add D _ _ (by omega) p X _ K.hX (vBlk_entry D _ K.hV _ _ K.e.2.1 hlt) h

-- From the diagonal on, before the row's last point, the partial sum waits.
theorem Known.waitP (h0 : t % 8 ≠ 0) (hle : t / 8 ≤ t % 8) (h7 : t % 8 < 7) : leftP D t Pp :=
  (if_neg (by omega)).mpr (K.found D h0 (by omega))

-- A block row's last point finishes the row block of the long vector; a block d whose products with it are the diagonal terms completes the partial result.
theorem Known.row_end (h7 : t % 8 = 7) (d : Vec Ideal S1280x1280 .f32)
    (hd : ∀ w : Vec Ideal S1280x1 .f32, (∀ q : Fin 1280, w (ix2 q (0 : Fin 1)) = (vz D (1280 * (t / 8) + q.val) : EReal)) →
      ∀ r q : Fin 1280, 1280 * (t / 8) + r.val < 10000 →
        d (ix2 r q) * w (ix2 q (0 : Fin 1)) = ((An D (1280 * (t / 8) + r.val) (1280 * (t / 8) + q.val) * vz D (1280 * (t / 8) + q.val) : ℝ) : EReal)) :
    goodVupto D ((t + 1) / 8) (Body1.vPut i Vv (k1_pay8 i (k1_pay4 X Hh (Body1.sBlk i S)) Wv))
      ∧ leftP D t (k1_pay9 i (k1_pay4 X Hh (Body1.sBlk i S)) Wv Pp d) := by
  have e := K.e
  have hw := pay8_val D i _ K.e.1 _ Wv (accH_last D _ _ h7 X Hh _ K.hX K.hS (K.hH (by omega))) K.hW
  refine ⟨?_, (if_pos h7).mpr ?_⟩
  · rw [show (t + 1) / 8 = t / 8 + 1 by omega]
    exact goodV_vPut D i _ K.e.1 Vv _ K.hV hw
  · exact sumP_diag D _ Pp _ d _ (hd _ hw) (fun r => pay9_apply i _ Wv Pp d r 0) (K.found D (by omega) (by omega))

omit K
variable (m : (ℓ : Loc nD τ sig) → Buf (Elt Ideal) ℓ) (o : Outs (F := Ideal)) (c : Dev nD)

-- A point keeps the four predicates if, from what is known there, the new buffers hold what the next point is to find.
theorem point (t : Fin cfg1.N) (hF : Region1.Found (rdV D m o c) t X S B Wv C Vv Pp) (hH : invH D m o c t.castSucc Hh)
    (hD : invD D m o c t.castSucc Dd) {nH : Vec Ideal S1280x128 .f32} {nD : Vec Ideal S1280x1280 .f32} {nV : Vec Ideal S10240x1 .f32}
    {nP : Vec Ideal S1280x1 .f32}
    (h : Known D X S B Wv C Vv Pp Hh Dd t.val (grid1.coords t) →
      (t.val % 8 < 7 → accH D (t.val / 8) (t.val % 8 + 1) nH) ∧ (t.val % 8 < 7 → t.val / 8 ≤ t.val % 8 → diagD D (t.val / 8) nD)
        ∧ goodVupto D ((t.val + 1) / 8) nV ∧ leftP D t.val nP) :
    invH D m o c t.succ nH ∧ invD D m o c t.succ nD ∧ relV D m o c t Vv nV ∧ relP D m o c t Pp nP := by
  have k : Holds D m c → G0 D o c → _ := fun hm g0 => h (by
    obtain ⟨hX, hS, hB, hW, hC, hV, hP⟩ := found_facts D m o c t X S B Wv C Vv Pp hF hm g0
    obtain ⟨e0, e1⟩ := coords_eq t
    exact ⟨⟨e0, e1, lt_of_lt_of_eq t.isLt points_eq⟩, hX, sBlk_entry D hS _ _ e1, hB, hW, hC, hV, hP, hH hm g0, hD hm g0⟩)
  refine ⟨fun hm g0 hne => ?_, fun hm g0 hlt => ?_, fun hm g0 _ => (k hm g0).2.2.1, fun hm g0 _ => (k hm g0).2.2.2⟩
  · rw [Fin.val_succ] at hne ⊢
    rw [show (t.val + 1) / 8 = t.val / 8 by omega, show (t.val + 1) % 8 = t.val % 8 + 1 by omega]
    exact (k hm g0).1 (by omega)
  · rw [Fin.val_succ] at hlt ⊢
    rw [show (t.val + 1) / 8 = t.val / 8 by omega] at hlt ⊢
    exact (k hm g0).2.1 (by omega) (by omega)

-- The second region's predicates at the extended reals; one field per kind of point (ib, jb) the grid meets.
def steps1 : Region1.Steps m (Reals.claims D m) o c where
  invH := invH D m o c
  invD := invD D m o c
  relV := relV D m o c
  relP := relP D m o c
  invH0 := fun h hm g0 hne => absurd rfl hne
  invD0 := fun d hm g0 hlt => absurd hlt (by decide)
  stepA := fun t h0 h1 X S B Wv C Vv Pp Hh Dd hF hH hD => point D m o c t hF hH hD fun K => by
    have e := K.e
    exact ⟨fun h7 => K.nextH D h7 (accH_bias D _ _ (by omega) B K.hB), fun h7 _ => diagD_keep D _ (by omega) X (K.diag D (by omega)),
      K.keepV D (by omega), (if_neg (by omega)).mpr (sumP_const D _ _ (by omega) C K.hC)⟩
  stepB := fun t h0 h1 X S B Wv C Vv Pp Hh Dd hF hH hD => point D m o c t hF hH hD fun K => by
    have e := K.e
    exact ⟨fun h7 => K.nextH D h7 (accH_bias D _ _ (by omega) B K.hB), fun _ h => absurd h (by omega),
      K.keepV D (by omega), K.below D (by omega) (sumP_const D _ _ (by omega) C K.hC)⟩
  stepC := fun t h0 h1 X S B Wv C Vv Pp Hh Dd hF hH hD => point D m o c t hF hH hD fun K => by
    have e := K.e
    exact ⟨fun h7 => K.nextH D h7 (K.hH (by omega)), fun _ h => absurd h (by omega),
      K.keepV D (by omega), K.below D (by omega) (K.found D (by omega) (by omega))⟩
  stepD := fun t h0 h1 h2 X S B Wv C Vv Pp Hh Dd hF hH hD => point D m o c t hF hH hD fun K => by
    have e := K.e
    exact ⟨fun h7 => K.nextH D h7 (K.hH (by omega)), fun h7 _ => diagD_keep D _ (by omega) X (K.diag D (by omega)),
      K.keepV D (by omega), K.waitP D (by omega) (by omega) (by omega)⟩
  stepE := fun t h0 h1 X S B Wv C Vv Pp Hh Dd hF hH hD => point D m o c t hF hH hD fun K => by
    have e := K.e
    exact ⟨fun h7 => K.nextH D h7 (K.hH (by omega)), fun _ _ => K.hD (by omega),
      K.keepV D (by omega), K.waitP D (by omega) (by omega) (by omega)⟩
  stepF := fun t h0 h1 X S B Wv C Vv Pp Hh Dd hF hH hD => point D m o c t hF hH hD fun K => by
    have e := K.e
    exact ⟨fun h => absurd h (by omega), fun h => absurd h (by omega),
      K.row_end D (by omega) Dd fun w hw => diag_terms D _ Dd w (K.hD (by omega)) hw⟩
  stepG := fun t h0 h1 X S B Wv C Vv Pp Hh Dd hF hH hD => point D m o c t hF hH hD fun K => by
    have e := K.e
    exact ⟨fun h => absurd h (by omega), fun h => absurd h (by omega),
      K.row_end D (by omega) (k1_pay6 X) fun w hw => diag_terms_last D _ (by omega) X w (K.diag D (by omega)) hw⟩
  final := final1 D m o c

end Cert.KernelIdeal.Value1

end
-- ==== Proof.Value2.lean ====
import proofs.«161930_g22909355557424_cont_8to1_1761_12_alg».proof.Proof.Reals
import proofs.«161930_g22909355557424_cont_8to1_1761_12_alg».proof.Proof.Region2
import proofs.«161930_g22909355557424_cont_8to1_1761_12_alg».proof.Proof.Body2
import proofs.«161930_g22909355557424_cont_8to1_1761_12_alg».proof.Proof.SpecAlgebra
import proofs.«161930_g22909355557424_cont_8to1_1761_12_alg».proof.Proof.Between
import proofs.«161930_g22909355557424_cont_8to1_1761_12_alg».proof.Proof.Value0
import proofs.«161930_g22909355557424_cont_8to1_1761_12_alg».proof.Proof.Gen.KernelIdeal.Launch
import proofs.«161930_g22909355557424_cont_8to1_1761_12_alg».proof.Proof.Gen.KernelIdeal.Points
import proofs.«161930_g22909355557424_cont_8to1_1761_12_alg».proof.Proof.Gen.KernelIdeal.Skeleton
import Idealize.ShloMosaic.Lib.Pipeline.Frame
import Idealize.ShloMosaic.Lib.Pipeline.Regions
import Idealize.ShloMosaic.Lib.ValueIdx
import Idealize.ShloMosaic.PureOps.Ideal
import Idealize.ShloMosaic.PureOps.Ideal.Laws
import Idealize.ShloMosaic.Lib.Tactic
import Idealize.ShloMosaic.Lib.StableHlo.Predicate

noncomputable section

namespace Cert.KernelIdeal.Value2

open Cert.KernelIdeal Cert.KernelIdeal.Gen Cert.KernelIdeal.Between
open Idealize.ShloMosaic Idealize.ShloMosaic.TcCoe Idealize.ShloMosaic.ValueIdx
open Idealize.ShloMosaic.Pipeline (RDat)
open Finset

variable (D : Reals.Data)

-- Node i's products with the positions of column block jb; a position past the graph's nodes contributes 0.
def blockTerm (i : Fin 10000) (jb : ℕ) : ℝ :=
  ∑ q ∈ range 1280, Reals.Az D i (1280 * jb + q) * Reals.vz D (1280 * jb + q)

-- Node i's running value before column block J: the earlier partial result plus the blocks below J strictly right of the diagonal.
def accUpto (i : Fin 10000) (J : ℕ) : ℝ :=
  Reals.part D i + ∑ jb ∈ range J, (if i.val / 1280 < jb then blockTerm D i jb else 0)

theorem accUpto_one (i : Fin 10000) : accUpto D i 1 = Reals.part D i := by
  unfold accUpto
  rw [sum_range_one, if_neg (Nat.not_lt_zero _), add_zero]

theorem accUpto_succ_of_le (i : Fin 10000) (J : ℕ) (h : J ≤ i.val / 1280) : accUpto D i (J + 1) = accUpto D i J := by
  unfold accUpto
  rw [sum_range_succ, if_neg (not_lt.mpr h), add_zero]

theorem accUpto_succ_of_lt (i : Fin 10000) (J : ℕ) (h : i.val / 1280 < J) :
    accUpto D i (J + 1) = accUpto D i J + blockTerm D i J := by
  unfold accUpto
  rw [sum_range_succ, if_pos h, add_assoc]

-- The rows of block row ib that are nodes of the graph hold the running values before column block J.
def Rows (ib J : ℕ) (Z : Vec Ideal S1280x1 .f32) : Prop :=
  ∀ (r : Fin 1280) (h : 1280 * ib + r.val < 10000), Z (ix2 r (0 : Fin 1)) = ((accUpto D ⟨1280 * ib + r.val, h⟩ J : ℝ) : EReal)

variable (m : (ℓ : Loc nD τ sig) → Buf (Elt Ideal) ℓ)

-- One step along a block row, given the real inputs and the earlier pass's claim: running values before block jb (nothing is asked at block 0) give running values after it.
def relO (o : Outs (F := Ideal)) (c : Dev nD) (t : Fin cfg2.N) (Y X : Vec Ideal S1280x1 .f32) : Prop :=
  Reals.Holds D m c → Reals.G1 D o c →
    (0 < ((grid2.coords t) 1).val → Rows D ((grid2.coords t) 0).val ((grid2.coords t) 1).val Y) →
    Rows D ((grid2.coords t) 0).val (((grid2.coords t) 1).val + 1) X

theorem pay2_apply (Xb : Vec Ideal S1280x1280 .f32) (Y Vb : Vec Ideal S1280x1 .f32) (r : Fin 1280) :
    k2_pay2 Xb Y Vb (ix2 r (0 : Fin 1)) = Y (ix2 r (0 : Fin 1)) + ∑ q : Fin 1280, Xb (ix2 r q) * Vb (ix2 q (0 : Fin 1)) := by
  unfold k2_pay2
  simp only [shapeCast_self]
  exact (addf_apply _ _ _).trans (congrArg (Y (ix2 r (0 : Fin 1)) + ·) (Value0.plain_apply Xb Vb r 0))

-- A block with its columns from 1040 on replaced by zero; the last column block's update is the plain one at it.
def masked (Xb : Vec Ideal S1280x1280 .f32) : Vec Ideal S1280x1280 .f32 :=
  select (cmpi .slt (iota .tc S1280x1280 32 [1] iota_S1280x1280_d1_w32) (broadcast S1280x1280 1040#32)) Xb
    (broadcast S1280x1280 (Scalar.ofBits (F := Ideal) .f32 0x00000000#32))

theorem masked_apply (Xb : Vec Ideal S1280x1280 .f32) (r q : Fin 1280) :
    masked Xb (ix2 r q) = if q.val < 1040 then Xb (ix2 r q) else 0 := by
  have hio : iota .tc S1280x1280 32 [1] iota_S1280x1280_d1_w32 (ix2 r q) = BitVec.ofNat 32 q.val :=
    iota_single_apply .tc S1280x1280 32 1 iota_S1280x1280_d1_w32 (ix2 r q)
  have hq32 : (BitVec.ofNat 32 q.val).toNat = q.val := by
    rw [BitVec.toNat_ofNat]; exact Nat.mod_eq_of_lt (by have := q.isLt; omega)
  have hcmp : IntOp.cmpi .slt (BitVec.ofNat 32 q.val) 1040#32 = 1#1 ↔ q.val < 1040 := by
    rw [StableHlo.Predicate.slt_iff_toNat (by rw [hq32]; have := q.isLt; omega) (by decide), hq32]; rfl
  show Scalar.select (IntOp.cmpi .slt (iota .tc S1280x1280 32 [1] iota_S1280x1280_d1_w32 (ix2 r q)) 1040#32) (Xb (ix2 r q))
      (Ideal.ofBits .f32 0x00000000#32) = _
  rw [hio]
  by_cases hq : q.val < 1040
  · rw [hcmp.2 hq, select_one, if_pos hq]
  · rw [eq_zero_of_ne_one (fun h => hq (hcmp.1 h)), select_zero, if_neg hq, Ideal.ofBits_zero_f32]

-- Strictly right of the diagonal the block's products, entry by entry the reals' products, are added to the running values.
theorem point_U (ib jb : ℕ) (hlt : ib < jb) (Xb : Vec Ideal S1280x1280 .f32) (Y Vb : Vec Ideal S1280x1 .f32)
    (hXV : ∀ (r q : Fin 1280) (h : 1280 * ib + r.val < 10000), Xb (ix2 r q) * Vb (ix2 q (0 : Fin 1))
      = ((Reals.Az D ⟨1280 * ib + r.val, h⟩ (1280 * jb + q.val) : ℝ) : EReal) * ((Reals.vz D (1280 * jb + q.val) : ℝ) : EReal))
    (hY : Rows D ib jb Y) : Rows D ib (jb + 1) (k2_pay2 Xb Y Vb) := by
  intro r h
  rw [pay2_apply, hY r h, accUpto_succ_of_lt D _ jb (by show (1280 * ib + r.val) / 1280 < jb; omega), Spec.coe_add]
  refine congrArg (_ + ·) ?_
  unfold blockTerm
  rw [Spec.coe_sum_mul, Finset.sum_range (fun q => ((Reals.Az D ⟨1280 * ib + r.val, h⟩ (1280 * jb + q) : ℝ) : EReal) * ((Reals.vz D (1280 * jb + q) : ℝ) : EReal))]
  exact Finset.sum_congr rfl fun q _ => hXV r q h

section Steps
variable (o : Outs (F := Ideal)) (c : Dev nD)

theorem found_adj : V4 m o c main_arg0 = m ((c : Thread nD τ).loc main_arg0) :=
  (V4_of m o c main_arg0 (by decide)).trans <| (V3_of m o c main_arg0 (by decide)).trans <|
    (V2_of m o c main_arg0 (by decide)).trans <| (V1_of m c main_arg0 (by decide)).trans rfl

theorem found_v : V4 m o c main_v4_0 = o 4 main_v4_0 c := by
  simp only [V4, Function.update_of_ne (StableHlo.devRef_ne_of_ne (by decide : main_v4_0 ≠ main_v4_1) :
    (Proc.devRef .tc main_v4_0 : DevRef τ sig) ≠ Proc.devRef .tc main_v4_1), Function.update_self]

theorem found_part : V4 m o c main_v4_1 = o 4 main_v4_1 c := by
  simp only [V4, Function.update_self]

theorem coordWord : ∀ a : Fin 8, (BitVec.ofNat 32 a.val).toNat = a.val := by decide +kernel

-- Strictly right of the diagonal the clamped column block index is the point's own.
theorem colBlock_of_lt : ∀ a b : Fin 8, a.val < b.val →
    (Scalar.minsi (Scalar.maxsi (BitVec.ofNat 32 b.val) (Scalar.addi (BitVec.ofNat 32 a.val) 1#32)) 7#32).toNat = b.val := by
  decide +kernel

theorem eq_ix2_of {n0 n1 : ℕ} {i : (⟨2, ![n0, n1]⟩ : Shape).Idx} {a : Fin n0} {b : Fin n1}
    (h0 : (i 0).val = a.val) (h1 : (i 1).val = b.val) : i = ix2 a b :=
  funext fun d => Fin.ext (by match d with | ⟨0, _⟩ => exact h0 | ⟨1, _⟩ => exact h1)

-- The partial result's block at a point, on a row that is a node: the earlier pass's partial result there.
theorem pAt_real (g1 : Reals.G1 D o c) (t : Fin cfg2.N) (r : Fin 1280) (h : 1280 * ((grid2.coords t) 0).val + r.val < 10000) :
    Region2.pAt m o c t (ix2 r (0 : Fin 1)) = ((Reals.part D ⟨_, h⟩ : ℝ) : EReal) := by
  unfold Region2.pAt RDat.blockOf
  show (V4 m o c main_v4_1 : Vec Ideal S10240x1 .f32) (((cfg2.win 2).blk t).view.emb (ix2 r (0 : Fin 1))) = _
  rw [found_part]
  refine (congrArg (o 4 main_v4_1 c : Vec Ideal S10240x1 .f32) (eq_ix2_of ?_ ?_)).trans (g1.2 ⟨_, h⟩)
  · show cc2_transform_2 (grid2.coords t) 0 * 1280 + 1 * r.val = 1280 * ((grid2.coords t) 0).val + r.val
    rw [show cc2_transform_2 (grid2.coords t) 0 = ((grid2.coords t) 0).val from coordWord _]; omega
  · rfl

-- The vector's block at a point strictly right of the diagonal, at a position that is a node.
theorem vAt_real (g1 : Reals.G1 D o c) (t : Fin cfg2.N) (hlt : ((grid2.coords t) 0).val < ((grid2.coords t) 1).val) (q : Fin 1280)
    (hq : 1280 * ((grid2.coords t) 1).val + q.val < 10000) :
    Region2.vAt m o c t (ix2 q (0 : Fin 1)) = ((Reals.vz D (1280 * ((grid2.coords t) 1).val + q.val) : ℝ) : EReal) := by
  unfold Region2.vAt RDat.blockOf Reals.vz
  show (V4 m o c main_v4_0 : Vec Ideal S10240x1 .f32) (((cfg2.win 1).blk t).view.emb (ix2 q (0 : Fin 1))) = _
  rw [found_v, dif_pos hq]
  refine (congrArg (o 4 main_v4_0 c : Vec Ideal S10240x1 .f32) (eq_ix2_of ?_ ?_)).trans (g1.1.1 ⟨_, hq⟩)
  · show cc2_transform_1 (grid2.coords t) 0 * 1280 + 1 * q.val = 1280 * ((grid2.coords t) 1).val + q.val
    rw [show cc2_transform_1 (grid2.coords t) 0 = ((grid2.coords t) 1).val from colBlock_of_lt _ _ hlt]; omega
  · rfl

theorem clip_lt (b x : ℕ) (hx : x < 1280) (h : 1280 * b + x < 10000) : x < (Pipeline.Clip.of b 1280 10000).extent 1280 := by
  unfold Pipeline.Clip.of
  split
  · exact hx
  · show x < 10000 - b * 1280; omega

-- An entry of the block that lies inside the array lies inside the block's clipped extent on both axes.
theorem adj_moved (t : Fin cfg2.N) (hlt : ((grid2.coords t) 0).val < ((grid2.coords t) 1).val) (r q : Fin 1280)
    (hr : 1280 * ((grid2.coords t) 0).val + r.val < 10000) (hq : 1280 * ((grid2.coords t) 1).val + q.val < 10000) :
    ∀ a, ((ix2 r q : S1280x1280.Idx) a).val < (cfg2.win 0).xsize (grid2.coords t) a := by
  intro a
  match a with
  | ⟨0, _⟩ =>
    show r.val < (Pipeline.Clip.of (cc2_transform_0 (grid2.coords t) 0) 1280 10000).extent 1280
    rw [show cc2_transform_0 (grid2.coords t) 0 = ((grid2.coords t) 0).val from coordWord _]
    exact clip_lt _ _ r.isLt hr
  | ⟨1, _⟩ =>
    show q.val < (Pipeline.Clip.of (cc2_transform_0 (grid2.coords t) 1) 1280 10000).extent 1280
    rw [show cc2_transform_0 (grid2.coords t) 1 = ((grid2.coords t) 1).val from colBlock_of_lt _ _ hlt]
    exact clip_lt _ _ q.isLt hq

-- The adjacency's block at a point strictly right of the diagonal, at an entry inside the array: the array's entry, whatever stood there before.
theorem adjAt_real (hm : Reals.Holds D m c) (t : Fin cfg2.N) (d : Vec Ideal S1280x1280 .f32)
    (hlt : ((grid2.coords t) 0).val < ((grid2.coords t) 1).val) (r q : Fin 1280)
    (hr : 1280 * ((grid2.coords t) 0).val + r.val < 10000) (hq : 1280 * ((grid2.coords t) 1).val + q.val < 10000) :
    Region2.adjAt m o c t d (ix2 r q) = ((Reals.Az D ⟨_, hr⟩ (1280 * ((grid2.coords t) 1).val + q.val) : ℝ) : EReal) := by
  unfold Region2.adjAt RDat.fetched Pipeline.Window.fill Reals.Az
  rw [dif_pos (((cfg2.win 0).moved_iff (grid2.coords t) (ix2 r q)).mpr (adj_moved t hlt r q hr hq)), dif_pos hq]
  unfold RDat.blockOf
  show (V4 m o c main_arg0 : Vec Ideal S10000x10000 .f32) (((cfg2.win 0).blk t).view.emb _) = _
  rw [found_adj]
  refine (congrArg (m ((c : Thread nD τ).loc main_arg0) : Vec Ideal S10000x10000 .f32) (eq_ix2_of ?_ ?_)).trans (hm.1 ⟨_, hr⟩ ⟨_, hq⟩)
  · show cc2_transform_0 (grid2.coords t) 0 * 1280 + 1 * r.val = 1280 * ((grid2.coords t) 0).val + r.val
    rw [show cc2_transform_0 (grid2.coords t) 0 = ((grid2.coords t) 0).val from coordWord _]; omega
  · show cc2_transform_0 (grid2.coords t) 1 * 1280 + 1 * q.val = 1280 * ((grid2.coords t) 1).val + q.val
    rw [show cc2_transform_0 (grid2.coords t) 1 = ((grid2.coords t) 1).val from colBlock_of_lt _ _ hlt]; omega

theorem step_Z (t : Fin cfg2.N) (hZ : ((grid2.coords t) 1).val = 0) (Y : Vec Ideal S1280x1 .f32) :
    relO D m o c t Y (k2_pay1 (Region2.pAt m o c t)) := by
  intro hm g1 _ r h
  rw [hZ, Nat.zero_add, accUpto_one]
  exact (congrFun (shapeCast_self _ _) _).trans (pAt_real D m o c g1 t r h)

theorem step_N (t : Fin cfg2.N) (h0 : 0 < ((grid2.coords t) 1).val) (hle : ((grid2.coords t) 1).val ≤ ((grid2.coords t) 0).val)
    (Y : Vec Ideal S1280x1 .f32) : relO D m o c t Y Y := by
  intro _ _ hY r h
  rw [hY h0 r h, accUpto_succ_of_le D _ _ (by show ((grid2.coords t) 1).val ≤ (1280 * ((grid2.coords t) 0).val + r.val) / 1280; omega)]

theorem step_U (t : Fin cfg2.N) (hlt : ((grid2.coords t) 0).val < ((grid2.coords t) 1).val) (h7 : ((grid2.coords t) 1).val < 7)
    (d : Vec Ideal S1280x1280 .f32) (Y : Vec Ideal S1280x1 .f32) :
    relO D m o c t Y (k2_pay2 (Region2.adjAt m o c t d) Y (Region2.vAt m o c t)) := by
  intro hm g1 hY
  refine point_U D _ _ hlt _ _ _ (fun r q h => ?_) (hY (by omega))
  have hq : 1280 * ((grid2.coords t) 1).val + q.val < 10000 := by have := q.isLt; omega
  rw [adjAt_real D m o c hm t d hlt r q h hq, vAt_real D m o c g1 t hlt q hq]

-- In the last column block the columns past the graph's nodes are taken as zero, and so are the reals there.
theorem step_W (t : Fin cfg2.N) (hlt : ((grid2.coords t) 0).val < ((grid2.coords t) 1).val) (h7 : ((grid2.coords t) 1).val = 7)
    (d : Vec Ideal S1280x1280 .f32) (Y : Vec Ideal S1280x1 .f32) :
    relO D m o c t Y (k2_pay3 (Region2.adjAt m o c t d) Y (Region2.vAt m o c t)) := by
  intro hm g1 hY
  refine point_U D _ _ hlt (masked (Region2.adjAt m o c t d)) Y _ (fun r q h => ?_) (hY (by omega))
  rw [masked_apply]
  by_cases hq : q.val < 1040
  · have hq' : 1280 * ((grid2.coords t) 1).val + q.val < 10000 := by omega
    rw [if_pos hq, adjAt_real D m o c hm t d hlt r q h hq', vAt_real D m o c g1 t hlt q hq']
  · rw [if_neg hq, zero_mul, show Reals.Az D _ _ = 0 from dif_neg (by omega), EReal.coe_zero, zero_mul]

end Steps

def term (i : Fin 10000) (j : ℕ) : ℝ := Reals.Az D i j * Reals.vz D j

-- The column blocks below J are the positions below 1280 J, of which those past the graph's nodes contribute nothing.
theorem blocks_upto (i : Fin 10000) (J : ℕ) :
    ∑ jb ∈ range J, blockTerm D i jb = ∑ j ∈ range (min (1280 * J) 10000), term D i j := by
  refine (Spec.sum_blocks_whole 1280 (term D i) J).trans (Eq.trans ?_ (Spec.sum_range_cut 10000 (1280 * J) (term D i)))
  refine Finset.sum_congr rfl fun j _ => ?_
  by_cases h : j < 10000
  · rw [if_pos h]
  · rw [if_neg h]; unfold term Reals.Az; rw [dif_neg h, zero_mul]

theorem part_eq_blocks (i : Fin 10000) :
    Reals.part D i = Reals.c0 D + ∑ jb ∈ range (i.val / 1280 + 1), blockTerm D i jb := by
  rw [blocks_upto]; rfl

theorem blocks_all (i : Fin 10000) : ∑ jb ∈ range 8, blockTerm D i jb = ∑ j : Fin 10000, D.A i j * Reals.v D j := by
  rw [blocks_upto, show min (1280 * 8) 10000 = 10000 from by decide, Finset.sum_range]
  refine Finset.sum_congr rfl fun j _ => ?_
  unfold term Reals.Az Reals.vz
  rw [dif_pos j.isLt, dif_pos j.isLt]

-- The earlier pass added the blocks up to the diagonal, this pass the blocks strictly right of it: together every column.
theorem accUpto_all (i : Fin 10000) : accUpto D i 8 = Reals.out D i := by
  have hib : i.val / 1280 < 8 := by have := i.isLt; omega
  unfold accUpto
  rw [part_eq_blocks, Spec.sum_guard_upper (blockTerm D i) 8 (i.val / 1280), add_assoc,
    ← Spec.sum_blocks_split (blockTerm D i) hib, blocks_all]
  rfl

section Final
variable (o : Outs (F := Ideal)) (c : Dev nD)

theorem coords_of : ∀ t : Fin cfg2.N, ((grid2.coords t) 0).val = t.val / 8 ∧ ((grid2.coords t) 1).val = t.val % 8 :=
  (by decide +kernel : ∀ t : Fin grid2.N, ((grid2.coords t) 0).val = t.val / 8 ∧ ((grid2.coords t) 1).val = t.val % 8)

theorem pt_row (ib : Fin 8) (j : ℕ) (hj : j < 8) : ((grid2.coords (Region2.pt ib j hj)) 0).val = ib.val := by
  rw [(coords_of _).1]; show (8 * ib.val + j) / 8 = ib.val; omega

theorem pt_col (ib : Fin 8) (j : ℕ) (hj : j < 8) : ((grid2.coords (Region2.pt ib j hj)) 1).val = j := by
  rw [(coords_of _).2]; show (8 * ib.val + j) % 8 = j; omega

-- Along a block row the chain of steps carries the running values from block column 0 to the last.
theorem rows_of_chain (hm : Reals.Holds D m c) (g1 : Reals.G1 D o c) (ib : Fin 8) (Z : ℕ → Vec Ideal S1280x1 .f32)
    (hZ : ∀ (j : ℕ) (hj : j ≤ 7), relO D m o c (Region2.pt ib j (by omega)) (Z j) (Z (j + 1))) :
    ∀ (j : ℕ) (hj : j ≤ 7), Rows D ib.val (j + 1) (Z (j + 1)) := by
  intro j
  induction j with
  | zero => intro hj; have h := hZ 0 hj hm g1; rw [pt_row, pt_col] at h; exact h fun h0 => absurd h0 (lt_irrefl 0)
  | succ j ih => intro hj; have h := hZ (j + 1) hj hm g1; rw [pt_row, pt_col] at h; exact h fun _ => ih (by omega)

theorem outBlock_apply (oo : Buf (Elt Ideal) ((c : Thread nD τ).loc main_v5)) (ib : Fin 8) (r : Fin 1280) :
    ((cfg2.win 3).blk (Region2.rowEnd ib)).view.read (Elt Ideal) oo (ix2 r (0 : Fin 1))
      = (oo : Vec Ideal S10240x1 .f32) (ix2 (⟨1280 * ib.val + r.val, by have := ib.isLt; have := r.isLt; omega⟩ : Fin 10240) (0 : Fin 1)) := by
  show (oo : Vec Ideal S10240x1 .f32) (((cfg2.win 3).blk (Region2.rowEnd ib)).view.emb (ix2 r (0 : Fin 1))) = _
  refine congrArg (oo : Vec Ideal S10240x1 .f32) (eq_ix2_of ?_ rfl)
  show cc2_transform_3 (grid2.coords (Region2.rowEnd ib)) 0 * 1280 + 1 * r.val = 1280 * ib.val + r.val
  rw [show cc2_transform_3 (grid2.coords (Region2.rowEnd ib)) 0 = ((grid2.coords (Region2.rowEnd ib)) 0).val from coordWord _, pt_row]; omega

-- Once every block row's last value is in the output array, its rows that are nodes hold the kernel's result.
theorem good_of_arrAt (hm : Reals.Holds D m c) (g1 : Reals.G1 D o c) (oo : Buf (Elt Ideal) ((c : Thread nD τ).loc main_v5))
    (h : (Region2.dat m o c (relO D m o c)).ArrAt 3 cfg2.N oo) : Reals.goodO D oo := by
  intro i
  have hi := i.isLt
  have hib : i.val / 1280 < 8 := by omega
  obtain ⟨Z, hZ8, hZ⟩ := Region2.arrAt_row_chain m o c (relO D m o c) oo h (⟨i.val / 1280, hib⟩ : Fin 8)
  have hr : 1280 * (i.val / 1280) + i.val % 1280 < 10000 := by omega
  have hrow := rows_of_chain D m o c hm g1 (⟨i.val / 1280, hib⟩ : Fin 8) Z hZ 7 le_rfl (⟨i.val % 1280, Nat.mod_lt _ (by decide)⟩ : Fin 1280) hr
  rw [show (⟨1280 * (i.val / 1280) + i.val % 1280, hr⟩ : Fin 10000) = i from Fin.ext (Nat.div_add_mod i.val 1280),
    accUpto_all, hZ8, outBlock_apply] at hrow
  exact (congrArg (oo : Vec Ideal S10240x1 .f32) (eq_ix2_of (Nat.div_add_mod i.val 1280).symm rfl)).trans hrow
end Final

def steps2 (o : Outs (F := Ideal)) (c : Dev nD) : Region2.Steps m (Reals.claims D m) o c where
  relO := relO D m o c
  stepZ t hZ _ := step_Z D m o c t hZ
  stepU := step_U D m o c
  stepW := step_W D m o c
  stepN := step_N D m o c
  final oo h o' e2 e4 e5 := by
    show Reals.Holds D m c → Reals.G0 D o' c → Reals.G1 D o' c → Reals.G2 D o' c
    intro hm _ g1'
    show Reals.goodO D (o' 5 main_v5 c)
    rw [e5]
    exact good_of_arrAt D m o c hm (Reals.G1_congr D e4.symm c g1') oo h

end Cert.KernelIdeal.Value2

end
-- ==== Proof.Final.lean ====
import proofs.«161930_g22909355557424_cont_8to1_1761_12_alg».proof.Proof.FinalPrep
import proofs.«161930_g22909355557424_cont_8to1_1761_12_alg».proof.Proof.ResultRead
import proofs.«161930_g22909355557424_cont_8to1_1761_12_alg».proof.Proof.RefValue
import proofs.«161930_g22909355557424_cont_8to1_1761_12_alg».proof.Proof.Region0
import proofs.«161930_g22909355557424_cont_8to1_1761_12_alg».proof.Proof.Region1
import proofs.«161930_g22909355557424_cont_8to1_1761_12_alg».proof.Proof.Region2
import proofs.«161930_g22909355557424_cont_8to1_1761_12_alg».proof.Proof.Value0
import proofs.«161930_g22909355557424_cont_8to1_1761_12_alg».proof.Proof.Value1
import proofs.«161930_g22909355557424_cont_8to1_1761_12_alg».proof.Proof.Value2

noncomputable section

namespace Cert.KernelIdeal.Final

open Cert.KernelIdeal Cert.KernelIdeal.Gen Cert.KernelIdeal.Between
open Idealize.ShloMosaic Idealize.ShloMosaic.TcCoe Idealize.ShloMosaic.ValueIdx
open Idealize.SL.Sem

-- Both runs end with row i at a real number, out D i and the reference's formula, and the two are equal.
theorem algebraic [hK : Cert.KernelIdeal.Facts] [hR : Cert.ReferenceIdeal.Facts] [hP : Cert.Pre_finite_inputs.Facts] :
    Cert.algebraic_KernelIdeal_ReferenceIdeal := by
  intro m ρ m' ρ' hpre hagree
  obtain ⟨D, hD⟩ := Cert.KernelIdeal.FinalPrep.data_of_pre m hpre
  refine ⟨fun c (j : S10000x1.Idx) => ((Reals.out D (j 0) : ℝ) : EReal), ?_, ?_⟩
  · refine (θ_run (defs (F := Ideal)) _ _).mono (fun r h c => ?_)
      (Cert.KernelIdeal.Whole.run m (Reals.claims D m)
        (Region0.rd m) (Region0.R0 m (Reals.claims D m) (Value0.after0_holds m D))
        (fun o => Region1.rd m (Reals.claims D m) o (Value1.steps1 D m o))
        (fun o => Region1.R1 m (Reals.claims D m) o (Value1.steps1 D m o))
        (fun o => Region2.rd m (Reals.claims D m) o (Value2.steps2 D m o))
        (fun o => Region2.R2 m (Reals.claims D m) o (Value2.steps2 D m o))
        ρ (Region0.pre_eq m _ _) (Region0.post_eq m _ _) (fun o => Region1.R1_pre m _ o _)
        (fun o => Region1.R1_post m _ o _) (fun o => Region2.R2_pre m _ o _) (fun o => Region2.R2_post m _ o _))
    obtain ⟨⟨o, hk, hv6⟩, hargs⟩ := h c
    refine ⟨?_, hargs⟩
    rw [hv6]
    funext j
    rw [(eq_ix2 j).trans (congrArg _ (Subsingleton.elim (α := Fin 1) _ 0))]
    exact (Cert.KernelIdeal.ResultRead.result_at m o c (j 0)).trans (Reals.good_of_known5 D m c (hD c) o hk (j 0))
  · refine (θ_run (Cert.ReferenceIdeal.defs (F := Ideal)) _ _).mono (fun r h c => ⟨?_, (h c).2⟩)
      (Cert.ReferenceIdeal.Value.run (F := Ideal) m' ρ')
    obtain ⟨e0, e1, e2, e3, e4, e5, e6, e7⟩ := hagree c
    obtain ⟨ha, hx, hw1, hb1, hw2, hb2, hwl, hbl⟩ := hD c
    rw [(h c).1, Cert.ReferenceIdeal.Read.val_main_v14_eq, e0, e1, e2, e3, e4, e5, e6, e7]
    funext j
    exact (Cert.ReferenceIdeal.RefValue.reference_at D.A D.X D.W1 D.W2 D.b1 D.b2 D.Wl D.bl _ _ _ _ _ _ _ _
      ha hx hw1 hb1 hw2 hb2 hwl hbl j).trans (congrArg _ (Cert.KernelIdeal.FinalPrep.out_eq_refOut D (j 0)).symm)

end Cert.KernelIdeal.Final

end
-- ==== Proof.lean ====
import proofs.«161930_g22909355557424_cont_8to1_1761_12_alg».proof.Defs
import proofs.«161930_g22909355557424_cont_8to1_1761_12_alg».proof.Proof.Gen.Kernel
import proofs.«161930_g22909355557424_cont_8to1_1761_12_alg».proof.Proof.Gen.KernelIdeal
import proofs.«161930_g22909355557424_cont_8to1_1761_12_alg».proof.Proof.Gen.ReferenceIdeal
import proofs.«161930_g22909355557424_cont_8to1_1761_12_alg».proof.Proof.Gen.Pre_finite_inputs
import proofs.«161930_g22909355557424_cont_8to1_1761_12_alg».proof.Proof.Gen.ReferenceIdeal.Run
import proofs.«161930_g22909355557424_cont_8to1_1761_12_alg».proof.Proof.Frames
import proofs.«161930_g22909355557424_cont_8to1_1761_12_alg».proof.Proof.K.Frames
import proofs.«161930_g22909355557424_cont_8to1_1761_12_alg».proof.Proof.Final
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Frames.frame (F := Bits) m ρ

theorem frame_ki : @Cert.frame_KernelIdeal Cert.KernelIdeal.Gen.facts Cert.Pre_finite_inputs.Gen.facts :=
  fun m ρ _ => Cert.KernelIdeal.Frames.frame (F := Ideal) m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

theorem claim : Cert.Claim :=
  ⟨Cert.Kernel.Gen.facts, Cert.KernelIdeal.Gen.facts, Cert.ReferenceIdeal.Gen.facts, Cert.Pre_finite_inputs.Gen.facts,
    frame_k, frame_ki, frame_ri, trivial,
    @Cert.KernelIdeal.Final.algebraic Cert.KernelIdeal.Gen.facts Cert.ReferenceIdeal.Gen.facts Cert.Pre_finite_inputs.Gen.facts⟩

end Cert.Proof

end
